-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 512]⟩ ⟨2, ![8192, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x8192 : Shape := ⟨2, ![1024, 8192]⟩
abbrev S8192x4096 : Shape := ⟨2, ![8192, 4096]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S1024x8192 .f32) (main_arg1 : FVec F S8192x4096 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Pre_finite_inputs_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192x8192 .f32) (main_arg1 : FVec F S8192x4096 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S1024x8192 : Shape := ⟨2, ![1024, 8192]⟩
abbrev S8192x4096 : Shape := ⟨2, ![8192, 4096]⟩
abbrev S8192x512 : Shape := ⟨2, ![8192, 512]⟩
abbrev S2x2048x512 : Shape := ⟨3, ![2, 2048, 512]⟩
abbrev S1024x512 : Shape := ⟨2, ![1024, 512]⟩
abbrev S7x1024x512 : Shape := ⟨3, ![7, 1024, 512]⟩
abbrev S2x1024x512 : Shape := ⟨3, ![2, 1024, 512]⟩
abbrev S2 : Shape := ⟨1, ![2]⟩
abbrev S7 : Shape := ⟨1, ![7]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S1024x2048 : Shape := ⟨2, ![1024, 2048]⟩
abbrev S1x1024x512 : Shape := ⟨3, ![1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .f32⟩
  | .hbm, ⟨1, _⟩ => ⟨S8192x4096, .f32⟩
  | .hbm, ⟨2, _⟩ => ⟨S8192x512, .f32⟩
  | .local _ .vmem, ⟨0, _⟩ => ⟨S1024x8192, .f32⟩
  | .local _ .vmem, ⟨1, _⟩ => ⟨S2x2048x512, .f32⟩
  | .local _ .vmem, ⟨2, _⟩ => ⟨S1024x512, .f32⟩
  | .local _ .vmem, ⟨3, _⟩ => ⟨S7x1024x512, .bf16⟩
  | .local _ .vmem, ⟨4, _⟩ => ⟨S7x1024x512, .bf16⟩
  | .local _ .vmem, ⟨5, _⟩ => ⟨S2x1024x512, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 2 → Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c512_i32 : BitVec 32 := 512#32
  let v106 : BitVec 32 := Scalar.muli v105 c512_i32
  ![0, v106.toNat]
def k0_off2 (d0 : Dev nD) (c1_i32_76 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v112 : BitVec 32 := Scalar.addi v2 c1_i32_76
  let c8_i32_77 : BitVec 32 := 8#32
  let c0_i32_78 : BitVec 32 := 0#32
  let v113 : BitVec 1 := Scalar.cmpi .eq c8_i32_77 c0_i32_78
  let c1_i32_79 : BitVec 32 := 1#32
  let v114 : BitVec 32 := Scalar.select v113 c1_i32_79 c8_i32_77
  let v115 : BitVec 32 := Scalar.remsi v112 v114
  let c0_i32_81 : BitVec 32 := 0#32
  let v117 : BitVec 1 := Scalar.cmpi .slt v115 c0_i32_81
  let c0_i32_82 : BitVec 32 := 0#32
  let v118 : BitVec 1 := Scalar.cmpi .slt v114 c0_i32_82
  let v119 : BitVec 1 := Scalar.xori v117 v118
  let c0_i32_80 : BitVec 32 := 0#32
  let v116 : BitVec 1 := Scalar.cmpi .ne v115 c0_i32_80
  let v120 : BitVec 1 := Scalar.andi v119 v116
  let v121 : BitVec 32 := Scalar.addi v115 v114
  let v122 : BitVec 32 := Scalar.select v120 v121 v115
  let c512_i32_83 : BitVec 32 := 512#32
  let v123 : BitVec 32 := Scalar.muli v122 c512_i32_83
  ![2048, v123.toNat]
def k0_off3 (d0 : Dev nD) (c1_i32_107 : BitVec 32) : Fin 2 → Nat :=
  let c4096_i32 : BitVec 32 := 4096#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : BitVec 32 := Scalar.addi v2 c1_i32_107
  let c8_i32_108 : BitVec 32 := 8#32
  let c0_i32_109 : BitVec 32 := 0#32
  let v155 : BitVec 1 := Scalar.cmpi .eq c8_i32_108 c0_i32_109
  let c1_i32_110 : BitVec 32 := 1#32
  let v156 : BitVec 32 := Scalar.select v155 c1_i32_110 c8_i32_108
  let v157 : BitVec 32 := Scalar.remsi v154 v156
  let c0_i32_112 : BitVec 32 := 0#32
  let v159 : BitVec 1 := Scalar.cmpi .slt v157 c0_i32_112
  let c0_i32_113 : BitVec 32 := 0#32
  let v160 : BitVec 1 := Scalar.cmpi .slt v156 c0_i32_113
  let v161 : BitVec 1 := Scalar.xori v159 v160
  let c0_i32_111 : BitVec 32 := 0#32
  let v158 : BitVec 1 := Scalar.cmpi .ne v157 c0_i32_111
  let v162 : BitVec 1 := Scalar.andi v161 v158
  let v163 : BitVec 32 := Scalar.addi v157 v156
  let v164 : BitVec 32 := Scalar.select v162 v163 v157
  let c512_i32_114 : BitVec 32 := 512#32
  let v165 : BitVec 32 := Scalar.muli v164 c512_i32_114
  ![4096, v165.toNat]
def k0_off4 (d0 : Dev nD) (c1_i32_140 : BitVec 32) : Fin 2 → Nat :=
  let c6144_i32 : BitVec 32 := 6144#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v198 : BitVec 32 := Scalar.addi v2 c1_i32_140
  let c8_i32_141 : BitVec 32 := 8#32
  let c0_i32_142 : BitVec 32 := 0#32
  let v199 : BitVec 1 := Scalar.cmpi .eq c8_i32_141 c0_i32_142
  let c1_i32_143 : BitVec 32 := 1#32
  let v200 : BitVec 32 := Scalar.select v199 c1_i32_143 c8_i32_141
  let v201 : BitVec 32 := Scalar.remsi v198 v200
  let c0_i32_145 : BitVec 32 := 0#32
  let v203 : BitVec 1 := Scalar.cmpi .slt v201 c0_i32_145
  let c0_i32_146 : BitVec 32 := 0#32
  let v204 : BitVec 1 := Scalar.cmpi .slt v200 c0_i32_146
  let v205 : BitVec 1 := Scalar.xori v203 v204
  let c0_i32_144 : BitVec 32 := 0#32
  let v202 : BitVec 1 := Scalar.cmpi .ne v201 c0_i32_144
  let v206 : BitVec 1 := Scalar.andi v205 v202
  let v207 : BitVec 32 := Scalar.addi v201 v200
  let v208 : BitVec 32 := Scalar.select v206 v207 v201
  let c512_i32_147 : BitVec 32 := 512#32
  let v209 : BitVec 32 := Scalar.muli v208 c512_i32_147
  ![6144, v209.toNat]
def k0_dev8 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v293 : BitVec 32 := Scalar.addi v2 c1_i32_215
  let c8_i32_216 : BitVec 32 := 8#32
  let c0_i32_217 : BitVec 32 := 0#32
  let v294 : BitVec 1 := Scalar.cmpi .eq c8_i32_216 c0_i32_217
  let c1_i32_218 : BitVec 32 := 1#32
  let v295 : BitVec 32 := Scalar.select v294 c1_i32_218 c8_i32_216
  let v296 : BitVec 32 := Scalar.remsi v293 v295
  let c0_i32_220 : BitVec 32 := 0#32
  let v298 : BitVec 1 := Scalar.cmpi .slt v296 c0_i32_220
  let c0_i32_221 : BitVec 32 := 0#32
  let v299 : BitVec 1 := Scalar.cmpi .slt v295 c0_i32_221
  let v300 : BitVec 1 := Scalar.xori v298 v299
  let c0_i32_219 : BitVec 32 := 0#32
  let v297 : BitVec 1 := Scalar.cmpi .ne v296 c0_i32_219
  let v301 : BitVec 1 := Scalar.andi v300 v297
  let v302 : BitVec 32 := Scalar.addi v296 v295
  let v303 : BitVec 32 := Scalar.select v301 v302 v296
  let c1_i32_226 : BitVec 32 := 1#32
  let v304 : BitVec 32 := Scalar.muli v303 c1_i32_226
  let v305 : BitVec 32 := Scalar.addi c0_i32_227 v304
  v305.toNat
def k0_dev9 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_380 : BitVec 32 := 2#32
  let v495 : BitVec 32 := Scalar.addi v2 c2_i32_380
  let c8_i32_381 : BitVec 32 := 8#32
  let c0_i32_382 : BitVec 32 := 0#32
  let v496 : BitVec 1 := Scalar.cmpi .eq c8_i32_381 c0_i32_382
  let c1_i32_383 : BitVec 32 := 1#32
  let v497 : BitVec 32 := Scalar.select v496 c1_i32_383 c8_i32_381
  let v498 : BitVec 32 := Scalar.remsi v495 v497
  let c0_i32_385 : BitVec 32 := 0#32
  let v500 : BitVec 1 := Scalar.cmpi .slt v498 c0_i32_385
  let c0_i32_386 : BitVec 32 := 0#32
  let v501 : BitVec 1 := Scalar.cmpi .slt v497 c0_i32_386
  let v502 : BitVec 1 := Scalar.xori v500 v501
  let c0_i32_384 : BitVec 32 := 0#32
  let v499 : BitVec 1 := Scalar.cmpi .ne v498 c0_i32_384
  let v503 : BitVec 1 := Scalar.andi v502 v499
  let v504 : BitVec 32 := Scalar.addi v498 v497
  let v505 : BitVec 32 := Scalar.select v503 v504 v498
  let c1_i32_391 : BitVec 32 := 1#32
  let v506 : BitVec 32 := Scalar.muli v505 c1_i32_391
  let v507 : BitVec 32 := Scalar.addi c0_i32_392 v506
  v507.toNat
def k0_dev10 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_544 : BitVec 32 := 3#32
  let v697 : BitVec 32 := Scalar.addi v2 c3_i32_544
  let c8_i32_545 : BitVec 32 := 8#32
  let c0_i32_546 : BitVec 32 := 0#32
  let v698 : BitVec 1 := Scalar.cmpi .eq c8_i32_545 c0_i32_546
  let c1_i32_547 : BitVec 32 := 1#32
  let v699 : BitVec 32 := Scalar.select v698 c1_i32_547 c8_i32_545
  let v700 : BitVec 32 := Scalar.remsi v697 v699
  let c0_i32_549 : BitVec 32 := 0#32
  let v702 : BitVec 1 := Scalar.cmpi .slt v700 c0_i32_549
  let c0_i32_550 : BitVec 32 := 0#32
  let v703 : BitVec 1 := Scalar.cmpi .slt v699 c0_i32_550
  let v704 : BitVec 1 := Scalar.xori v702 v703
  let c0_i32_548 : BitVec 32 := 0#32
  let v701 : BitVec 1 := Scalar.cmpi .ne v700 c0_i32_548
  let v705 : BitVec 1 := Scalar.andi v704 v701
  let v706 : BitVec 32 := Scalar.addi v700 v699
  let v707 : BitVec 32 := Scalar.select v705 v706 v700
  let c1_i32_555 : BitVec 32 := 1#32
  let v708 : BitVec 32 := Scalar.muli v707 c1_i32_555
  let v709 : BitVec 32 := Scalar.addi c0_i32_556 v708
  v709.toNat
def k0_dev11 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_708 : BitVec 32 := 4#32
  let v899 : BitVec 32 := Scalar.addi v2 c4_i32_708
  let c8_i32_709 : BitVec 32 := 8#32
  let c0_i32_710 : BitVec 32 := 0#32
  let v900 : BitVec 1 := Scalar.cmpi .eq c8_i32_709 c0_i32_710
  let c1_i32_711 : BitVec 32 := 1#32
  let v901 : BitVec 32 := Scalar.select v900 c1_i32_711 c8_i32_709
  let v902 : BitVec 32 := Scalar.remsi v899 v901
  let c0_i32_713 : BitVec 32 := 0#32
  let v904 : BitVec 1 := Scalar.cmpi .slt v902 c0_i32_713
  let c0_i32_714 : BitVec 32 := 0#32
  let v905 : BitVec 1 := Scalar.cmpi .slt v901 c0_i32_714
  let v906 : BitVec 1 := Scalar.xori v904 v905
  let c0_i32_712 : BitVec 32 := 0#32
  let v903 : BitVec 1 := Scalar.cmpi .ne v902 c0_i32_712
  let v907 : BitVec 1 := Scalar.andi v906 v903
  let v908 : BitVec 32 := Scalar.addi v902 v901
  let v909 : BitVec 32 := Scalar.select v907 v908 v902
  let c1_i32_719 : BitVec 32 := 1#32
  let v910 : BitVec 32 := Scalar.muli v909 c1_i32_719
  let v911 : BitVec 32 := Scalar.addi c0_i32_720 v910
  v911.toNat
def k0_dev12 (d0 : Dev nD) : Nat :=
  let c0_i32_884 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_872 : BitVec 32 := 5#32
  let v1101 : BitVec 32 := Scalar.addi v2 c5_i32_872
  let c8_i32_873 : BitVec 32 := 8#32
  let c0_i32_874 : BitVec 32 := 0#32
  let v1102 : BitVec 1 := Scalar.cmpi .eq c8_i32_873 c0_i32_874
  let c1_i32_875 : BitVec 32 := 1#32
  let v1103 : BitVec 32 := Scalar.select v1102 c1_i32_875 c8_i32_873
  let v1104 : BitVec 32 := Scalar.remsi v1101 v1103
  let c0_i32_877 : BitVec 32 := 0#32
  let v1106 : BitVec 1 := Scalar.cmpi .slt v1104 c0_i32_877
  let c0_i32_878 : BitVec 32 := 0#32
  let v1107 : BitVec 1 := Scalar.cmpi .slt v1103 c0_i32_878
  let v1108 : BitVec 1 := Scalar.xori v1106 v1107
  let c0_i32_876 : BitVec 32 := 0#32
  let v1105 : BitVec 1 := Scalar.cmpi .ne v1104 c0_i32_876
  let v1109 : BitVec 1 := Scalar.andi v1108 v1105
  let v1110 : BitVec 32 := Scalar.addi v1104 v1103
  let v1111 : BitVec 32 := Scalar.select v1109 v1110 v1104
  let c1_i32_883 : BitVec 32 := 1#32
  let v1112 : BitVec 32 := Scalar.muli v1111 c1_i32_883
  let v1113 : BitVec 32 := Scalar.addi c0_i32_884 v1112
  v1113.toNat
def k0_dev13 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1036 : BitVec 32 := 6#32
  let v1303 : BitVec 32 := Scalar.addi v2 c6_i32_1036
  let c8_i32_1037 : BitVec 32 := 8#32
  let c0_i32_1038 : BitVec 32 := 0#32
  let v1304 : BitVec 1 := Scalar.cmpi .eq c8_i32_1037 c0_i32_1038
  let c1_i32_1039 : BitVec 32 := 1#32
  let v1305 : BitVec 32 := Scalar.select v1304 c1_i32_1039 c8_i32_1037
  let v1306 : BitVec 32 := Scalar.remsi v1303 v1305
  let c0_i32_1041 : BitVec 32 := 0#32
  let v1308 : BitVec 1 := Scalar.cmpi .slt v1306 c0_i32_1041
  let c0_i32_1042 : BitVec 32 := 0#32
  let v1309 : BitVec 1 := Scalar.cmpi .slt v1305 c0_i32_1042
  let v1310 : BitVec 1 := Scalar.xori v1308 v1309
  let c0_i32_1040 : BitVec 32 := 0#32
  let v1307 : BitVec 1 := Scalar.cmpi .ne v1306 c0_i32_1040
  let v1311 : BitVec 1 := Scalar.andi v1310 v1307
  let v1312 : BitVec 32 := Scalar.addi v1306 v1305
  let v1313 : BitVec 32 := Scalar.select v1311 v1312 v1306
  let c1_i32_1047 : BitVec 32 := 1#32
  let v1314 : BitVec 32 := Scalar.muli v1313 c1_i32_1047
  let v1315 : BitVec 32 := Scalar.addi c0_i32_1048 v1314
  v1315.toNat
def k0_dev14 (d0 : Dev nD) : Nat :=
  let c0_i32_1212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1200 : BitVec 32 := 7#32
  let v1505 : BitVec 32 := Scalar.addi v2 c7_i32_1200
  let c8_i32_1201 : BitVec 32 := 8#32
  let c0_i32_1202 : BitVec 32 := 0#32
  let v1506 : BitVec 1 := Scalar.cmpi .eq c8_i32_1201 c0_i32_1202
  let c1_i32_1203 : BitVec 32 := 1#32
  let v1507 : BitVec 32 := Scalar.select v1506 c1_i32_1203 c8_i32_1201
  let v1508 : BitVec 32 := Scalar.remsi v1505 v1507
  let c0_i32_1205 : BitVec 32 := 0#32
  let v1510 : BitVec 1 := Scalar.cmpi .slt v1508 c0_i32_1205
  let c0_i32_1206 : BitVec 32 := 0#32
  let v1511 : BitVec 1 := Scalar.cmpi .slt v1507 c0_i32_1206
  let v1512 : BitVec 1 := Scalar.xori v1510 v1511
  let c0_i32_1204 : BitVec 32 := 0#32
  let v1509 : BitVec 1 := Scalar.cmpi .ne v1508 c0_i32_1204
  let v1513 : BitVec 1 := Scalar.andi v1512 v1509
  let v1514 : BitVec 32 := Scalar.addi v1508 v1507
  let v1515 : BitVec 32 := Scalar.select v1513 v1514 v1508
  let c1_i32_1211 : BitVec 32 := 1#32
  let v1516 : BitVec 32 := Scalar.muli v1515 c1_i32_1211
  let v1517 : BitVec 32 := Scalar.addi c0_i32_1212 v1516
  v1517.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v1689 : BitVec 32 := Scalar.muli v2 c1024_i32
  let c0_i32_1354 : BitVec 32 := 0#32
  ![v1689.toNat, 0]
def k0_off6 (d0 : Dev nD) (c1_i32_1380 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1720 : BitVec 32 := Scalar.subi v2 c1_i32_1380
  let c8_i32_1381 : BitVec 32 := 8#32
  let c0_i32_1382 : BitVec 32 := 0#32
  let v1721 : BitVec 1 := Scalar.cmpi .eq c8_i32_1381 c0_i32_1382
  let c1_i32_1383 : BitVec 32 := 1#32
  let v1722 : BitVec 32 := Scalar.select v1721 c1_i32_1383 c8_i32_1381
  let v1723 : BitVec 32 := Scalar.remsi v1720 v1722
  let c0_i32_1385 : BitVec 32 := 0#32
  let v1725 : BitVec 1 := Scalar.cmpi .slt v1723 c0_i32_1385
  let c0_i32_1386 : BitVec 32 := 0#32
  let v1726 : BitVec 1 := Scalar.cmpi .slt v1722 c0_i32_1386
  let v1727 : BitVec 1 := Scalar.xori v1725 v1726
  let c0_i32_1384 : BitVec 32 := 0#32
  let v1724 : BitVec 1 := Scalar.cmpi .ne v1723 c0_i32_1384
  let v1728 : BitVec 1 := Scalar.andi v1727 v1724
  let v1729 : BitVec 32 := Scalar.addi v1723 v1722
  let v1730 : BitVec 32 := Scalar.select v1728 v1729 v1723
  let c1024_i32_1387 : BitVec 32 := 1024#32
  let v1731 : BitVec 32 := Scalar.muli v1730 c1024_i32_1387
  let c0_i32_1390 : BitVec 32 := 0#32
  ![v1731.toNat, 0]
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_7 : (7#32 : BitVec 32).msb = false
  inb_S2_S1_0 : ∀ a, (![0] : Fin 1 → Nat) a + S1.size a ≤ S2.size a
  squeezes_S1_S_ : S1.Squeezes S_
  inb_S2x2048x512_S1x2048x512_0_0_0 : ∀ a, (![0, 0, 0] : Fin 3 → Nat) a + S1x2048x512.size a ≤ S2x2048x512.size a
  squeezes_S1x2048x512_S2048x512 : S1x2048x512.Squeezes S2048x512
  inb_S2_S1_1 : ∀ a, (![1] : Fin 1 → Nat) a + S1.size a ≤ S2.size a
  inb_S2x2048x512_S1x2048x512_1_0_0 : ∀ a, (![1, 0, 0] : Fin 3 → Nat) a + S1x2048x512.size a ≤ S2x2048x512.size a
  inb_S1024x8192_S1024x2048_0_0 : ∀ a, (![0, 0] : Fin 2 → Nat) a + S1024x2048.size a ≤ S1024x8192.size a
  h_S1024x2048 : 0 < S1024x2048.numel
  shapeCasts_S1024x2048_S1024x2048 : S1024x2048.ShapeCasts S1024x2048
  h_S1x2048x512 : 0 < S1x2048x512.numel
  shapeCasts_S1x2048x512_S2048x512 : S1x2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x8192_S1024x2048_0_2048 : ∀ a, (![0, 2048] : Fin 2 → Nat) a + S1024x2048.size a ≤ S1024x8192.size a
  inb_S1024x8192_S1024x2048_0_4096 : ∀ a, (![0, 4096] : Fin 2 → Nat) a + S1024x2048.size a ≤ S1024x8192.size a
  inb_S1024x8192_S1024x2048_0_6144 : ∀ a, (![0, 6144] : Fin 2 → Nat) a + S1024x2048.size a ≤ S1024x8192.size a
  bitsLt_bf16_f32 : FTy.bits .bf16 < FTy.bits .f32
  inb_S7x1024x512_S1x1024x512_0_0_0 : ∀ a, (![0, 0, 0] : Fin 3 → Nat) a + S1x1024x512.size a ≤ S7x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S7x1024x512_S1x1024x512_0_0_0 : (Rect.unit (s := S7x1024x512) ![0, 0, 0] S1x1024x512.size inb_S7x1024x512_S1x1024x512_0_0_0).PackedRows (EltTy.packing .bf16)
  inb_S7_S1_0 : ∀ a, (![0] : Fin 1 → Nat) a + S1.size a ≤ S7.size a
  squeezes_S1x1024x512_S1024x512 : S1x1024x512.Squeezes S1024x512
  wordsbf16_S7x1024x512_S1x1024x512_0_0_0 : (Rect.unit (s := S7x1024x512) ![0, 0, 0] S1x1024x512.size inb_S7x1024x512_S1x1024x512_0_0_0).WholeWords (EltTy.packing .bf16)
  inb_S7x1024x512_S1x1024x512_1_0_0 : ∀ a, (![1, 0, 0] : Fin 3 → Nat) a + S1x1024x512.size a ≤ S7x1024x512.size a
  packedbf16_S7x1024x512_S1x1024x512_1_0_0 : (Rect.unit (s := S7x1024x512) ![1, 0, 0] S1x1024x512.size inb_S7x1024x512_S1x1024x512_1_0_0).PackedRows (EltTy.packing .bf16)
  inb_S7_S1_1 : ∀ a, (![1] : Fin 1 → Nat) a + S1.size a ≤ S7.size a
  wordsbf16_S7x1024x512_S1x1024x512_1_0_0 : (Rect.unit (s := S7x1024x512) ![1, 0, 0] S1x1024x512.size inb_S7x1024x512_S1x1024x512_1_0_0).WholeWords (EltTy.packing .bf16)
  inb_S7x1024x512_S1x1024x512_2_0_0 : ∀ a, (![2, 0, 0] : Fin 3 → Nat) a + S1x1024x512.size a ≤ S7x1024x512.size a
  packedbf16_S7x1024x512_S1x1024x512_2_0_0 : (Rect.unit (s := S7x1024x512) ![2, 0, 0] S1x1024x512.size inb_S7x1024x512_S1x1024x512_2_0_0).PackedRows (EltTy.packing .bf16)
  inb_S7_S1_2 : ∀ a, (![2] : Fin 1 → Nat) a + S1.size a ≤ S7.size a
  wordsbf16_S7x1024x512_S1x1024x512_2_0_0 : (Rect.unit (s := S7x1024x512) ![2, 0, 0] S1x1024x512.size inb_S7x1024x512_S1x1024x512_2_0_0).WholeWords (EltTy.packing .bf16)
  inb_S7x1024x512_S1x1024x512_3_0_0 : ∀ a, (![3, 0, 0] : Fin 3 → Nat) a + S1x1024x512.size a ≤ S7x1024x512.size a
  packedbf16_S7x1024x512_S1x1024x512_3_0_0 : (Rect.unit (s := S7x1024x512) ![3, 0, 0] S1x1024x512.size inb_S7x1024x512_S1x1024x512_3_0_0).PackedRows (EltTy.packing .bf16)
  inb_S7_S1_3 : ∀ a, (![3] : Fin 1 → Nat) a + S1.size a ≤ S7.size a
  wordsbf16_S7x1024x512_S1x1024x512_3_0_0 : (Rect.unit (s := S7x1024x512) ![3, 0, 0] S1x1024x512.size inb_S7x1024x512_S1x1024x512_3_0_0).WholeWords (EltTy.packing .bf16)
  inb_S7x1024x512_S1x1024x512_4_0_0 : ∀ a, (![4, 0, 0] : Fin 3 → Nat) a + S1x1024x512.size a ≤ S7x1024x512.size a
  packedbf16_S7x1024x512_S1x1024x512_4_0_0 : (Rect.unit (s := S7x1024x512) ![4, 0, 0] S1x1024x512.size inb_S7x1024x512_S1x1024x512_4_0_0).PackedRows (EltTy.packing .bf16)
  inb_S7_S1_4 : ∀ a, (![4] : Fin 1 → Nat) a + S1.size a ≤ S7.size a
  wordsbf16_S7x1024x512_S1x1024x512_4_0_0 : (Rect.unit (s := S7x1024x512) ![4, 0, 0] S1x1024x512.size inb_S7x1024x512_S1x1024x512_4_0_0).WholeWords (EltTy.packing .bf16)
  inb_S7x1024x512_S1x1024x512_5_0_0 : ∀ a, (![5, 0, 0] : Fin 3 → Nat) a + S1x1024x512.size a ≤ S7x1024x512.size a
  packedbf16_S7x1024x512_S1x1024x512_5_0_0 : (Rect.unit (s := S7x1024x512) ![5, 0, 0] S1x1024x512.size inb_S7x1024x512_S1x1024x512_5_0_0).PackedRows (EltTy.packing .bf16)
  inb_S7_S1_5 : ∀ a, (![5] : Fin 1 → Nat) a + S1.size a ≤ S7.size a
  wordsbf16_S7x1024x512_S1x1024x512_5_0_0 : (Rect.unit (s := S7x1024x512) ![5, 0, 0] S1x1024x512.size inb_S7x1024x512_S1x1024x512_5_0_0).WholeWords (EltTy.packing .bf16)
  inb_S7x1024x512_S1x1024x512_6_0_0 : ∀ a, (![6, 0, 0] : Fin 3 → Nat) a + S1x1024x512.size a ≤ S7x1024x512.size a
  packedbf16_S7x1024x512_S1x1024x512_6_0_0 : (Rect.unit (s := S7x1024x512) ![6, 0, 0] S1x1024x512.size inb_S7x1024x512_S1x1024x512_6_0_0).PackedRows (EltTy.packing .bf16)
  inb_S7_S1_6 : ∀ a, (![6] : Fin 1 → Nat) a + S1.size a ≤ S7.size a
  wordsbf16_S7x1024x512_S1x1024x512_6_0_0 : (Rect.unit (s := S7x1024x512) ![6, 0, 0] S1x1024x512.size inb_S7x1024x512_S1x1024x512_6_0_0).WholeWords (EltTy.packing .bf16)
  inb_S2x1024x512_S1x1024x512_0_0_0 : ∀ a, (![0, 0, 0] : Fin 3 → Nat) a + S1x1024x512.size a ≤ S2x1024x512.size a
  inb_S2x1024x512_S1x1024x512_1_0_0 : ∀ a, (![1, 0, 0] : Fin 3 → Nat) a + S1x1024x512.size a ≤ S2x1024x512.size a
  dot_S1024x2048_S2048x512_S1024x512_1_0_0_1_n_n_wf : DotDims.WF S1024x2048 S2048x512 S1024x512 [1] [0] [0] [1] [] []
  hcc0_scratch5 : 1 + S2.numel ≤ 19
  hcc0_scratch6 : 3 + S7.numel ≤ 19
  hcc0_scratch7 : 10 + S7.numel ≤ 19
  hcc0_scratch8 : 17 + S2.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 8), ∀ a, (k0_off1 d0 (BitVec.ofNat 32 r.val)) a + S2048x512.size a ≤ S8192x4096.size a
  k0_off2_inb : ∀ d0 : Dev nD, ∀ (r : Fin 8), ∀ a, (k0_off2 d0 (BitVec.ofNat 32 r.val)) a + S2048x512.size a ≤ S8192x4096.size a
  k0_off3_inb : ∀ d0 : Dev nD, ∀ (r : Fin 8), ∀ a, (k0_off3 d0 (BitVec.ofNat 32 r.val)) a + S2048x512.size a ≤ S8192x4096.size a
  k0_off4_inb : ∀ d0 : Dev nD, ∀ (r : Fin 8), ∀ a, (k0_off4 d0 (BitVec.ofNat 32 r.val)) a + S2048x512.size a ≤ S8192x4096.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off5_inb : ∀ d0 : Dev nD, ∀ a, (k0_off5 d0) a + S1024x512.size a ≤ S8192x512.size a
  k0_off6_inb : ∀ d0 : Dev nD, ∀ (r : Fin 7), ∀ a, (k0_off6 d0 (BitVec.ofNat 32 (1 + r.val))) a + S1024x512.size a ≤ S8192x512.size a
  hstage0_0 : ∀ j, (stage0_0 j).IsWhole

variable [Facts₀]

abbrev cc0_scratch5 : DmaSems sig S2 := SemArray.consecutive 1 S2 hcc0_scratch5
abbrev cc0_scratch6 : DmaSems sig S7 := SemArray.consecutive 3 S7 hcc0_scratch6
abbrev cc0_scratch7 : DmaSems sig S7 := SemArray.consecutive 10 S7 hcc0_scratch7
abbrev cc0_scratch8 : DmaSems sig S2 := SemArray.consecutive 17 S2 hcc0_scratch8
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts₀]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf

class Facts : Prop extends Facts₀ where

variable [Facts]
-- ==== Proof.RefRun.lean ====
import proofs.«900798_g7700000000000799_dist_gemm_a2a_m8192_k8192_n4096_f32_relu_v7x_i8_1_alg».proof.Defs
import proofs.«900798_g7700000000000799_dist_gemm_a2a_m8192_k8192_n4096_f32_relu_v7x_i8_1_alg».proof.Proof.Gen.ReferenceIdeal
import proofs.«900798_g7700000000000799_dist_gemm_a2a_m8192_k8192_n4096_f32_relu_v7x_i8_1_alg».proof.Proof.Gen.ReferenceIdeal.Run
import proofs.«900798_g7700000000000799_dist_gemm_a2a_m8192_k8192_n4096_f32_relu_v7x_i8_1_alg».proof.Proof.Gen.ReferenceIdeal.Read
import proofs.«900798_g7700000000000799_dist_gemm_a2a_m8192_k8192_n4096_f32_relu_v7x_i8_1_alg».proof.Proof.Gen.Pre_finite_inputs_ReferenceIdeal

noncomputable section

namespace Cert.Proof.RefSide

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.Arith.lean ====
import proofs.«900798_g7700000000000799_dist_gemm_a2a_m8192_k8192_n4096_f32_relu_v7x_i8_1_alg».proof.Proof.Gen.KernelIdeal

set_option Elab.async false

namespace Cert.KernelIdeal.A2A

open Cert.KernelIdeal Cert.KernelIdeal.Gen Idealize.ShloMosaic

-- On the ring of eight: the device `q + 1` places after `c`, the one as far before it, and `c`'s number as its partner `q` counts it.
def peer (c : Dev nD) (q : Fin 7) : Dev nD := ⟨(c.val + q.val + 1) % 8, Nat.mod_lt _ (by decide)⟩
def src (c : Dev nD) (q : Fin 7) : Dev nD := ⟨(c.val + 7 - q.val) % 8, Nat.mod_lt _ (by decide)⟩
def rev (q : Fin 7) : Fin 7 := ⟨6 - q.val, by omega⟩

theorem peer_src (c : Dev nD) (q : Fin 7) : peer (src c q) q = c := by revert c q; decide
theorem src_peer (c : Dev nD) (q : Fin 7) : src (peer c q) q = c := by revert c q; decide
theorem peer_peer_rev (c : Dev nD) (q : Fin 7) : peer (peer c q) (rev q) = c := by revert c q; decide
theorem rev_rev (q : Fin 7) : rev (rev q) = q := by revert q; decide
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel
theorem k0_off1_eq (c : Dev nD) (r : Fin 8) : k0_off1 c (BitVec.ofNat 32 r.val) = ![0, ((c.val + r.val) % 8) * 512] := by revert c r; decide +kernel
theorem k0_off2_eq (c : Dev nD) (r : Fin 8) : k0_off2 c (BitVec.ofNat 32 r.val) = ![2048, ((c.val + r.val) % 8) * 512] := by revert c r; decide +kernel
theorem k0_off3_eq (c : Dev nD) (r : Fin 8) : k0_off3 c (BitVec.ofNat 32 r.val) = ![4096, ((c.val + r.val) % 8) * 512] := by revert c r; decide +kernel
theorem k0_off4_eq (c : Dev nD) (r : Fin 8) : k0_off4 c (BitVec.ofNat 32 r.val) = ![6144, ((c.val + r.val) % 8) * 512] := by revert c r; decide +kernel
theorem k0_off6_eq (c : Dev nD) (r : Fin 7) : k0_off6 c (BitVec.ofNat 32 (1 + r.val)) = ![((c.val + 7 - r.val) % 8) * 1024, 0] := by revert c r; decide +kernel

end Cert.KernelIdeal.A2A
-- ==== Proof.Spec.lean ====
import proofs.«900798_g7700000000000799_dist_gemm_a2a_m8192_k8192_n4096_f32_relu_v7x_i8_1_alg».proof.KernelIdeal
import proofs.«900798_g7700000000000799_dist_gemm_a2a_m8192_k8192_n4096_f32_relu_v7x_i8_1_alg».proof.Proof.Gen.KernelIdeal
import Idealize.ShloMosaic.Lib.ValueIdx

noncomputable section

namespace Cert.KernelIdeal.Spec

open Idealize.ShloMosaic Idealize.ShloMosaic.ValueIdx Cert.KernelIdeal

variable {F : FTy → Type} [FloatOps F]

def xTile (x : FVec F S1024x8192 .f32) (t : Fin 4) : FVec F S1024x2048 .f32 := fun i =>
  x (ix2 (⟨(i 0).val, idx2_lt0 i⟩ : Fin 1024)
    (⟨t.val * 2048 + (i 1).val, by have h1 := idx2_lt1 i; have h2 := t.isLt; omega⟩ : Fin 8192))

def wTile (w : FVec F S8192x4096 .f32) (t : Fin 4) (j : Fin 8) : FVec F S2048x512 .f32 := fun i =>
  w (ix2 (⟨t.val * 2048 + (i 0).val, by have h1 := idx2_lt0 i; have h2 := t.isLt; omega⟩ : Fin 8192)
    (⟨j.val * 512 + (i 1).val, by have h1 := idx2_lt1 i; have h2 := j.isLt; omega⟩ : Fin 4096))

def tileDot (a : FVec F S1024x2048 .f32) (b : FVec F S2048x512 .f32) : FVec F S1024x512 .f32 :=
  matmul dot_S1024x2048_S2048x512_S1024x512_1_0_0_1_n_n none a b (constant S1024x512 .f32 0x00000000#32)

def relu4 (p0 p1 p2 p3 : FVec F S1024x512 .f32) : FVec F S1024x512 .f32 :=
  maximumf (addf (addf (addf p0 p1) p2) p3) (broadcast S1024x512 (Scalar.ofBits .f32 0x00000000#32))

def yBlk (x : FVec F S1024x8192 .f32) (w : FVec F S8192x4096 .f32) (j : Fin 8) : FVec F S1024x512 .f32 :=
  relu4 (tileDot (xTile x 0) (wTile w 0 j)) (tileDot (xTile x 1) (wTile w 1 j))
    (tileDot (xTile x 2) (wTile w 2 j)) (tileDot (xTile x 3) (wTile w 3 j))

def sent (x : FVec F S1024x8192 .f32) (w : FVec F S8192x4096 .f32) (j : Fin 8) : FVec F S1024x512 .f32 :=
  extf .f32 (truncf .bf16 (yBlk x w j) (by decide)) (by decide)

def outSpec (xs : Fin 8 → FVec F S1024x8192 .f32) (ws : Fin 8 → FVec F S8192x4096 .f32) (c : Fin 8) :
    FVec F S8192x512 .f32 := fun i =>
  let s : Fin 8 := ⟨(i 0).val / 1024, by have h := idx2_lt0 i; omega⟩
  let r : Fin 1024 := ⟨(i 0).val % 1024, Nat.mod_lt _ (by decide)⟩
  let n : Fin 512 := ⟨(i 1).val, idx2_lt1 i⟩
  if s = c then yBlk (xs c) (ws c) c (ix2 r n) else sent (xs s) (ws s) c (ix2 r n)

end Cert.KernelIdeal.Spec

end
-- ==== Proof.Proto.lean ====
import proofs.«900798_g7700000000000799_dist_gemm_a2a_m8192_k8192_n4096_f32_relu_v7x_i8_1_alg».proof.Proof.Arith
import proofs.«900798_g7700000000000799_dist_gemm_a2a_m8192_k8192_n4096_f32_relu_v7x_i8_1_alg».proof.Proof.Spec
import proofs.«900798_g7700000000000799_dist_gemm_a2a_m8192_k8192_n4096_f32_relu_v7x_i8_1_alg».proof.Proof.Gen.KernelIdeal.Skeleton
import proofs.«900798_g7700000000000799_dist_gemm_a2a_m8192_k8192_n4096_f32_relu_v7x_i8_1_alg».proof.Proof.Gen.KernelIdeal.Launch
import proofs.«900798_g7700000000000799_dist_gemm_a2a_m8192_k8192_n4096_f32_relu_v7x_i8_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

abbrev barS : Sem sig := (SemArray.scalar (sig.barrier 0 rfl) : Sems sig S_).sem

abbrev sendSem (q : Fin 7) : DmaSem sig := ⟨3 + q.val, by have := q.isLt; show 3 + q.val < 19; omega⟩
abbrev recvSem (q : Fin 7) : DmaSem sig := ⟨10 + q.val, by have := q.isLt; show 10 + q.val < 19; omega⟩

abbrev barCell (c : Dev nD) : GSem nD τ sig := ((c : Thread nD τ), .reg barS)
abbrev sendCell (c : Dev nD) (q : Fin 7) : GSem nD τ sig := ((c : Thread nD τ), .dma (sendSem q))
abbrev recvCell (c : Dev nD) (q : Fin 7) : GSem nD τ sig := ((c : Thread nD τ), .dma (recvSem q))

theorem slot_inb : ∀ (q : Fin 7) (a : Fin 3), (![q.val, 0, 0] : Fin 3 → Nat) a + S1x1024x512.size a ≤ S7x1024x512.size a := by decide

abbrev ySlot (q : Fin 7) : Memref sig .tc .vmem S1024x512 .bf16 :=
  ((Memref.whole cc0_scratch2).slice (Rect.unit (s := S7x1024x512) ![q.val, 0, 0] S1x1024x512.size (slot_inb q)) (fun _ => rfl)).squeeze S1024x512 Gen.squeezes_S1x1024x512_S1024x512
abbrev rSlot (q : Fin 7) : Memref sig .tc .vmem S1024x512 .bf16 :=
  ((Memref.whole cc0_scratch3).slice (Rect.unit (s := S7x1024x512) ![q.val, 0, 0] S1x1024x512.size (slot_inb q)) (fun _ => rfl)).squeeze S1024x512 Gen.squeezes_S1x1024x512_S1024x512

abbrev N : ℕ := (rSlot 0).view.dmaCredit

def rPts (c : Dev nD) (q : Fin 7) (f : Buf (Elt F) ((rSlot q).view.loc (c : Thread nD τ))) : sProp 𝕄 :=
  (rSlot q).view.loc (c : Thread nD τ) ↦[(rSlot q).view.set]{fullShare} f
def yPts (c : Dev nD) (q : Fin 7) (f : Buf (Elt F) ((ySlot q).view.loc (c : Thread nD τ))) : sProp 𝕄 :=
  (ySlot q).view.loc (c : Thread nD τ) ↦[(ySlot q).view.set]{fullShare} f

def xOf (c : Dev nD) : FVec F S1024x8192 .f32 :=
  (win0_0.blk Gen.t0_0).view.read (Elt F) (m ((c : Thread nD τ).loc main_arg0))
def wOf (c : Dev nD) : FVec F S8192x4096 .f32 := m ((c : Thread nD τ).loc main_arg1)

def yOf (c : Dev nD) (q : Fin 7) : FVec F S1024x512 .f32 := Spec.yBlk (xOf m c) (wOf m c) (peer c q)
def sentV (c : Dev nD) (q : Fin 7) : FVec F S1024x512 .bf16 := truncf .bf16 (yOf m c q) Gen.bitsLt_bf16_f32

def ownV (c : Dev nD) : FVec F S1024x512 .f32 := Spec.yBlk (xOf m c) (wOf m c) c

def outFinal (c : Dev nD) : FVec F S8192x512 .f32 := Spec.outSpec (fun d => xOf m d) (fun d => wOf m d) c

def slotOf (s : SemLoc sig) : Option (Bool × Fin 7) :=
  match s with
  | .dma k => if h : 3 ≤ k.val ∧ k.val < 10 then some (false, ⟨k.val - 3, by omega⟩)
              else if h : 10 ≤ k.val ∧ k.val < 17 then some (true, ⟨k.val - 10, by omega⟩) else none
  | _ => none

def barPay (c : Dev nD) (q : Fin 7) : sProp 𝕄 :=
  iprop((∃ f, rPts (peer c q) q f) ∗ reached ER (recvCell (peer c q) q) 0)

def recvPay (c : Dev nD) (q : Fin 7) : sProp 𝕄 :=
  iprop(∃ f, rPts c q f ∗ ⌜(rSlot q).view.read (Elt F) f = sentV m (src c q) q⌝)

def sendPay (c : Dev nD) (q : Fin 7) : sProp 𝕄 :=
  iprop(∃ f, yPts c q f ∗ ⌜(ySlot q).view.read (Elt F) f = sentV m c q⌝)

omit [FloatOps F] in
instance rPts_storable (c : Dev nD) (q : Fin 7) (f) : BI.Storable (upEmb : UEmb _ 𝕄) (rPts (F := F) c q f) := by unfold rPts; infer_instance
omit [FloatOps F] in
instance yPts_storable (c : Dev nD) (q : Fin 7) (f) : BI.Storable (upEmb : UEmb _ 𝕄) (yPts (F := F) c q f) := by unfold yPts; infer_instance
instance ER_landsIn : (ER (F := F)).LandsIn (upEmb : UEmb _ 𝕄) := by unfold ER; infer_instance
set_option synthInstance.maxHeartbeats 200000 in
instance barPay_storable (c : Dev nD) (q : Fin 7) : BI.Storable (upEmb : UEmb _ 𝕄) (barPay (F := F) c q) := by unfold barPay; infer_instance
set_option synthInstance.maxHeartbeats 200000 in
instance recvPay_storable (c : Dev nD) (q : Fin 7) : BI.Storable (upEmb : UEmb _ 𝕄) (recvPay m c q) := by unfold recvPay; infer_instance
set_option synthInstance.maxHeartbeats 200000 in
instance sendPay_storable (c : Dev nD) (q : Fin 7) : BI.Storable (upEmb : UEmb _ 𝕄) (sendPay m c q) := by unfold sendPay; infer_instance

abbrev IsBar (g : GSem nD τ sig) : Prop := g.1.2 = .tc ∧ g.2 = .reg barS
abbrev IsXfer (g : GSem nD τ sig) : Prop := g.1.2 = .tc ∧ (slotOf g.2).isSome

def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match slotOf g.2 with
      | some (true, q) => recvPay m g.1.1 q
      | some (false, q) => sendPay m g.1.1 q
      | none => iprop(emp)
  amount_pos g _ _ _ := by
    by_cases h : g.2 = .reg barS
    · rw [if_pos h]; exact Nat.one_pos
    · rw [if_neg h]; exact View.dmaCredit_pos _ (by decide)

instance sched_payload_storable (g : GSem nD τ sig) (r : ℕ) (d : Fin 7) :
    BI.Storable (upEmb : UEmb _ 𝕄) ((sched (F := F) m).payload g r d) := by
  show BI.Storable upEmb (if g.2 = .reg barS then barPay g.1.1 d
    else match slotOf g.2 with
      | some (true, q) => recvPay m g.1.1 q
      | some (false, q) => sendPay m g.1.1 q
      | none => iprop(emp))
  (repeat' split) <;> infer_instance

abbrev tB (c : Dev nD) (p : Fin 7) : CellTallies nD τ sig Unit := tallyAt (barCell (peer c p)) () 1
abbrev tR (c : Dev nD) (q : Fin 7) : CellTallies nD τ sig Unit := tallyAt (recvCell (peer c q) q) () N

def OR (c : Dev nD) : CellTallies nD τ sig Unit := tR c 6 + tR c 5 + tR c 4 + tR c 3 + tR c 2 + tR c 1 + tR c 0

def O₀ (c : Dev nD) : CellTallies nD τ sig Unit := OR c + tB c 6 + tB c 5 + tB c 4 + tB c 3 + tB c 2 + tB c 1 + tB c 0

def L (g : GSem nD τ sig) : Finset Unit := if g.1.2 = .tc then {()} else ∅

def lv (g : GSem nD τ sig) (_ : Unit) : ℕ :=
  if g.2 = .reg barS then 1 else match slotOf g.2 with | some (true, _) => 2 | _ => 0

abbrev kS (q : Fin 7) : Fin 15 := ⟨1 + q.val, by have := q.isLt; omega⟩
abbrev kR (q : Fin 7) : Fin 15 := ⟨8 + q.val, by have := q.isLt; omega⟩
abbrev csem (k : Fin 15) : SemLoc sig :=
  if h : k.val = 0 then .reg barS else .dma ⟨2 + k.val, by have := k.isLt; show 2 + k.val < 19; omega⟩
abbrev kcell (ck : Dev nD × Fin 15) : GSem nD τ sig := ((ck.1 : Thread nD τ), csem ck.2)

def invs (K : Dev nD × Fin 15 → ℕ) (c : Dev nD) : sProp 𝕄 :=
  iprop(cellInv ER (sched m) (K (c, 0)) (barCell c)
    ∗ (bigSep Finset.univ fun q : Fin 7 => cellInv ER (sched m) (K (c, kS q)) (sendCell c q))
    ∗ (bigSep Finset.univ fun q : Fin 7 => cellInv ER (sched m) (K (c, kR q)) (recvCell c q))
    ∗ (bigSep Finset.univ fun q : Fin 7 => cellInv ER (sched m) (K (peer c q, 0)) (barCell (peer c q)))
    ∗ (bigSep Finset.univ fun q : Fin 7 => cellInv ER (sched m) (K (peer c q, kR q)) (recvCell (peer c q) q)))

def posns (c : Dev nD) : sProp 𝕄 :=
  iprop(atPos ER (barCell c) 0 ∅ 0
    ∗ (bigSep Finset.univ fun q : Fin 7 => atPos ER (sendCell c q) 0 ∅ 0)
    ∗ (bigSep Finset.univ fun q : Fin 7 => atPos ER (recvCell c q) 0 ∅ 0))

def marks (c : Dev nD) : sProp 𝕄 :=
  iprop((bigSep Finset.univ fun q : Fin 7 => reached ER (barCell (peer c q)) 0)
    ∗ (bigSep Finset.univ fun q : Fin 7 => reached ER (recvCell (peer c q) q) 0)
    ∗ (bigSep Finset.univ fun q : Fin 7 => reached ER (sendCell c q) 0)
    ∗ (bigSep Finset.univ fun q : Fin 7 => reached ER (recvCell c q) 0))

def payToks (c : Dev nD) : sProp 𝕄 :=
  iprop((bigSep Finset.univ fun p : Fin 7 => dutyTok ER (barCell (peer c p)) 0 (rev p))
    ∗ (bigSep Finset.univ fun q : Fin 7 => dutyTok ER (recvCell (peer c q) q) 0 (0 : Fin 7))
    ∗ (bigSep Finset.univ fun q : Fin 7 => dutyTok ER (sendCell c q) 0 (0 : Fin 7)))

def ghost (K : Dev nD × Fin 15 → ℕ) (c : Dev nD) : sProp 𝕄 :=
  iprop(invs m K c ∗ posns c ∗ marks c ∗ payToks c)

def locSems (c : Dev nD) : sProp 𝕄 :=
  iprop(semVal ((c : Thread nD τ), SemLoc.dma (1 : DmaSem sig)) 0 ∗ semVal ((c : Thread nD τ), SemLoc.dma (2 : DmaSem sig)) 0
    ∗ semVal ((c : Thread nD τ), SemLoc.dma (17 : DmaSem sig)) 0 ∗ semVal ((c : Thread nD τ), SemLoc.dma (18 : DmaSem sig)) 0)

def arrs (c : Dev nD) : sProp 𝕄 :=
  iprop((((c : Thread nD τ).loc main_arg1) ↦{fullShare} m ((c : Thread nD τ).loc main_arg1))
    ∗ (((c : Thread nD τ).loc main_v1) ↦{fullShare} m ((c : Thread nD τ).loc main_v1)))

def start (c : Dev nD) : sProp 𝕄 :=
  iprop((∃ K, ghost m K c) ∗ cred (tallyAt (barCell c) () 7)
    ∗ (bigSep Finset.univ fun q : Fin 7 => cred (tallyAt (recvCell c q) () N))
    ∗ levAts L lv ∗ locSems c ∗ arrs m c)

abbrev osem : Fin 18 → SemLoc sig := fun k => .dma ⟨1 + k.val, by have := k.isLt; show 1 + k.val < 19; omega⟩

def Φ₀ (c : Dev nD) : sProp 𝕄 := iprop(start m c ∗ Pipeline.scopedRest cfg0.spec c)

def Φ₁ (c : Dev nD) : sProp 𝕄 :=
  iprop((((c : Thread nD τ).loc main_arg1) ↦{fullShare} m ((c : Thread nD τ).loc main_arg1))
    ∗ (((c : Thread nD τ).loc main_v1) ↦{fullShare} (outFinal m c : Buf (Elt F) ((c : Thread nD τ).loc main_v1)))
    ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => xOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.KernelIdeal.A2A

end
-- ==== Proof.Value1.lean ====
import proofs.«900798_g7700000000000799_dist_gemm_a2a_m8192_k8192_n4096_f32_relu_v7x_i8_1_alg».proof.Proof.Spec
import Idealize.ShloMosaic.PureOps.Ideal.Laws
import Idealize.ShloMosaic.Lib.ValueIdx
import Mathlib.Algebra.BigOperators.Fin
import Mathlib.Logic.Equiv.Fin.Basic

noncomputable section

open scoped BigOperators

namespace Cert.KernelIdeal.SpecValue

open Idealize.ShloMosaic Idealize.ShloMosaic.ValueIdx Cert.KernelIdeal Cert.KernelIdeal.Spec

theorem lhs_tile_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs_tile_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs_tile_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs_tile_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

theorem tileDot_apply (a : FVec Ideal S1024x2048 .f32) (b : FVec Ideal S2048x512 .f32) (r : Fin 1024) (n : Fin 512) :
    tileDot (F := Ideal) a b (ix2 r n) = ∑ k : Fin 2048, a (ix2 r k) * b (ix2 k n) := by
  unfold tileDot
  simp only [matmul]
  rw [Ideal.matmul_constant_zero_apply, ← Equiv.sum_comp (ValueIdx.contrEquiv1 dot_S1024x2048_S2048x512_S1024x512_1_0_0_1_n_n 2048 rfl rfl).symm]
  refine Finset.sum_congr rfl fun k _ => ?_
  have hk := ValueIdx.contrEquiv1_symm_val dot_S1024x2048_S2048x512_S1024x512_1_0_0_1_n_n 2048 rfl rfl k
  have el : dot_S1024x2048_S2048x512_S1024x512_1_0_0_1_n_n.lhsIdx (ix2 r n) ((ValueIdx.contrEquiv1 dot_S1024x2048_S2048x512_S1024x512_1_0_0_1_n_n 2048 rfl rfl).symm k) = ix2 r k := funext fun d => Fin.ext (by
    match d with
    | ⟨0, _⟩ => exact lhs_tile_0 _ _
    | ⟨1, _⟩ => exact (lhs_tile_1 _ _).trans hk)
  have er : dot_S1024x2048_S2048x512_S1024x512_1_0_0_1_n_n.rhsIdx (ix2 r n) ((ValueIdx.contrEquiv1 dot_S1024x2048_S2048x512_S1024x512_1_0_0_1_n_n 2048 rfl rfl).symm k) = ix2 k n := funext fun d => Fin.ext (by
    match d with
    | ⟨0, _⟩ => exact (rhs_tile_0 _ _).trans hk
    | ⟨1, _⟩ => exact rhs_tile_1 _ _)
  rw [el, er]

theorem sum_fin_mul {M : Type*} [AddCommMonoid M] (m n : Nat) (f : Fin (m * n) → M) :
    ∑ k, f k = ∑ t : Fin m, ∑ j : Fin n, f ⟨t.val * n + j.val, by
      calc t.val * n + j.val < t.val * n + n := Nat.add_lt_add_left j.isLt _
        _ = (t.val + 1) * n := (Nat.succ_mul _ _).symm
        _ ≤ m * n := Nat.mul_le_mul_right _ t.isLt⟩ := by
  rw [← Equiv.sum_comp finProdFinEquiv f, Fintype.sum_prod_type]
  refine Finset.sum_congr rfl fun t _ => Finset.sum_congr rfl fun j _ => congrArg f (Fin.ext ?_)
  show j.val + n * t.val = t.val * n + j.val
  rw [Nat.add_comm, Nat.mul_comm]

theorem sum_8192 {M : Type*} [AddCommMonoid M] (f : Fin 8192 → M) :
    ∑ k, f k
      = ∑ j : Fin 2048, f ⟨(0 : Fin 4).val * 2048 + j.val, by have := j.isLt; omega⟩
        + ∑ j : Fin 2048, f ⟨(1 : Fin 4).val * 2048 + j.val, by have := j.isLt; omega⟩
        + ∑ j : Fin 2048, f ⟨(2 : Fin 4).val * 2048 + j.val, by have := j.isLt; omega⟩
        + ∑ j : Fin 2048, f ⟨(3 : Fin 4).val * 2048 + j.val, by have := j.isLt; omega⟩ := by
  rw [sum_fin_mul 4 2048 f, Fin.sum_univ_four]

end Cert.KernelIdeal.SpecValue

end
-- ==== Proof.Value.lean ====
import proofs.«900798_g7700000000000799_dist_gemm_a2a_m8192_k8192_n4096_f32_relu_v7x_i8_1_alg».proof.Proof.Spec
import proofs.«900798_g7700000000000799_dist_gemm_a2a_m8192_k8192_n4096_f32_relu_v7x_i8_1_alg».proof.Proof.Value1
import proofs.«900798_g7700000000000799_dist_gemm_a2a_m8192_k8192_n4096_f32_relu_v7x_i8_1_alg».proof.Proof.Gen.ReferenceIdeal.Read
import Idealize.ShloMosaic.Lib.Layout
import Idealize.ShloMosaic.PureOps.Ideal.Laws
import Idealize.ShloMosaic.Lib.ValueIdx

noncomputable section

open scoped BigOperators

namespace Cert.KernelIdeal.SpecValue

open Idealize.ShloMosaic Idealize.ShloMosaic.ValueIdx Cert.KernelIdeal Cert.KernelIdeal.Spec

theorem yBlk_apply (x : FVec Ideal S1024x8192 .f32) (w : FVec Ideal S8192x4096 .f32) (j : Fin 8) (r : Fin 1024) (n : Fin 512) :
    yBlk (F := Ideal) x w j (ix2 r n)
      = max (∑ k : Fin 8192, x (ix2 r k) * w (ix2 k (⟨j.val * 512 + n.val, by have := j.isLt; have := n.isLt; omega⟩ : Fin 4096))) 0 := by
  unfold yBlk relu4
  rw [maximumf_apply, addf_apply, addf_apply, addf_apply, tileDot_apply, tileDot_apply, tileDot_apply, tileDot_apply,
    broadcast_apply]
  rw [sum_8192 (fun k : Fin 8192 => x (ix2 r k) * w (ix2 k (⟨j.val * 512 + n.val, by have := j.isLt; have := n.isLt; omega⟩ : Fin 4096)))]
  exact congrArg₂ max rfl Ideal.ofBits_zero_f32

theorem outSpec_apply (xs : Fin 8 → FVec Ideal S1024x8192 .f32) (ws : Fin 8 → FVec Ideal S8192x4096 .f32) (c : Fin 8)
    (a : Fin 8192) (b : Fin 512) :
    outSpec (F := Ideal) xs ws c (ix2 a b)
      = yBlk (F := Ideal) (xs ⟨a.val / 1024, by have := a.isLt; omega⟩) (ws ⟨a.val / 1024, by have := a.isLt; omega⟩) c
          (ix2 (⟨a.val % 1024, Nat.mod_lt _ (by decide)⟩ : Fin 1024) b) := by
  by_cases h : (⟨a.val / 1024, by have := a.isLt; omega⟩ : Fin 8) = c
  · subst h
    exact if_pos rfl
  · exact if_neg h

theorem ref_apply (X : (⟨Cert.ReferenceIdeal.S8192x8192, .f32⟩ : BufTy).Contents (Elt Ideal))
    (W : (⟨Cert.ReferenceIdeal.S8192x4096, .f32⟩ : BufTy).Contents (Elt Ideal)) (i : Cert.ReferenceIdeal.S8192x4096.Idx) :
    Cert.ReferenceIdeal.Read.val_main_v2 (F := Ideal) X W i
      = max (∑ k : Fin 8192, X (Cert.ReferenceIdeal.Read.lidx_main_v0 i k) * W (Cert.ReferenceIdeal.Read.ridx_main_v0 i k)) 0 := by
  rw [Cert.ReferenceIdeal.Read.val_main_v2_apply, Cert.ReferenceIdeal.Read.val_main_v0_apply,
    Cert.ReferenceIdeal.Read.val_main_v1_apply, Cert.ReferenceIdeal.Read.val_main_cst_apply]
  exact congrArg₂ max rfl Ideal.ofBits_zero_f32

theorem outSpec_eq_block (X : (⟨Cert.ReferenceIdeal.S8192x8192, .f32⟩ : BufTy).Contents (Elt Ideal))
    (W : (⟨Cert.ReferenceIdeal.S8192x4096, .f32⟩ : BufTy).Contents (Elt Ideal)) (c : Fin 8) :
    Cert.KernelIdeal.Spec.outSpec (F := Ideal)
        (fun d => Layout.block ⟨2, ![1024, 8192]⟩ ⟨2, ![8192, 8192]⟩ 0 8 d X) (fun _ => W) c
      = Layout.block ⟨2, ![8192, 512]⟩ ⟨2, ![8192, 4096]⟩ 1 8 c (Cert.ReferenceIdeal.Read.val_main_v2 (F := Ideal) X W) := by
  funext i
  obtain ⟨a, b, rfl⟩ : ∃ a b, i = ix2 a b := ⟨i 0, i 1, eq_ix2 i⟩
  refine (outSpec_apply _ _ c a b).trans ?_
  refine (yBlk_apply _ _ c _ b).trans ?_
  rw [Layout.block_apply]
  refine Eq.trans ?_ (ref_apply X W _).symm
  refine congrArg (fun z : EReal => max z 0) (Finset.sum_congr rfl fun k _ => ?_)
  refine congrArg₂ (fun u v : EReal => u * v) (congrArg X (funext fun d => Fin.ext ?_)) (congrArg W (funext fun d => Fin.ext ?_))
  · match d with
    | ⟨0, _⟩ =>
      show a.val / 1024 * 1024 + a.val % 1024 = a.val
      omega
    | ⟨1, _⟩ => rfl
  · match d with
    | ⟨0, _⟩ => rfl
    | ⟨1, _⟩ => rfl

end Cert.KernelIdeal.SpecValue

end
-- ==== Proof.Final.lean ====
import proofs.«900798_g7700000000000799_dist_gemm_a2a_m8192_k8192_n4096_f32_relu_v7x_i8_1_alg».proof.Defs
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.Value
import proofs.«900798_g7700000000000799_dist_gemm_a2a_m8192_k8192_n4096_f32_relu_v7x_i8_1_alg».proof.Proof.RefRun
import proofs.«900798_g7700000000000799_dist_gemm_a2a_m8192_k8192_n4096_f32_relu_v7x_i8_1_alg».proof.Proof.Gen.KernelIdeal
import proofs.«900798_g7700000000000799_dist_gemm_a2a_m8192_k8192_n4096_f32_relu_v7x_i8_1_alg».proof.Proof.Gen.ReferenceIdeal
import proofs.«900798_g7700000000000799_dist_gemm_a2a_m8192_k8192_n4096_f32_relu_v7x_i8_1_alg».proof.Proof.Gen.Pre_finite_inputs_Kernel
import proofs.«900798_g7700000000000799_dist_gemm_a2a_m8192_k8192_n4096_f32_relu_v7x_i8_1_alg».proof.Proof.Gen.Pre_finite_inputs_ReferenceIdeal

noncomputable section

namespace Cert.Proof.IdealClaims

open Idealize.ShloMosaic Idealize.SL.Sem

abbrev RunPost (F : FTy → Type) [FloatOps F]
    (m : (ℓ : Loc Cert.KernelIdeal.nD Cert.KernelIdeal.τ Cert.KernelIdeal.sig) → Buf (Elt F) ℓ) :
    PUnit × MemSt Cert.KernelIdeal.nD Cert.KernelIdeal.τ Cert.KernelIdeal.sig (Elt F) → Prop :=
  fun r => ∀ c : Dev Cert.KernelIdeal.nD,
    r.2.mem ((c.tc : Thread Cert.KernelIdeal.nD Cert.KernelIdeal.τ).loc Cert.KernelIdeal.main_v1)
        = (Cert.KernelIdeal.A2A.outFinal m c : Buf (Elt F) ((c.tc : Thread Cert.KernelIdeal.nD Cert.KernelIdeal.τ).loc Cert.KernelIdeal.main_v1))
    ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)

theorem xOf_eq {F : FTy → Type} [FloatOps F] (m : (ℓ : Loc Cert.KernelIdeal.nD Cert.KernelIdeal.τ Cert.KernelIdeal.sig) → Buf (Elt F) ℓ) (c : Dev Cert.KernelIdeal.nD) :
    Cert.KernelIdeal.A2A.xOf m c = m ((c.tc : Thread Cert.KernelIdeal.nD Cert.KernelIdeal.τ).loc Cert.KernelIdeal.main_arg0) := by
  unfold Cert.KernelIdeal.A2A.xOf
  exact Memref.read_access_unit_zero (Elt F) Cert.KernelIdeal.main_arg0 (funext fun _ => Nat.zero_mul _) _ _

theorem wOf_eq {F : FTy → Type} [FloatOps F] (m : (ℓ : Loc Cert.KernelIdeal.nD Cert.KernelIdeal.τ Cert.KernelIdeal.sig) → Buf (Elt F) ℓ) (c : Dev Cert.KernelIdeal.nD) :
    Cert.KernelIdeal.A2A.wOf m c = m ((c.tc : Thread Cert.KernelIdeal.nD Cert.KernelIdeal.τ).loc Cert.KernelIdeal.main_arg1) := rfl

theorem outFinal_eq_block (m : (ℓ : Loc Cert.KernelIdeal.nD Cert.KernelIdeal.τ Cert.KernelIdeal.sig) → Buf (Elt Ideal) ℓ)
    (X : (⟨Cert.ReferenceIdeal.S8192x8192, .f32⟩ : BufTy).Contents (Elt Ideal))
    (W : (⟨Cert.ReferenceIdeal.S8192x4096, .f32⟩ : BufTy).Contents (Elt Ideal))
    (hagree : ∀ c : Dev Cert.KernelIdeal.nD,
      m ((c.tc : Thread Cert.KernelIdeal.nD Cert.KernelIdeal.τ).loc Cert.KernelIdeal.main_arg0) = Layout.block ⟨2, ![1024, 8192]⟩ ⟨2, ![8192, 8192]⟩ 0 8 c X
      ∧ m ((c.tc : Thread Cert.KernelIdeal.nD Cert.KernelIdeal.τ).loc Cert.KernelIdeal.main_arg1) = W)
    (c : Dev Cert.KernelIdeal.nD) :
    Cert.KernelIdeal.A2A.outFinal m c
      = Layout.block ⟨2, ![8192, 512]⟩ ⟨2, ![8192, 4096]⟩ 1 8 c (Cert.ReferenceIdeal.Read.val_main_v2 (F := Ideal) X W) := by
  have hx : (fun d => Cert.KernelIdeal.A2A.xOf m d)
      = fun d : Fin 8 => Layout.block ⟨2, ![1024, 8192]⟩ ⟨2, ![8192, 8192]⟩ 0 8 d X :=
    funext fun d => (xOf_eq m d).trans (hagree d).1
  have hw : (fun d => Cert.KernelIdeal.A2A.wOf m d) = fun _ : Fin 8 => W :=
    funext fun d => (wOf_eq m d).trans (hagree d).2
  unfold Cert.KernelIdeal.A2A.outFinal
  rw [hx, hw]
  exact Cert.KernelIdeal.SpecValue.outSpec_eq_block X W c

theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (RunPost Ideal m)) :
    Cert.algebraic_KernelIdeal_ReferenceIdeal := by
  intro m g m' g' _ hagree
  refine ⟨Cert.ReferenceIdeal.Read.val_main_v2 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, ?_⟩
  · exact (θ_run _ _ _).mono (fun _ h c => ⟨(h c).1.trans (outFinal_eq_block m _ _ hagree c), (h c).2⟩) (hrun m g)
  · exact (θ_run _ _ _).mono (fun _ h => ⟨((h 0).1).trans (Cert.ReferenceIdeal.Read.val_main_v2_eq _ _), (h 0).2⟩)
      (Cert.ReferenceIdeal.Value.run (F := Ideal) m' g')

end Cert.Proof.IdealClaims

end
-- ==== Proof.Tables.lean ====
import proofs.«900798_g7700000000000799_dist_gemm_a2a_m8192_k8192_n4096_f32_relu_v7x_i8_1_alg».proof.Proof.Proto

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem slotOf_send (q : Fin 7) : slotOf (.dma (sendSem q) : SemLoc sig) = some (false, q) := by revert q; decide
omit [FloatOps F] in
theorem slotOf_recv (q : Fin 7) : slotOf (.dma (recvSem q) : SemLoc sig) = some (true, q) := by revert q; decide
omit [FloatOps F] in
theorem send_ne_bar (q : Fin 7) : (SemLoc.dma (sendSem q) : SemLoc sig) ≠ .reg barS := fun h => by cases h
omit [FloatOps F] in
theorem recv_ne_bar (q : Fin 7) : (SemLoc.dma (recvSem q) : SemLoc sig) ≠ .reg barS := fun h => by cases h

section Sched
variable (c : Dev nD) (q : Fin 7) (d : Fin 7)

theorem duties_bar : (sched (F := F) m).duties (barCell c) 0 = Finset.univ := by
  dsimp only [sched]; exact if_pos ⟨rfl, rfl, rfl⟩
theorem duties_send : (sched (F := F) m).duties (sendCell c q) 0 = {0} := by
  dsimp only [sched]; rw [if_neg (fun h => send_ne_bar q h.2.2)]
  exact if_pos ⟨rfl, rfl, by rw [slotOf_send]; rfl⟩
theorem duties_recv : (sched (F := F) m).duties (recvCell c q) 0 = {0} := by
  dsimp only [sched]; rw [if_neg (fun h => recv_ne_bar q h.2.2)]
  exact if_pos ⟨rfl, rfl, by rw [slotOf_recv]; rfl⟩
theorem duties_later (g : GSem nD τ sig) : ∀ r, 1 ≤ r → (sched (F := F) m).duties g r = ∅ :=
  fun r hr => by dsimp only [sched]; rw [if_neg fun h => by omega, if_neg fun h => by omega]

theorem amount_bar : (sched (F := F) m).amount (barCell c) 0 d = 1 := by dsimp only [sched]; exact if_pos rfl
theorem amount_send : (sched (F := F) m).amount (sendCell c q) 0 d = N := by dsimp only [sched]; exact if_neg (send_ne_bar q)
theorem amount_recv : (sched (F := F) m).amount (recvCell c q) 0 d = N := by dsimp only [sched]; exact if_neg (recv_ne_bar q)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c q) 0 = N := by
  unfold Schedule.expect Schedule.amountOf; rw [duties_send, Finset.sum_singleton, amount_send]
theorem expect_recv : (sched (F := F) m).expect (recvCell c q) 0 = N := by
  unfold Schedule.expect Schedule.amountOf; rw [duties_recv, Finset.sum_singleton, amount_recv]

theorem payload_bar : (sched (F := F) m).payload (barCell c) 0 d = barPay c d := by dsimp only [sched]; rw [if_pos rfl]
theorem payload_send : (sched (F := F) m).payload (sendCell c q) 0 d = sendPay m c q := by
  dsimp only [sched]; rw [if_neg (send_ne_bar q), slotOf_send]
theorem payload_recv : (sched (F := F) m).payload (recvCell c q) 0 d = recvPay m c q := by
  dsimp only [sched]; rw [if_neg (recv_ne_bar q), slotOf_recv]

end Sched

theorem payload_bar_peer (c : Dev nD) (p : Fin 7) :
    (sched (F := F) m).payload (barCell (peer c p)) 0 (rev p)
      = iprop((∃ f, rPts c (rev p) f) ∗ reached ER (recvCell c (rev p)) 0) := by
  rw [payload_bar]; unfold barPay
  have h := peer_peer_rev c p
  generalize peer (peer c p) (rev p) = d at h ⊢
  subst h; rfl

theorem payload_recv_peer (c : Dev nD) (q : Fin 7) (d : Fin 7) :
    (sched (F := F) m).payload (recvCell (peer c q) q) 0 d
      = iprop(∃ f, rPts (peer c q) q f ∗ ⌜(rSlot q).view.read (Elt F) f = sentV m c q⌝) := by
  rw [payload_recv]; unfold recvPay; rw [src_peer]

theorem ownSems0_cells (c : Dev nD) : (Pipeline.ownSems0 (Ix := Unit) (Name := ℕ) (U := UU) (Lvl := ℕ) (Val := Elt F) (τ := τ) osem c : sProp 𝕄)
    = iprop(semVal ((c : Thread nD τ), SemLoc.dma (1 : DmaSem sig)) 0
      ∗ semVal ((c : Thread nD τ), SemLoc.dma (2 : DmaSem sig)) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (recvCell c 0) 0
      ∗ semVal (recvCell c 1) 0
      ∗ semVal (recvCell c 2) 0
      ∗ semVal (recvCell c 3) 0
      ∗ semVal (recvCell c 4) 0
      ∗ semVal (recvCell c 5) 0
      ∗ semVal (recvCell c 6) 0
      ∗ semVal ((c : Thread nD τ), SemLoc.dma (17 : DmaSem sig)) 0
      ∗ semVal ((c : Thread nD τ), SemLoc.dma (18 : DmaSem sig)) 0) := by
  rw [Pipeline.ownSems0_eq_of_list c osem [0, 1, 2, 3, 4, 5, 6, 7, 8, 9, 10, 11, 12, 13, 14, 15, 16, 17] (by decide) (by decide)]; rfl

end Cert.KernelIdeal.A2A

end
-- ==== Proof.Launch.lean ====
import proofs.«900798_g7700000000000799_dist_gemm_a2a_m8192_k8192_n4096_f32_relu_v7x_i8_1_alg».proof.Proof.Tables

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace AtLaunch

set_option maxRecDepth 8000 in
theorem csem_injective : Function.Injective (csem : Fin 15 → SemLoc sig) := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def xCells : Finset (GSem nD τ sig) := Finset.univ.map ⟨kcell, kcell_injective⟩

abbrev tsem (jq : Fin 3 × Fin 7) : SemLoc sig × Fin 7 := match jq.1 with
  | 0 => (.reg barS, jq.2) | 1 => (.dma (sendSem jq.2), 0) | 2 => (.dma (recvSem jq.2), 0)

set_option maxRecDepth 8000 in
theorem tsem_injective : Function.Injective tsem := by decide

abbrev tokOf (cj : Dev nD × Fin 3 × Fin 7) : GSem nD τ sig × ℕ × Fin 7 := (((cj.1 : Thread nD τ), (tsem cj.2).1), 0, (tsem cj.2).2)

theorem tokOf_injective : Function.Injective (tokOf : Dev nD × Fin 3 × Fin 7 → GSem nD τ sig × ℕ × Fin 7) := by
  rintro ⟨c, jq⟩ ⟨c', jq'⟩ h
  have h1 : c = c' := by have := congrArg (fun x : GSem nD τ sig × ℕ × Fin 7 => x.1.1.1) h; exact this
  subst h1
  have h2 : tsem jq = tsem jq' :=
    Prod.ext (congrArg (fun x : GSem nD τ sig × ℕ × Fin 7 => x.1.2) h) (congrArg (fun x : GSem nD τ sig × ℕ × Fin 7 => x.2.2) h)
  rw [tsem_injective h2]

def xToks : Finset (GSem nD τ sig × ℕ × Fin 7) := Finset.univ.map ⟨tokOf, tokOf_injective⟩

def u₀ : UU :=
  (initOf (Pipeline.cells cfgs cellOf_inj) (Pipeline.launchToks cfgs cellOf_inj), (initOf xCells xToks, 1))

def toks (c : Dev nD) : sProp 𝕄 :=
  iprop((bigSep Finset.univ fun q : Fin 7 => dutyTok ER (barCell c) 0 q)
    ∗ (bigSep Finset.univ fun q : Fin 7 => dutyTok ER (sendCell c q) 0 (0 : Fin 7))
    ∗ (bigSep Finset.univ fun q : Fin 7 => dutyTok ER (recvCell c q) 0 (0 : Fin 7)))

def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

def G' (c : Dev nD) : sProp 𝕄 := iprop((∃ K, ghost m K c) ∗ locSems c)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_ring : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 15 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_prod, bigSep_fin3]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells15_eq (c : Dev nD) : (bigSep Finset.univ fun k : Fin 15 => semVal (kcell (c, k)) 0 : sProp 𝕄)
    = iprop(semVal (barCell c) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (recvCell c 0) 0
      ∗ semVal (recvCell c 1) 0
      ∗ semVal (recvCell c 2) 0
      ∗ semVal (recvCell c 3) 0
      ∗ semVal (recvCell c 4) 0
      ∗ semVal (recvCell c 5) 0
      ∗ semVal (recvCell c 6) 0) := by
  rw [bigSep_univ_eq_bigSepL ([0, 1, 2, 3, 4, 5, 6, 7, 8, 9, 10, 11, 12, 13, 14] : List (Fin 15)) (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ locSems c) : sProp 𝕄) := by
  rw [ownSems0_cells, unscopedSems0_eq, cells15_eq]
  unfold locSems
  iintro ⟨⟨H0, H1, H2, H3, H4, H5, H6, H7, H8, H9, H10, H11, H12, H13, H14, H15, H16, H17⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c ∗ locSems c) := by
  unfold G
  iintro ⟨Hos, Hus, Hst, Hat, Htok⟩
  ihave Hv := (sems0_eq (F := F) c) $$ [Hos Hus]
  · isplitl [Hos] <;> iassumption
  icases Hv with ⟨Hv, Hls⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  iframe

theorem kS_injective : Function.Injective kS := fun a b h => Fin.ext (by have := congrArg Fin.val h; simp only [kS] at this; omega)
theorem kR_injective : Function.Injective kR := fun a b h => Fin.ext (by have := congrArg Fin.val h; simp only [kR] at this; omega)

theorem bigSep_fin15 (Φ : Fin 15 → sProp 𝕄) :
    bigSep Finset.univ Φ = iprop(Φ 0 ∗ (bigSep Finset.univ fun q : Fin 7 => Φ (kS q)) ∗ (bigSep Finset.univ fun q : Fin 7 => Φ (kR q))) := by
  have h : (Finset.univ : Finset (Fin 15)) = insert 0 ((Finset.univ.map ⟨kS, kS_injective⟩) ∪ (Finset.univ.map ⟨kR, kR_injective⟩)) := by decide
  rw [h, bigSep_insert (by decide), bigSep_union (by decide), bigSep_map, bigSep_map]; rfl

theorem kcell_S (c : Dev nD) (q : Fin 7) : kcell (c, kS q) = sendCell c q := by
  show ((c : Thread nD τ), csem (kS q)) = ((c : Thread nD τ), SemLoc.dma (sendSem q))
  congr 1
  show (if h : (kS q).val = 0 then _ else _) = _
  rw [dif_neg (by show ¬ (1 + q.val = 0); omega)]
  exact congrArg SemLoc.dma (Fin.ext (by show 2 + (1 + q.val) = 3 + q.val; omega))
theorem kcell_R (c : Dev nD) (q : Fin 7) : kcell (c, kR q) = recvCell c q := by
  show ((c : Thread nD τ), csem (kR q)) = ((c : Thread nD τ), SemLoc.dma (recvSem q))
  congr 1
  show (if h : (kR q).val = 0 then _ else _) = _
  rw [dif_neg (by show ¬ (8 + q.val = 0); omega)]
  exact congrArg SemLoc.dma (Fin.ext (by show 2 + (8 + q.val) = 10 + q.val; omega))

def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_bar (K : Dev nD × Fin 15 → ℕ) (d : Dev nD) :
    (bigSep Finset.univ fun ck : Dev nD × Fin 15 => (cellInv ER (sched m) (K ck) (kcell ck) : sProp 𝕄)) ⊢ cellInv ER (sched m) (K (d, 0)) (barCell d) :=
  bigSep_elim (Finset.mem_univ (d, 0))
theorem inv_send (K : Dev nD × Fin 15 → ℕ) (d : Dev nD) (q : Fin 7) :
    (bigSep Finset.univ fun ck : Dev nD × Fin 15 => (cellInv ER (sched m) (K ck) (kcell ck) : sProp 𝕄)) ⊢ cellInv ER (sched m) (K (d, kS q)) (sendCell d q) := by
  rw [← kcell_S]; exact bigSep_elim (Finset.mem_univ (d, kS q))
theorem inv_recv (K : Dev nD × Fin 15 → ℕ) (d : Dev nD) (q : Fin 7) :
    (bigSep Finset.univ fun ck : Dev nD × Fin 15 => (cellInv ER (sched m) (K ck) (kcell ck) : sProp 𝕄)) ⊢ cellInv ER (sched m) (K (d, kR q)) (recvCell d q) := by
  rw [← kcell_R]; exact bigSep_elim (Finset.mem_univ (d, kR q))

theorem reached_bar (d : Dev nD) :
    (bigSep Finset.univ fun ck : Dev nD × Fin 15 => (reached ER (kcell ck) 0 : sProp 𝕄)) ⊢ reached ER (barCell d) 0 :=
  bigSep_elim (Finset.mem_univ (d, 0))
theorem reached_send (d : Dev nD) (q : Fin 7) :
    (bigSep Finset.univ fun ck : Dev nD × Fin 15 => (reached ER (kcell ck) 0 : sProp 𝕄)) ⊢ reached ER (sendCell d q) 0 := by
  rw [← kcell_S]; exact bigSep_elim (Finset.mem_univ (d, kS q))
theorem reached_recv (d : Dev nD) (q : Fin 7) :
    (bigSep Finset.univ fun ck : Dev nD × Fin 15 => (reached ER (kcell ck) 0 : sProp 𝕄)) ⊢ reached ER (recvCell d q) 0 := by
  rw [← kcell_R]; exact bigSep_elim (Finset.mem_univ (d, kR q))

theorem posns_eq (c : Dev nD) : (bigSep Finset.univ fun k : Fin 15 => (atPos ER (kcell (c, k)) 0 ∅ 0 : sProp 𝕄)) = posns c := by
  rw [bigSep_fin15]; simp only [kcell_S, kcell_R]; rfl

def linear (c : Dev nD) : sProp 𝕄 :=
  iprop((bigSep Finset.univ fun k : Fin 15 => atPos ER (kcell (c, k)) 0 ∅ 0) ∗ payToks c ∗ locSems c)

theorem ghost_intro (K : Dev nD × Fin 15 → ℕ) (c : Dev nD) : iprop(records m K ∗ linear c) ⊢ G' m c := by
  unfold records linear G' ghost
  rw [posns_eq]
  iintro ⟨⟨#HI, #HR⟩, Hat, Htk, Hls⟩
  isplitr [Hls]
  · iexists K
    isplitr
    · unfold invs
      isplitr; · iapply (inv_bar m K c); iexact HI
      isplitr; · iapply (bigSep_intro_persistent fun q _ => inv_send m K c q); iexact HI
      isplitr; · iapply (bigSep_intro_persistent fun q _ => inv_recv m K c q); iexact HI
      isplitr; · iapply (bigSep_intro_persistent fun q _ => inv_bar m K (peer c q)); iexact HI
      iapply (bigSep_intro_persistent fun q _ => inv_recv m K (peer c q) q); iexact HI
    isplitl [Hat]; · iexact Hat
    isplitr
    · unfold marks
      isplitr; · iapply (bigSep_intro_persistent fun q _ => reached_bar (F := F) (peer c q)); iexact HR
      isplitr; · iapply (bigSep_intro_persistent fun q _ => reached_recv (F := F) (peer c q) q); iexact HR
      isplitr; · iapply (bigSep_intro_persistent fun q _ => reached_send (F := F) c q); iexact HR
      iapply (bigSep_intro_persistent fun q _ => reached_recv (F := F) c q); iexact HR
    iexact Htk
  · iexact Hls

def barSwap : Dev nD × Fin 7 ≃ Dev nD × Fin 7 where
  toFun cp := (peer cp.1 cp.2, rev cp.2)
  invFun cp := (peer cp.1 cp.2, rev cp.2)
  left_inv := by rintro ⟨c, p⟩; show (peer (peer c p) (rev p), rev (rev p)) = (c, p); rw [peer_peer_rev, rev_rev]
  right_inv := by rintro ⟨c, p⟩; show (peer (peer c p) (rev p), rev (rev p)) = (c, p); rw [peer_peer_rev, rev_rev]

def recvSwap : Dev nD × Fin 7 ≃ Dev nD × Fin 7 where
  toFun cq := (peer cq.1 cq.2, cq.2)
  invFun cq := (src cq.1 cq.2, cq.2)
  left_inv := by rintro ⟨c, q⟩; show (src (peer c q) q, q) = (c, q); rw [src_peer]
  right_inv := by rintro ⟨c, q⟩; show (peer (src c q) q, q) = (c, q); rw [peer_src]

theorem toks_around : (bigSep Finset.univ fun c : Dev nD => (toks c : sProp 𝕄)) ⊢ bigSep Finset.univ fun c : Dev nD => payToks c := by
  have hB : (bigSep Finset.univ fun c : Dev nD => bigSep Finset.univ fun q : Fin 7 => (dutyTok ER (barCell c) 0 q : sProp 𝕄))
      = bigSep Finset.univ fun c : Dev nD => bigSep Finset.univ fun p : Fin 7 => dutyTok ER (barCell (peer c p)) 0 (rev p) :=
    calc _ = bigSep Finset.univ (fun cq : Dev nD × Fin 7 => (dutyTok ER (barCell cq.1) 0 cq.2 : sProp 𝕄)) :=
          (bigSep_univ_prod (fun cq : Dev nD × Fin 7 => (dutyTok ER (barCell cq.1) 0 cq.2 : sProp 𝕄))).symm
      _ = bigSep Finset.univ (fun cq : Dev nD × Fin 7 => (dutyTok ER (barCell (barSwap cq).1) 0 (barSwap cq).2 : sProp 𝕄)) :=
          bigSep_univ_equiv barSwap (fun cq : Dev nD × Fin 7 => (dutyTok ER (barCell cq.1) 0 cq.2 : sProp 𝕄))
      _ = _ := bigSep_univ_prod (fun cq : Dev nD × Fin 7 => (dutyTok ER (barCell (barSwap cq).1) 0 (barSwap cq).2 : sProp 𝕄))
  have hR : (bigSep Finset.univ fun c : Dev nD => bigSep Finset.univ fun q : Fin 7 => (dutyTok ER (recvCell c q) 0 (0 : Fin 7) : sProp 𝕄))
      = bigSep Finset.univ fun c : Dev nD => bigSep Finset.univ fun q : Fin 7 => dutyTok ER (recvCell (peer c q) q) 0 (0 : Fin 7) :=
    calc _ = bigSep Finset.univ (fun cq : Dev nD × Fin 7 => (dutyTok ER (recvCell cq.1 cq.2) 0 (0 : Fin 7) : sProp 𝕄)) :=
          (bigSep_univ_prod (fun cq : Dev nD × Fin 7 => (dutyTok ER (recvCell cq.1 cq.2) 0 (0 : Fin 7) : sProp 𝕄))).symm
      _ = bigSep Finset.univ (fun cq : Dev nD × Fin 7 => (dutyTok ER (recvCell (recvSwap cq).1 (recvSwap cq).2) 0 (0 : Fin 7) : sProp 𝕄)) :=
          bigSep_univ_equiv recvSwap (fun cq : Dev nD × Fin 7 => (dutyTok ER (recvCell cq.1 cq.2) 0 (0 : Fin 7) : sProp 𝕄))
      _ = _ := bigSep_univ_prod (fun cq : Dev nD × Fin 7 => (dutyTok ER (recvCell (recvSwap cq).1 (recvSwap cq).2) 0 (0 : Fin 7) : sProp 𝕄))
  unfold toks payToks
  rw [bigSep_sep', bigSep_sep', bigSep_sep', bigSep_sep', hB, hR]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c ∗ locSems c) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hls⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : Fin 15 => (atPos ER (kcell (c, k)) 0 ∅ 0 : sProp 𝕄))
        (fun c : Dev nD => iprop(payToks c ∗ locSems c))).symm)).trans
      (bigSep_mono fun c _ => show _ ⊢ linear c from Entails.of_eq (by unfold linear; rfl)))
    isplitl [Hat]; · iexact Hat
    rw [bigSep_sep']
    isplitl [Htk]; · iexact Htk
    iexact Hls

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem lc_bar (c : Dev nD) (p : Fin 7) : (Pipeline.launchCred (fun d => tB d p) c : sProp 𝕄) ⊢ cred (tallyAt (barCell c) () 1) :=
  Pipeline.launchCred_tallyAt (.reg barS) (fun d => peer d p) (fun d => src d p) (fun d => peer_src d p) (fun d => src_peer d p) () 1 c

theorem lc_recv (c : Dev nD) (q : Fin 7) : (Pipeline.launchCred (fun d => tR d q) c : sProp 𝕄) ⊢ cred (tallyAt (recvCell c q) () N) :=
  Pipeline.launchCred_tallyAt (.dma (recvSem q)) (fun d => peer d q) (fun d => src d q) (fun d => peer_src d q) (fun d => src_peer d q) () N c

theorem cred_succ (g : GSem nD τ sig) (n : ℕ) :
    iprop(cred (tallyAt g () n) ∗ cred (tallyAt g () 1)) ⊢ (cred (tallyAt g () (n + 1)) : sProp 𝕄) := by
  rw [← tallyAt_add]; exact (cred_add _ _).2

theorem creds (c : Dev nD) :
    (Pipeline.launchCred O₀ c : sProp 𝕄) ⊢ iprop(cred (tallyAt (barCell c) () 7) ∗ bigSep Finset.univ fun q : Fin 7 => cred (tallyAt (recvCell c q) () N)) := by
  show (Pipeline.launchCred (fun d => tR d 6 + tR d 5 + tR d 4 + tR d 3 + tR d 2 + tR d 1 + tR d 0
      + tB d 6 + tB d 5 + tB d 4 + tB d 3 + tB d 2 + tB d 1 + tB d 0) c : sProp 𝕄) ⊢ _
  rw [Pipeline.launchCred_add, Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add, Pipeline.launchCred_add,
    Pipeline.launchCred_add, bigSep_fin7]
  iintro ⟨⟨⟨⟨⟨⟨⟨⟨⟨⟨⟨⟨⟨R6, R5⟩, R4⟩, R3⟩, R2⟩, R1⟩, R0⟩, B6⟩, B5⟩, B4⟩, B3⟩, B2⟩, B1⟩, B0⟩
  ihave C0 := (lc_bar (F := F) c 0) $$ B0
  ihave C1 := (lc_bar (F := F) c 1) $$ B1
  ihave C2 := (lc_bar (F := F) c 2) $$ B2
  ihave C3 := (lc_bar (F := F) c 3) $$ B3
  ihave C4 := (lc_bar (F := F) c 4) $$ B4
  ihave C5 := (lc_bar (F := F) c 5) $$ B5
  ihave C6 := (lc_bar (F := F) c 6) $$ B6
  ihave C := (cred_succ (F := F) (barCell c) 1) $$ [C0 C1]
  · isplitl [C0] <;> iassumption
  ihave C := (cred_succ (F := F) (barCell c) 2) $$ [C C2]
  · isplitl [C] <;> iassumption
  ihave C := (cred_succ (F := F) (barCell c) 3) $$ [C C3]
  · isplitl [C] <;> iassumption
  ihave C := (cred_succ (F := F) (barCell c) 4) $$ [C C4]
  · isplitl [C] <;> iassumption
  ihave C := (cred_succ (F := F) (barCell c) 5) $$ [C C5]
  · isplitl [C] <;> iassumption
  ihave C := (cred_succ (F := F) (barCell c) 6) $$ [C C6]
  · isplitl [C] <;> iassumption
  isplitl [C]; · iexact C
  isplitl [R0]; · iapply (lc_recv (F := F) c 0); iexact R0
  isplitl [R1]; · iapply (lc_recv (F := F) c 1); iexact R1
  isplitl [R2]; · iapply (lc_recv (F := F) c 2); iexact R2
  isplitl [R3]; · iapply (lc_recv (F := F) c 3); iexact R3
  isplitl [R4]; · iapply (lc_recv (F := F) c 4); iexact R4
  isplitl [R5]; · iapply (lc_recv (F := F) c 5); iexact R5
  iapply (lc_recv (F := F) c 6); iexact R6

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := if_pos rfl
theorem lv_recv (d : Dev nD) (q : Fin 7) : lv (recvCell d q) () = 2 := by
  unfold lv; rw [if_neg (recv_ne_bar q), slotOf_recv]

theorem O₀_pos {c : Dev nD} {g : GSem nD τ sig} {u : Unit} (h : 0 < O₀ c g u) :
    (∃ p, g = barCell (peer c p)) ∨ (∃ q, g = recvCell (peer c q) q) := by
  unfold O₀ OR at h
  repeat' (rcases Pipeline.add_pos_cases h with h | h)
  all_goals first
    | exact Or.inl ⟨_, (Pipeline.tallyAt_pos h).1⟩
    | exact Or.inr ⟨_, (Pipeline.tallyAt_pos h).1⟩

theorem lv_stage : ∀ (c : Dev nD) (w : Fin cfg0.W) (s : Fin (cfg0.win w).nbuf), lv ((c : Thread nD τ), .dma ((cfg0.win w).sem s)) () = 0 := by
  intro c w s; fin_cases w; fin_cases s; rfl

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine Pipeline.mayWait_of_levAts (by rw [L_tc]; exact Finset.mem_singleton_self _) fun g i hg => ?_
      rw [lv_stage c w s]
      rcases O₀_pos hg with ⟨p, rfl⟩ | ⟨q, rfl⟩
      · exact ⟨by rw [L_tc]; exact Finset.mem_singleton_self _, by rw [lv_bar]; decide⟩
      · exact ⟨by rw [L_tc]; exact Finset.mem_singleton_self _, by rw [lv_recv]; decide⟩
    · show _ ⊢ MayWait _ _ _ 0
      rw [MayWait_zero]; iintro -; iempintro

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hw, Hv⟩, Hlev, Hcr, -, ⟨HG, Hls⟩⟩
  ihave Hc := (creds (F := F) c) $$ Hcr
  icases Hc with ⟨H1, HN⟩
  imodintro
  unfold start arrs
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

def finalArrs (c : Dev nD) : sProp 𝕄 :=
  iprop((((c : Thread nD τ).loc main_arg1) ↦{fullShare} m ((c : Thread nD τ).loc main_arg1))
    ∗ (((c : Thread nD τ).loc main_v1) ↦{fullShare} (outFinal m c : Buf (Elt F) ((c : Thread nD τ).loc main_v1))))

theorem phi1_exit (c : Dev nD) :
    (dats m 0 c).Φ (Fin.last cfg0.N) ⊢ iprop(finalArrs m c ∗ Pipeline.ownSems0 osem c ∗ Pipeline.scopedRest cfg0.spec c) := by
  rw [show (dats m 0 c).Φ (Fin.last cfg0.N) = Φ₁ m c from rfl]
  unfold Φ₁ finalArrs
  iintro ⟨Hw, Hv, Hs, Hr⟩
  isplitl [Hw Hv]
  · isplitl [Hw] <;> iassumption
  isplitl [Hs] <;> iassumption

end AtLaunch

open AtLaunch

theorem ownSemFacts : Pipeline.OwnSemFacts cfg0.spec osem := by decide

set_option maxRecDepth 40000 in
theorem run_main (ρ : Dev nD → PrngReg)
    (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c : Thread nD τ).loc main_v1) = (outFinal m c : Buf (Elt F) ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_ring m) $$ HX with HG
      imodintro
      isplitl [HP] <;> iassumption)
    (hglob := glob m)
    (hA := fun _ _ => rfl) (hpf := fun _ k => k.elim0)
    (X := start m) (Y := finalArrs m) (Z := fun _ => iprop(emp))
    (hX := start_intro m ρ) (hin := phi0_intro m) (hout := phi1_exit m)
    (QY := fun c s => s.mem ((c : Thread nD τ).loc main_v1) = (outFinal m c : Buf (Elt F) ((c : Thread nD τ).loc main_v1))
      ∧ s.mem ((c : Thread nD τ).loc main_arg1) = m ((c : Thread nD τ).loc main_arg1))
    (hY := fun c s' => by
      unfold finalArrs
      iintro ⟨⟨Hw, Hv⟩, -, HSI⟩
      icombine HSI Hw gives %hw
      icombine HSI Hv gives %hv
      imodintro
      isplitr; · ipureintro; exact ⟨Buf.eq_of_forall_mem_univ hv, Buf.eq_of_forall_mem_univ hw⟩
      iexact HSI)
    (hQ := fun s h c => ⟨(h c).2.2.1, ((h c).1 0).trans ((dats m 0 c).arrAt_in 0 rfl _), (h c).2.2.2⟩)

end Cert.KernelIdeal.A2A

end
-- ==== Proof.Levels.lean ====
import proofs.«900798_g7700000000000799_dist_gemm_a2a_m8192_k8192_n4096_f32_relu_v7x_i8_1_alg».proof.Proof.Proto

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def OnRecv (O : CellTallies nD τ sig Unit) : Prop := ∀ (g : GSem nD τ sig) (i : Unit), 0 < O g i → g.1.2 = .tc ∧ lv g i = 2

omit [FloatOps F] in
theorem OnRecv.zero : OnRecv 0 := fun g i h => absurd h (by rw [Pi.zero_apply, Finsupp.zero_apply]; exact Nat.lt_irrefl 0)

omit [FloatOps F] in
theorem lv_recv (c : Dev nD) (q : Fin 7) (i : Unit) : lv (recvCell c q) i = 2 := by revert q; intro q; dsimp only [lv]; rw [if_neg (fun h => by cases h)]; revert q; decide

omit [FloatOps F] in
theorem OnRecv.tR (c : Dev nD) (q : Fin 7) : OnRecv (tR c q) := fun g i h => by
  rw [tallyAt_apply] at h
  by_cases hg : g = recvCell (peer c q) q ∧ i = ()
  · rw [hg.1]; exact ⟨rfl, lv_recv _ _ _⟩
  · rw [if_neg hg] at h; exact absurd h (Nat.lt_irrefl 0)

omit [FloatOps F] in
theorem OnRecv.add {A B : CellTallies nD τ sig Unit} (hA : OnRecv A) (hB : OnRecv B) : OnRecv (A + B) := fun g i h => by
  rcases Pipeline.add_pos_cases h with h | h
  · exact hA g i h
  · exact hB g i h

omit [FloatOps F] in
theorem L_tc (c : Dev nD) (sm : SemLoc sig) : L ((c : Thread nD τ), sm) = {()} := if_pos rfl

omit [FloatOps F] in
theorem mayWait_low (c : Dev nD) (s : SemLoc sig) (hs : lv ((c : Thread nD τ), s) () < 2) {O : CellTallies nD τ sig Unit} (hO : OnRecv O) :
    (levAts L lv : sProp 𝕄) ⊢ MayWait (c : Thread nD τ) s () O :=
  Pipeline.mayWait_of_levAts (by rw [L_tc]; exact Finset.mem_singleton_self _)
    (fun g i hg => ⟨by rw [L, if_pos (hO g i hg).1]; exact Finset.mem_singleton_self _, by rw [(hO g i hg).2]; exact hs⟩)

omit [FloatOps F] in
theorem lv_low (c : Dev nD) (k : DmaSem sig) (h : slotOf (SemLoc.dma k : SemLoc sig) = none) : lv ((c : Thread nD τ), SemLoc.dma k) () < 2 := by
  dsimp only [lv]; rw [if_neg (fun h => by cases h), h]; exact Nat.zero_lt_two

end Cert.KernelIdeal.A2A

end
-- ==== Proof.Slots.lean ====
import proofs.«900798_g7700000000000799_dist_gemm_a2a_m8192_k8192_n4096_f32_relu_v7x_i8_1_alg».proof.Proof.Proto
import Idealize.ShloMosaic.Rules.PointsTo

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Parts
variable {ℓ : Loc nD τ sig} {T : Type} [Fintype T] [DecidableEq T] (S : T → Finset (Idx ℓ)) (key : Idx ℓ → T)
  (hS : ∀ t i, i ∈ S t ↔ key i = t)
include hS

-- Element sets that are the fibres of a key are pairwise disjoint and together everything; so a buffer held whole is its
-- parts held, and parts held at several contents glue to the whole at contents that agree with each on its part.
theorem parts_disjoint : ∀ t ∈ (Finset.univ : Finset T), ∀ t' ∈ (Finset.univ : Finset T), t ≠ t' → Disjoint (S t) (S t') :=
  fun t _ t' _ hne => Finset.disjoint_left.mpr fun i hi hi' => hne (((hS t i).mp hi).symm.trans ((hS t' i).mp hi'))

theorem parts_cover : (Finset.univ : Finset T).biUnion S = Finset.univ := by
  ext i
  simp only [Finset.mem_biUnion, Finset.mem_univ, true_and, iff_true]
  exact ⟨key i, (hS _ i).mpr rfl⟩

theorem parts_split (f : Buf (Elt F) ℓ) :
    (ℓ ↦{fullShare} f : sProp 𝕄) = bigSep Finset.univ fun t => ℓ ↦[S t]{fullShare} f := by
  rw [← pointsTo_biUnion _ _ (parts_disjoint S key hS), parts_cover S key hS]

theorem parts_join (fs : T → Buf (Elt F) ℓ) (f₀ : Buf (Elt F) ℓ) :
    (bigSep Finset.univ fun t => ℓ ↦[S t]{fullShare} fs t : sProp 𝕄)
      ⊢ iprop(∃ g, (ℓ ↦{fullShare} g) ∗ ⌜∀ t, ∀ i ∈ S t, g i = fs t i⌝) := by
  refine (pointsTo_biUnion_join (q := fullShare) Finset.univ S fs f₀ (parts_disjoint S key hS)).trans ?_
  rw [parts_cover S key hS]
  iintro ⟨%g, %hg, HS⟩
  iexists g
  isplitl [HS]; · iexact HS
  ipureintro; exact fun t => hg t (Finset.mem_univ t)

theorem parts_glue (fs : T → Buf (Elt F) ℓ) (f₀ : Buf (Elt F) ℓ) :
    (bigSep Finset.univ fun t => ℓ ↦[S t]{fullShare} fs t : sProp 𝕄) ⊢ iprop(∃ g, ℓ ↦{fullShare} g) := by
  refine (parts_join S key hS fs f₀).trans ?_
  iintro ⟨%g, Hg, -⟩
  iexists g; iexact Hg

end Parts

-- In a buffer of shape `n × R × C` the rectangle `1 × R × C` at `(k, 0, 0)` is the elements whose first coordinate is `k`.
theorem mem_firstSlot {n R C : ℕ} (k : Fin n)
    (inb : ∀ a, (![k.val, 0, 0] : Fin 3 → ℕ) a + (![1, R, C] : Fin 3 → ℕ) a ≤ (⟨3, ![n, R, C]⟩ : Shape).size a)
    (i : (⟨3, ![n, R, C]⟩ : Shape).Idx) :
    i ∈ (Rect.unit (s := ⟨3, ![n, R, C]⟩) ![k.val, 0, 0] ![1, R, C] inb).set ↔ (⟨(i 0).val, (i 0).isLt⟩ : Fin n) = k := by
  rw [Rect.mem_set_unit, Fin.ext_iff]
  constructor
  · intro h
    have h0 : k.val ≤ (i 0).val ∧ (i 0).val < k.val + 1 := h 0
    show (i 0).val = k.val
    omega
  · intro h a
    have h : (i 0).val = k.val := h
    match a with
    | ⟨0, _⟩ =>
      show k.val ≤ (i 0).val ∧ (i 0).val < k.val + 1
      omega
    | ⟨1, _⟩ => exact ⟨Nat.zero_le _, (Nat.zero_add _).symm ▸ (i 1).isLt⟩
    | ⟨2, _⟩ => exact ⟨Nat.zero_le _, (Nat.zero_add _).symm ▸ (i 2).isLt⟩

def slotSet (q : Fin 7) : Finset S7x1024x512.Idx :=
  (Rect.unit (s := S7x1024x512) ![q.val, 0, 0] S1x1024x512.size (slot_inb q)).set

theorem mem_slotSet (q : Fin 7) (i : S7x1024x512.Idx) : i ∈ slotSet q ↔ (⟨(i 0).val, (i 0).isLt⟩ : Fin 7) = q :=
  mem_firstSlot q (slot_inb q) i

theorem rSlot_set (q : Fin 7) : (rSlot q).view.set = slotSet q := by
  show (((View.whole cc0_scratch3).slice _).reshape _ _).set = _
  rw [View.set_reshape, View.set_slice_whole]; rfl
theorem ySlot_set (q : Fin 7) : (ySlot q).view.set = slotSet q := by
  show (((View.whole cc0_scratch2).slice _).reshape _ _).set = _
  rw [View.set_reshape, View.set_slice_whole]; rfl

theorem rPts_eq (c : Dev nD) (q : Fin 7) (f : Buf (Elt F) ((c : Thread nD τ).loc cc0_scratch3)) :
    rPts (F := F) c q f = (((c : Thread nD τ).loc cc0_scratch3) ↦[slotSet q]{fullShare} f : sProp 𝕄) := by
  unfold rPts
  rw [rSlot_set]
theorem yPts_eq (c : Dev nD) (q : Fin 7) (f : Buf (Elt F) ((c : Thread nD τ).loc cc0_scratch2)) :
    yPts (F := F) c q f = (((c : Thread nD τ).loc cc0_scratch2) ↦[slotSet q]{fullShare} f : sProp 𝕄) := by
  unfold yPts
  rw [ySlot_set]

theorem rbuf_split (c : Dev nD) (f : Buf (Elt F) ((c : Thread nD τ).loc cc0_scratch3)) :
    (((c : Thread nD τ).loc cc0_scratch3) ↦{fullShare} f : sProp 𝕄)
      ⊣⊢ iprop(rPts c 0 f ∗ rPts c 1 f ∗ rPts c 2 f ∗ rPts c 3 f ∗ rPts c 4 f ∗ rPts c 5 f ∗ rPts c 6 f) := by
  simp only [rPts_eq]
  rw [parts_split slotSet _ mem_slotSet f, bigSep_fin7]

theorem rbuf_join (c : Dev nD) (f0 f1 f2 f3 f4 f5 f6 : Buf (Elt F) ((c : Thread nD τ).loc cc0_scratch3)) :
    (iprop(rPts c 0 f0 ∗ rPts c 1 f1 ∗ rPts c 2 f2 ∗ rPts c 3 f3 ∗ rPts c 4 f4 ∗ rPts c 5 f5 ∗ rPts c 6 f6) : sProp 𝕄)
      ⊢ iprop(∃ g, ((c : Thread nD τ).loc cc0_scratch3) ↦{fullShare} g) := by
  have h := parts_glue (F := F) (ℓ := (c : Thread nD τ).loc cc0_scratch3) slotSet _ mem_slotSet ![f0, f1, f2, f3, f4, f5, f6] f0
  rw [bigSep_fin7] at h
  simp only [rPts_eq]
  exact h

theorem ybuf_split (c : Dev nD) (f : Buf (Elt F) ((c : Thread nD τ).loc cc0_scratch2)) :
    (((c : Thread nD τ).loc cc0_scratch2) ↦{fullShare} f : sProp 𝕄)
      ⊣⊢ iprop(yPts c 0 f ∗ yPts c 1 f ∗ yPts c 2 f ∗ yPts c 3 f ∗ yPts c 4 f ∗ yPts c 5 f ∗ yPts c 6 f) := by
  simp only [yPts_eq]
  rw [parts_split slotSet _ mem_slotSet f, bigSep_fin7]

theorem ybuf_join (c : Dev nD) (f0 f1 f2 f3 f4 f5 f6 : Buf (Elt F) ((c : Thread nD τ).loc cc0_scratch2)) :
    (iprop(yPts c 0 f0 ∗ yPts c 1 f1 ∗ yPts c 2 f2 ∗ yPts c 3 f3 ∗ yPts c 4 f4 ∗ yPts c 5 f5 ∗ yPts c 6 f6) : sProp 𝕄)
      ⊢ iprop(∃ g, ((c : Thread nD τ).loc cc0_scratch2) ↦{fullShare} g) := by
  have h := parts_glue (F := F) (ℓ := (c : Thread nD τ).loc cc0_scratch2) slotSet _ mem_slotSet ![f0, f1, f2, f3, f4, f5, f6] f0
  rw [bigSep_fin7] at h
  simp only [yPts_eq]
  exact h

end Cert.KernelIdeal.A2A

end
-- ==== Proof.Remote.lean ====
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.Tables
import proofs.«900798_g7700000000000799_dist_gemm_a2a_m8192_k8192_n4096_f32_relu_v7x_i8_1_alg».proof.Proof.Levels
import proofs.«900798_g7700000000000799_dist_gemm_a2a_m8192_k8192_n4096_f32_relu_v7x_i8_1_alg».proof.Proof.Slots

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem rSlot_credit (q : Fin 7) : (rSlot q).view.amount (.dma (recvSem q)) = N := rfl
theorem wp_send_slot (K : Dev nD × Fin 15 → ℕ) (c n : Dev nD) (q : Fin 7) (hn : n = peer c q)
    {hsc : (rSlot q : Memref sig (Dev.tc n : Thread nD τ).2.kind .vmem S1024x512 .bf16).view.ref.isScScratch = false}
    {hsrc : (ySlot q : Memref sig .tc .vmem S1024x512 .bf16).view.WordExact} {hdst : (rSlot q : Memref sig .tc .vmem S1024x512 .bf16).view.WordExact}
    {hsem : DmaTarget.Typed .vmem (.dma (recvSem q)) (.remote (Dev.tc n : Thread nD τ) (rSlot q : Memref sig .tc .vmem S1024x512 .bf16) (.dma (sendSem q)) hsc)}
    {α : Type} {Q : α → sProp 𝕄} {k : PUnit → Prog (TpuEff nD τ sig (Elt F) Λ₀ .tc) α}
    (fs : Buf (Elt F) ((ySlot q).view.loc (c : Thread nD τ))) (hfs : (ySlot q).view.read (Elt F) fs = sentV m c q)
    (fd : Buf (Elt F) ((rSlot q).view.loc (peer c q : Thread nD τ)))
    (O : CellTallies nD τ sig Unit) (W : Waits sig Unit) :
    iprop(cellInv ER (sched m) (K (c, kS q)) (sendCell c q) ∗ cellInv ER (sched m) (K (peer c q, kR q)) (recvCell (peer c q) q)
        ∗ yPts c q fs ∗ rPts (peer c q) q fd
        ∗ owes (c : Thread nD τ) (O + tR c q) W
        ∗ dutyTok ER (sendCell c q) 0 (0 : Fin 7) ∗ reached ER (sendCell c q) 0
        ∗ dutyTok ER (recvCell (peer c q) q) 0 (0 : Fin 7) ∗ reached ER (recvCell (peer c q) q) 0)
      ⊢ iprop(((cred (tallyAt (sendCell c q) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ySlot q) (.remote (Dev.tc n : Thread nD τ) (rSlot q) (.dma (sendSem q)) hsc) (.dma (recvSem q)) hsrc hdst hsem) k) Q) := by
  subst hn
  unfold yPts rPts
  exact Rounds.wp_send_pointsTo 𝒱₀ ER (sched m) (c : Thread nD τ) none (κ₁ := K (c, kS q)) (κ₂ := K (peer c q, kR q))
    (r₁ := 0) (r₂ := 0) (d₁ := (0 : Fin 7)) (d₂ := (0 : Fin 7)) (fs := fs) (fd := fd)
    (by rw [duties_send]; exact Finset.mem_singleton_self _) (by rw [duties_recv]; exact Finset.mem_singleton_self _)
    () () N (rSlot_credit q) (amount_send m c q 0) (amount_recv m (peer c q) q 0) O rfl (W := W)
    (by
      rw [payload_send]; unfold sendPay yPts
      iintro H
      iexists fs
      isplitl [H]; · iexact H
      ipureintro; exact hfs)
    (by
      rw [payload_recv_peer]; unfold rPts
      iintro H
      iexists _
      isplitl [H]; · iexact H
      ipureintro
      rw [View.read_write_univ]; exact hfs)

theorem wp_send_slot' (K : Dev nD × Fin 15 → ℕ) (c n : Dev nD) (q : Fin 7) (hn : n = peer c q)
    {hsc : (rSlot q : Memref sig (Dev.tc n : Thread nD τ).2.kind .vmem S1024x512 .bf16).view.ref.isScScratch = false}
    {hsrc : (ySlot q : Memref sig .tc .vmem S1024x512 .bf16).view.WordExact} {hdst : (rSlot q : Memref sig .tc .vmem S1024x512 .bf16).view.WordExact}
    {hsem : DmaTarget.Typed .vmem (.dma (recvSem q)) (.remote (Dev.tc n : Thread nD τ) (rSlot q : Memref sig .tc .vmem S1024x512 .bf16) (.dma (sendSem q)) hsc)}
    {α : Type} {Q : α → sProp 𝕄} {k : PUnit → Prog (TpuEff nD τ sig (Elt F) Λ₀ .tc) α}
    (fs : Buf (Elt F) ((ySlot q).view.loc (c : Thread nD τ))) (hfs : (ySlot q).view.read (Elt F) fs = sentV m c q)
    (fd : Buf (Elt F) ((rSlot q).view.loc (peer c q : Thread nD τ)))
    (O : CellTallies nD τ sig Unit) (W : Waits sig Unit) :
    ⊢ (iprop(cellInv ER (sched m) (K (c, kS q)) (sendCell c q) -∗ cellInv ER (sched m) (K (peer c q, kR q)) (recvCell (peer c q) q)
        -∗ yPts c q fs -∗ rPts (peer c q) q fd
        -∗ owes (c : Thread nD τ) (O + tR c q) W
        -∗ dutyTok ER (sendCell c q) 0 (0 : Fin 7) -∗ reached ER (sendCell c q) 0
        -∗ dutyTok ER (recvCell (peer c q) q) 0 (0 : Fin 7) -∗ reached ER (recvCell (peer c q) q) 0
        -∗ ((cred (tallyAt (sendCell c q) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (ySlot q) (.remote (Dev.tc n : Thread nD τ) (rSlot q) (.dma (sendSem q)) hsc) (.dma (recvSem q)) hsrc hdst hsem) k) Q) : sProp 𝕄) := by
  iintro #HI1 #HI2 Hy Hr HO Ht1 #Hr1 Ht2 #Hr2 Hk
  iapply (wp_send_slot m K c n q hn fs hfs fd O W) $$ [Hy Hr HO Ht1 Ht2] Hk
  isplitr; · iexact HI1
  isplitr; · iexact HI2
  isplitl [Hy]; · iexact Hy
  isplitl [Hr]; · iexact Hr
  isplitl [HO]; · iexact HO
  isplitl [Ht1]; · iexact Ht1
  isplitr; · iexact Hr1
  isplitl [Ht2]; · iexact Ht2
  iexact Hr2

theorem rest_bar (c : Dev nD) :
    bigSep ((sched (F := F) m).duties (barCell c) 0 \ ∅) (fun d => (sched (F := F) m).payload (barCell c) 0 d)
      = iprop(barPay (F := F) c 0 ∗ barPay c 1 ∗ barPay c 2 ∗ barPay c 3 ∗ barPay c 4 ∗ barPay c 5 ∗ barPay c 6) := by
  rw [duties_bar, Finset.sdiff_empty, bigSep_fin7]
  simp only [payload_bar]

theorem close_cell (κ : ℕ) (g : GSem nD τ sig) :
    ⊢ (iprop(cellInv ER (sched m) κ g -∗ atPos ER g 1 ∅ 0 -∗ |={Set.univ}=> semVal g 0) : sProp 𝕄) := by
  iintro #HI Hat
  iapply (Rounds.cell_close ER (sched m) (Set.mem_univ κ) (fun h => h) (R := 0 + 1) (duties_later m g))
  isplitr; · iexact HI
  iexact Hat

end Cert.KernelIdeal.A2A

end
-- ==== Proof.SlotOps.lean ====
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.Slots
import Idealize.ShloMosaic.Rules.Step
import Idealize.ShloMosaic.Lib.Pipeline.Value

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev slotRect (q : Fin 7) : Rect S7x1024x512 := Rect.unit (s := S7x1024x512) ![q.val, 0, 0] S1x1024x512.size (slot_inb q)

omit [FloatOps F] in
theorem access_set_y (q : Fin 7) : ((Memref.whole cc0_scratch2).access (slotRect q) : View sig .tc _ _ _).set = slotSet q :=
  View.set_slice_whole _ _
omit [FloatOps F] in
theorem access_set_r (q : Fin 7) : ((Memref.whole cc0_scratch3).access (slotRect q) : View sig .tc _ _ _).set = slotSet q :=
  View.set_slice_whole _ _

def yLoaded (c : Dev nD) (q : Fin 7) (f : Buf (Elt F) ((ySlot q).view.loc (c : Thread nD τ))) : FVec F S1x1024x512 .bf16 :=
  ((Memref.whole cc0_scratch2).access (slotRect q) : View sig .tc _ _ _).read (Elt F) f

theorem wp_load_yslot (c : Dev nD) (q : Fin 7) (f : Buf (Elt F) ((ySlot q).view.loc (c : Thread nD τ)))
    {hl : (Memref.whole cc0_scratch2 : Memref sig .tc .vmem S7x1024x512 .bf16).view.LoadsAt (slotRect q).toLoadRect}
    {α : Type} {Q : α → sProp 𝕄} {k : FVec F S1x1024x512 .bf16 → Prog (TpuEff nD τ sig (Elt F) Λ₀ .tc) α} :
    ⊢ (iprop(yPts c q f -∗ (yPts c q f -∗ wp frame (wpE (defs₀ (F := F)) 𝒱₀ (c : Thread nD τ) none) Set.univ (k (yLoaded c q f)) Q)
        -∗ wp frame (wpE (defs₀ (F := F)) 𝒱₀ (c : Thread nD τ) none) Set.univ (.op (.load (Memref.whole cc0_scratch2) (slotRect q).toLoadRect hl) k) Q) : sProp 𝕄) :=
  entails_wand (by
    rw [yPts_eq]
    exact wp_load_rect 𝒱₀ (c : Thread nD τ) none Set.univ (m := Memref.whole cc0_scratch2) (r := slotRect q)
      (by rw [access_set_y]))

def stored (c : Dev nD) (q : Fin 7) (f : Buf (Elt F) ((ySlot q).view.loc (c : Thread nD τ))) (v : FVec F S1x1024x512 .bf16) :
    Buf (Elt F) ((ySlot q).view.loc (c : Thread nD τ)) :=
  ((Memref.whole cc0_scratch2).access (slotRect q) : View sig .tc _ _ _).write (Elt F) f v Finset.univ

theorem wp_store_yslot (c : Dev nD) (q : Fin 7) (f : Buf (Elt F) ((ySlot q).view.loc (c : Thread nD τ))) (v : FVec F S1x1024x512 .bf16)
    {hst : ((Memref.whole cc0_scratch2 : Memref sig .tc .vmem S7x1024x512 .bf16).access (slotRect q)).Stores Finset.univ}
    {hm : (Finset.univ : Finset (slotRect q).shape.Idx) = Finset.univ ∨ ∀ a, (slotRect q).stride a = 1}
    {α : Type} {Q : α → sProp 𝕄} {k : PUnit → Prog (TpuEff nD τ sig (Elt F) Λ₀ .tc) α} :
    ⊢ (iprop(yPts c q f -∗ (yPts c q (stored c q f v) -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole cc0_scratch2) (slotRect q) v Finset.univ hst hm) k) Q) : sProp 𝕄) :=
  entails_wand (by
    rw [yPts_eq, yPts_eq]
    exact wp_store 𝒱₀ (c : Thread nD τ) none Set.univ (m := Memref.whole cc0_scratch2) (r := slotRect q)
      (by rw [View.setOn_univ, access_set_y]))

theorem read_stored (c : Dev nD) (q : Fin 7) (f : Buf (Elt F) ((ySlot q).view.loc (c : Thread nD τ))) (w : FVec F S1024x512 .bf16) :
    (ySlot q).view.read (Elt F) (stored c q f (shapeCast S1x1024x512 w Gen.shapeCasts_S1024x512_S1x1024x512)) = w := by
  show shapeCast S1024x512 (((Memref.whole cc0_scratch2).access (slotRect q) : View sig .tc _ _ _).read (Elt F)
      (stored c q f (shapeCast S1x1024x512 w Gen.shapeCasts_S1024x512_S1x1024x512))) Gen.shapeCasts_S1x1024x512_S1024x512 = w
  unfold stored
  rw [View.read_write_univ]
  exact shapeCast_shapeCast w _ _

def rLoaded (c : Dev nD) (q : Fin 7) (g : Buf (Elt F) ((rSlot q).view.loc (c : Thread nD τ))) : FVec F S1x1024x512 .bf16 :=
  ((Memref.whole cc0_scratch3).access (slotRect q) : View sig .tc _ _ _).read (Elt F) g

theorem wp_load_rslot (c : Dev nD) (q : Fin 7) (g : Buf (Elt F) ((rSlot q).view.loc (c : Thread nD τ)))
    {hl : (Memref.whole cc0_scratch3 : Memref sig .tc .vmem S7x1024x512 .bf16).view.LoadsAt (slotRect q).toLoadRect}
    {α : Type} {Q : α → sProp 𝕄} {k : FVec F S1x1024x512 .bf16 → Prog (TpuEff nD τ sig (Elt F) Λ₀ .tc) α} :
    ⊢ (iprop(rPts c q g -∗ (rPts c q g -∗ wp frame (wpE (defs₀ (F := F)) 𝒱₀ (c : Thread nD τ) none) Set.univ (k (rLoaded c q g)) Q)
        -∗ wp frame (wpE (defs₀ (F := F)) 𝒱₀ (c : Thread nD τ) none) Set.univ (.op (.load (Memref.whole cc0_scratch3) (slotRect q).toLoadRect hl) k) Q) : sProp 𝕄) :=
  entails_wand (by
    rw [rPts_eq]
    exact wp_load_rect 𝒱₀ (c : Thread nD τ) none Set.univ (m := Memref.whole cc0_scratch3) (r := slotRect q)
      (by rw [access_set_r]))

theorem loaded_rslot (c : Dev nD) (q : Fin 7) (g : Buf (Elt F) ((rSlot q).view.loc (c : Thread nD τ))) :
    shapeCast S1024x512 (rLoaded c q g) Gen.shapeCasts_S1x1024x512_S1024x512 = (rSlot q).view.read (Elt F) g := rfl

end Cert.KernelIdeal.A2A

end
-- ==== Proof.WTiles.lean ====
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.Tables
import proofs.«900798_g7700000000000799_dist_gemm_a2a_m8192_k8192_n4096_f32_relu_v7x_i8_1_alg».proof.Proof.Levels
import proofs.«900798_g7700000000000799_dist_gemm_a2a_m8192_k8192_n4096_f32_relu_v7x_i8_1_alg».proof.Proof.Slots
import proofs.«900798_g7700000000000799_dist_gemm_a2a_m8192_k8192_n4096_f32_relu_v7x_i8_1_alg».proof.Proof.Arith
import proofs.«900798_g7700000000000799_dist_gemm_a2a_m8192_k8192_n4096_f32_relu_v7x_i8_1_alg».proof.Proof.Spec
import Idealize.ShloMosaic.Rules.Step
import Idealize.ShloMosaic.Rules.PointsTo
import Idealize.ShloMosaic.Lib.Transfers
import Idealize.ShloMosaic.Lib.Pipeline.Value

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem wslot_inb : ∀ (k : Fin 2) (a : Fin 3), (![k.val, 0, 0] : Fin 3 → Nat) a + S1x2048x512.size a ≤ S2x2048x512.size a := by decide

abbrev wslotRect (k : Fin 2) : Rect S2x2048x512 := Rect.unit (s := S2x2048x512) ![k.val, 0, 0] S1x2048x512.size (wslot_inb k)
abbrev wSlot (k : Fin 2) : Memref sig .tc .vmem S2048x512 .f32 :=
  ((Memref.whole cc0_scratch0).slice (wslotRect k) (fun _ => rfl)).squeeze S2048x512 Gen.squeezes_S1x2048x512_S2048x512
abbrev wSem (k : Fin 2) : DmaSem sig := ⟨1 + k.val, by have := k.isLt; show 1 + k.val < 19; omega⟩

def wslotSet (k : Fin 2) : Finset S2x2048x512.Idx := (wslotRect k).set

theorem mem_wslotSet (k : Fin 2) (i : S2x2048x512.Idx) : i ∈ wslotSet k ↔ (⟨(i 0).val, (i 0).isLt⟩ : Fin 2) = k :=
  mem_firstSlot k (wslot_inb k) i

omit [FloatOps F] in
theorem wSlot_set (k : Fin 2) : (wSlot k).view.set = wslotSet k := by
  show (((View.whole cc0_scratch0).slice _).reshape _ _).set = _
  rw [View.set_reshape, View.set_slice_whole]; rfl

omit [FloatOps F] in
theorem waccess_set (k : Fin 2) : ((Memref.whole cc0_scratch0).access (wslotRect k) : View sig .tc _ _ _).set = wslotSet k :=
  View.set_slice_whole _ _

def wPts (c : Dev nD) (k : Fin 2) (f : Buf (Elt F) ((wSlot k).view.loc (c : Thread nD τ))) : sProp 𝕄 :=
  (wSlot k).view.loc (c : Thread nD τ) ↦[(wSlot k).view.set]{fullShare} f

theorem wPts_eq (c : Dev nD) (k : Fin 2) (f : Buf (Elt F) ((c : Thread nD τ).loc cc0_scratch0)) :
    wPts (F := F) c k f = (((c : Thread nD τ).loc cc0_scratch0) ↦[wslotSet k]{fullShare} f : sProp 𝕄) := by
  unfold wPts
  rw [wSlot_set]

theorem wbuf_split (c : Dev nD) (f : Buf (Elt F) ((c : Thread nD τ).loc cc0_scratch0)) :
    (((c : Thread nD τ).loc cc0_scratch0) ↦{fullShare} f : sProp 𝕄) ⊣⊢ iprop(wPts c 0 f ∗ wPts c 1 f) := by
  rw [wPts_eq, wPts_eq, parts_split wslotSet _ mem_wslotSet f, bigSep_fin_two]
  exact ⟨.refl, .refl⟩

theorem wbuf_join (c : Dev nD) (f0 f1 : Buf (Elt F) ((c : Thread nD τ).loc cc0_scratch0)) :
    (iprop(wPts c 0 f0 ∗ wPts c 1 f1) : sProp 𝕄) ⊢ iprop(∃ g, ((c : Thread nD τ).loc cc0_scratch0) ↦{fullShare} g) := by
  have h := parts_glue (F := F) (ℓ := (c : Thread nD τ).loc cc0_scratch0) wslotSet _ mem_wslotSet ![f0, f1] f0
  rw [bigSep_fin_two] at h
  rw [wPts_eq, wPts_eq]
  exact h

abbrev half (h : Bool) : PosShare TreeShare := cond h fullShare.right fullShare.left

def aPts (c : Dev nD) (h : Bool) : sProp 𝕄 :=
  ((c : Thread nD τ).loc main_arg1) ↦{half h} m ((c : Thread nD τ).loc main_arg1)

theorem arg1_split (c : Dev nD) :
    ((((c : Thread nD τ).loc main_arg1) ↦{fullShare} m ((c : Thread nD τ).loc main_arg1)) : sProp 𝕄)
      ⊣⊢ iprop(aPts m c false ∗ aPts m c true) :=
  pointsTo_share (PosShare.mem_left_op_right fullShare)

abbrev wSrc (off : Fin 2 → Nat) (inb : ∀ a, off a + S2048x512.size a ≤ S8192x4096.size a) : Memref sig .tc .hbm S2048x512 .f32 :=
  (Memref.whole main_arg1).slice (Rect.unit (s := S8192x4096) off S2048x512.size inb) (fun _ => rfl)

abbrev Nw : ℕ := (wSlot 0).view.dmaCredit
omit [FloatOps F] in
theorem wSlot_dmaCredit (k : Fin 2) : (wSlot k).view.dmaCredit = Nw := rfl
omit [FloatOps F] in
theorem Nw_pos : 0 < Nw := View.dmaCredit_pos _ (by decide)

omit [FloatOps F] in
theorem slotOf_wSem (k : Fin 2) : slotOf (SemLoc.dma (wSem k) : SemLoc sig) = none := by revert k; decide

def wLanded (c : Dev nD) (k : Fin 2) (off : Fin 2 → Nat) (inb : ∀ a, off a + S2048x512.size a ≤ S8192x4096.size a)
    (fd : Buf (Elt F) ((wSlot k).view.loc (c : Thread nD τ))) : Buf (Elt F) ((wSlot k).view.loc (c : Thread nD τ)) :=
  (wSlot k).view.write (Elt F) fd ((wSrc off inb).view.read (Elt F) (m ((c : Thread nD τ).loc main_arg1))) Finset.univ

def wFlight (c : Dev nD) (k : Fin 2) (h : Bool) (off : Fin 2 → Nat) (inb : ∀ a, off a + S2048x512.size a ≤ S8192x4096.size a)
    (fd : Buf (Elt F) ((wSlot k).view.loc (c : Thread nD τ))) : sProp 𝕄 :=
  iprop(Transfers.Flight countersEmb (c : Thread nD τ) (.dma (wSem k)) () Nw
      iprop(((wSlot k).view.loc (c : Thread nD τ) ↦[(wSlot k).view.set]{fullShare} wLanded m c k off inb fd)
        ∗ ((wSrc off inb).view.loc (c : Thread nD τ) ↦[(wSrc off inb).view.set]{half h} m ((c : Thread nD τ).loc main_arg1)))
    ∗ (((c : Thread nD τ).loc main_arg1) ↦[Finset.univ \ (wSrc off inb).view.set]{half h} m ((c : Thread nD τ).loc main_arg1)))

theorem wp_wtile_start (c : Dev nD) (k : Fin 2) (sm : DmaSem sig) (hsm : sm = wSem k) (h : Bool) (off : Fin 2 → Nat)
    (inb : ∀ a, off a + S2048x512.size a ≤ S8192x4096.size a) (fd : Buf (Elt F) ((wSlot k).view.loc (c : Thread nD τ)))
    {hs : (wSrc off inb).view.WordExact} {hd : (wSlot k : Memref sig .tc .vmem S2048x512 .f32).view.WordExact}
    {hsem : DmaTarget.Typed (nD := nD) (τ := τ) (p := .tc) .hbm (.dma sm) (.here (wSlot k))}
    {α : Type} {Q : α → sProp 𝕄} {k' : PUnit → Prog (TpuEff nD τ sig (Elt F) Λ₀ .tc) α} :
    ⊢ (iprop(wPts c k fd -∗ aPts m c h -∗ semVal ((c : Thread nD τ), SemLoc.dma sm) 0
        -∗ (wFlight m c k h off inb fd -∗ wp frame (wpE (defs₀ (F := F)) 𝒱₀ (c : Thread nD τ) none) Set.univ (k' ⟨⟩) Q)
        -∗ wp frame (wpE (defs₀ (F := F)) 𝒱₀ (c : Thread nD τ) none) Set.univ (.op (.enqueueDma (wSrc off inb) (.here (wSlot k)) (.dma sm) hs hd hsem) k') Q) : sProp 𝕄) := by
  subst hsm
  unfold wPts aPts wFlight
  iintro Hd Ha Hv Hk
  ihave Ha2 := (pointsTo_split_subset (Finset.subset_univ ((wSrc off inb).view.set))).1 $$ Ha
  icases Ha2 with ⟨Hs, Hrest⟩
  iapply (Transfers.wp_dmaLocal countersEmb 𝒱₀ (c : Thread nD τ) none (src := wSrc off inb) (dst := wSlot k) (via := .same)
      (fs := m ((c : Thread nD τ).loc main_arg1)) (fd := fd) (Sd := (wSlot k).view.set) (q := half h)
      () Nw rfl Nw_pos subset_rfl) $$ [Hs Hd Hv]
  · isplitl [Hs]; · iexact Hs
    isplitl [Hd]; · iexact Hd
    iexact Hv
  iintro HF
  iapply Hk
  isplitl [HF]; · iexact HF
  iexact Hrest

theorem wp_wtile_wait (c : Dev nD) (k : Fin 2) (sm : DmaSem sig) (hsm : sm = wSem k) (h : Bool) (off : Fin 2 → Nat)
    (inb : ∀ a, off a + S2048x512.size a ≤ S8192x4096.size a)
    (fd : Buf (Elt F) ((wSlot k).view.loc (c : Thread nD τ))) (O : CellTallies nD τ sig Unit) (hO : OnRecv O) (W : Waits sig Unit)
    {sp' : Space} {s' : Shape} {e' : EltTy} {srcw : Memref sig .tc sp' s' e'}
    {hsrc : srcw.view.WordExact} {hdst : (wSlot k : Memref sig .tc .vmem S2048x512 .f32).view.WordExact}
    {α : Type} {Q : α → sProp 𝕄} {k' : PUnit → Prog (TpuEff nD τ sig (Elt F) Λ₀ .tc) α} :
    ⊢ (iprop(wFlight m c k h off inb fd -∗ owes (c : Thread nD τ) O W -∗ levAts L lv
        -∗ ((wPts c k (wLanded m c k off inb fd) ∗ aPts m c h ∗ semVal ((c : Thread nD τ), SemLoc.dma sm) 0
              ∗ owes (c : Thread nD τ) O (insert (SemLoc.dma sm, ()) W))
            -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sm srcw (wSlot k) hsrc hdst) k') Q) : sProp 𝕄) := by
  subst hsm
  unfold wFlight wPts aPts
  iintro ⟨HF, Hrest⟩ HO #Hlev Hk
  iapply (Transfers.wp_waitLocalO countersEmb 𝒱₀ (c : Thread nD τ) none () (wSlot_dmaCredit k)) $$ [HF HO]
  · isplitl [HF]; · iexact HF
    isplitl [HO]; · iexact HO
    iapply (mayWait_low c (.dma (wSem k)) (lv_low c (wSem k) (slotOf_wSem k)) hO); iexact Hlev
  iintro ⟨⟨Hd, Hs⟩, Hv, HO⟩
  iapply Hk
  isplitl [Hd]; · iexact Hd
  isplitl [Hs Hrest]
  · iapply (pointsTo_split_subset (Finset.subset_univ ((wSrc off inb).view.set))).2
    isplitl [Hs]; · iexact Hs
    iexact Hrest
  isplitl [Hv]; · iexact Hv
  iexact HO

def wLoaded (c : Dev nD) (k : Fin 2) (f : Buf (Elt F) ((wSlot k).view.loc (c : Thread nD τ))) : FVec F S1x2048x512 .f32 :=
  ((Memref.whole cc0_scratch0).access (wslotRect k) : View sig .tc _ _ _).read (Elt F) f

theorem wp_load_wslot (c : Dev nD) (k : Fin 2) (f : Buf (Elt F) ((wSlot k).view.loc (c : Thread nD τ)))
    {hl : (Memref.whole cc0_scratch0 : Memref sig .tc .vmem S2x2048x512 .f32).view.LoadsAt (wslotRect k).toLoadRect}
    {α : Type} {Q : α → sProp 𝕄} {k' : FVec F S1x2048x512 .f32 → Prog (TpuEff nD τ sig (Elt F) Λ₀ .tc) α} :
    ⊢ (iprop(wPts c k f -∗ (wPts c k f -∗ wp frame (wpE (defs₀ (F := F)) 𝒱₀ (c : Thread nD τ) none) Set.univ (k' (wLoaded c k f)) Q)
        -∗ wp frame (wpE (defs₀ (F := F)) 𝒱₀ (c : Thread nD τ) none) Set.univ (.op (.load (Memref.whole cc0_scratch0) (wslotRect k).toLoadRect hl) k') Q) : sProp 𝕄) :=
  entails_wand (by
    rw [wPts_eq]
    exact wp_load_rect 𝒱₀ (c : Thread nD τ) none Set.univ (m := Memref.whole cc0_scratch0) (r := wslotRect k)
      (by rw [waccess_set]))

theorem wSlot_read_loaded (c : Dev nD) (k : Fin 2) (g : Buf (Elt F) ((wSlot k).view.loc (c : Thread nD τ))) :
    shapeCast S2048x512 (wLoaded c k g) Gen.shapeCasts_S1x2048x512_S2048x512 = (wSlot k).view.read (Elt F) g := rfl

theorem wtile_value (c : Dev nD) (k : Fin 2) (t : Fin 4) (j : Fin 8) (off : Fin 2 → Nat)
    (inb : ∀ a, off a + S2048x512.size a ≤ S8192x4096.size a) (h0 : off 0 = t.val * 2048) (h1 : off 1 = j.val * 512)
    (fd : Buf (Elt F) ((wSlot k).view.loc (c : Thread nD τ))) :
    shapeCast S2048x512 (wLoaded c k (wLanded m c k off inb fd)) Gen.shapeCasts_S1x2048x512_S2048x512
      = Spec.wTile (wOf m c) t j := by
  rw [wSlot_read_loaded]
  unfold wLanded
  rw [View.read_write_univ]
  funext i
  unfold Spec.wTile wOf
  show m ((c : Thread nD τ).loc main_arg1) ((Rect.unit (s := S8192x4096) off S2048x512.size inb).emb i) = _
  refine congrArg (m ((c : Thread nD τ).loc main_arg1)) (funext fun a => Fin.ext ?_)
  match a with
  | ⟨0, _⟩ =>
    show off 0 + 1 * (i 0).val = t.val * 2048 + (i 0).val
    rw [h0, Nat.one_mul]
  | ⟨1, _⟩ =>
    show off 1 + 1 * (i 1).val = j.val * 512 + (i 1).val
    rw [h1, Nat.one_mul]

theorem wtile_value1 (c : Dev nD) (k : Fin 2) (r : Fin 8) (w : BitVec 32) (hw : w = BitVec.ofNat 32 r.val)
    (inb : ∀ a, (k0_off1 c w) a + S2048x512.size a ≤ S8192x4096.size a) (fd : Buf (Elt F) ((wSlot k).view.loc (c : Thread nD τ))) :
    shapeCast S2048x512 (wLoaded c k (wLanded m c k (k0_off1 c w) inb fd)) Gen.shapeCasts_S1x2048x512_S2048x512
      = Spec.wTile (wOf m c) 0 ⟨(c.val + r.val) % 8, Nat.mod_lt _ (by decide)⟩ := by
  subst hw
  exact wtile_value m c k 0 _ _ inb (by rw [k0_off1_eq]; rfl) (by rw [k0_off1_eq]; rfl) fd
theorem wtile_value2 (c : Dev nD) (k : Fin 2) (r : Fin 8) (w : BitVec 32) (hw : w = BitVec.ofNat 32 r.val)
    (inb : ∀ a, (k0_off2 c w) a + S2048x512.size a ≤ S8192x4096.size a) (fd : Buf (Elt F) ((wSlot k).view.loc (c : Thread nD τ))) :
    shapeCast S2048x512 (wLoaded c k (wLanded m c k (k0_off2 c w) inb fd)) Gen.shapeCasts_S1x2048x512_S2048x512
      = Spec.wTile (wOf m c) 1 ⟨(c.val + r.val) % 8, Nat.mod_lt _ (by decide)⟩ := by
  subst hw
  exact wtile_value m c k 1 _ _ inb (by rw [k0_off2_eq]; rfl) (by rw [k0_off2_eq]; rfl) fd
theorem wtile_value3 (c : Dev nD) (k : Fin 2) (r : Fin 8) (w : BitVec 32) (hw : w = BitVec.ofNat 32 r.val)
    (inb : ∀ a, (k0_off3 c w) a + S2048x512.size a ≤ S8192x4096.size a) (fd : Buf (Elt F) ((wSlot k).view.loc (c : Thread nD τ))) :
    shapeCast S2048x512 (wLoaded c k (wLanded m c k (k0_off3 c w) inb fd)) Gen.shapeCasts_S1x2048x512_S2048x512
      = Spec.wTile (wOf m c) 2 ⟨(c.val + r.val) % 8, Nat.mod_lt _ (by decide)⟩ := by
  subst hw
  exact wtile_value m c k 2 _ _ inb (by rw [k0_off3_eq]; rfl) (by rw [k0_off3_eq]; rfl) fd
theorem wtile_value4 (c : Dev nD) (k : Fin 2) (r : Fin 8) (w : BitVec 32) (hw : w = BitVec.ofNat 32 r.val)
    (inb : ∀ a, (k0_off4 c w) a + S2048x512.size a ≤ S8192x4096.size a) (fd : Buf (Elt F) ((wSlot k).view.loc (c : Thread nD τ))) :
    shapeCast S2048x512 (wLoaded c k (wLanded m c k (k0_off4 c w) inb fd)) Gen.shapeCasts_S1x2048x512_S2048x512
      = Spec.wTile (wOf m c) 3 ⟨(c.val + r.val) % 8, Nat.mod_lt _ (by decide)⟩ := by
  subst hw
  exact wtile_value m c k 3 _ _ inb (by rw [k0_off4_eq]; rfl) (by rw [k0_off4_eq]; rfl) fd

end Cert.KernelIdeal.A2A

end
-- ==== Proof.OutPath.lean ====
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.Tables
import proofs.«900798_g7700000000000799_dist_gemm_a2a_m8192_k8192_n4096_f32_relu_v7x_i8_1_alg».proof.Proof.Levels
import proofs.«900798_g7700000000000799_dist_gemm_a2a_m8192_k8192_n4096_f32_relu_v7x_i8_1_alg».proof.Proof.Slots
import proofs.«900798_g7700000000000799_dist_gemm_a2a_m8192_k8192_n4096_f32_relu_v7x_i8_1_alg».proof.Proof.Arith
import proofs.«900798_g7700000000000799_dist_gemm_a2a_m8192_k8192_n4096_f32_relu_v7x_i8_1_alg».proof.Proof.Spec
import Idealize.ShloMosaic.Rules.PointsTo
import Idealize.ShloMosaic.Rules.Step
import Idealize.ShloMosaic.Lib.Pipeline.Value
import Idealize.ShloMosaic.Lib.Transfers

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem sslot_inb : ∀ (k : Fin 2) (a : Fin 3), (![k.val, 0, 0] : Fin 3 → Nat) a + S1x1024x512.size a ≤ S2x1024x512.size a := by decide

abbrev sRect (k : Fin 2) : Rect S2x1024x512 := Rect.unit (s := S2x1024x512) ![k.val, 0, 0] S1x1024x512.size (sslot_inb k)
abbrev sSlot (k : Fin 2) : Memref sig .tc .vmem S1024x512 .f32 :=
  ((Memref.whole cc0_scratch4).slice (sRect k) (fun _ => rfl)).squeeze S1024x512 Gen.squeezes_S1x1024x512_S1024x512

def sPts (c : Dev nD) (k : Fin 2) (f : Buf (Elt F) ((sSlot k).view.loc (c : Thread nD τ))) : sProp 𝕄 :=
  (sSlot k).view.loc (c : Thread nD τ) ↦[(sSlot k).view.set]{fullShare} f

def stageSet (k : Fin 2) : Finset S2x1024x512.Idx := (sRect k).set

theorem mem_stageSet (k : Fin 2) (i : S2x1024x512.Idx) : i ∈ stageSet k ↔ (⟨(i 0).val, (i 0).isLt⟩ : Fin 2) = k :=
  mem_firstSlot k (sslot_inb k) i

theorem sSlot_set (k : Fin 2) : (sSlot k).view.set = stageSet k := by
  show (((View.whole cc0_scratch4).slice _).reshape _ _).set = _
  rw [View.set_reshape, View.set_slice_whole]; rfl

theorem sPts_eq (c : Dev nD) (k : Fin 2) (f : Buf (Elt F) ((c : Thread nD τ).loc cc0_scratch4)) :
    sPts (F := F) c k f = (((c : Thread nD τ).loc cc0_scratch4) ↦[stageSet k]{fullShare} f : sProp 𝕄) := by
  unfold sPts
  rw [sSlot_set]

theorem sbuf_split (c : Dev nD) (f : Buf (Elt F) ((c : Thread nD τ).loc cc0_scratch4)) :
    (((c : Thread nD τ).loc cc0_scratch4) ↦{fullShare} f : sProp 𝕄) ⊣⊢ iprop(sPts c 0 f ∗ sPts c 1 f) := by
  rw [sPts_eq, sPts_eq, parts_split stageSet _ mem_stageSet f, bigSep_univ_two]

theorem sbuf_join (c : Dev nD) (f0 f1 : Buf (Elt F) ((c : Thread nD τ).loc cc0_scratch4)) :
    (iprop(sPts c 0 f0 ∗ sPts c 1 f1) : sProp 𝕄) ⊢ iprop(∃ g, ((c : Thread nD τ).loc cc0_scratch4) ↦{fullShare} g) := by
  have h := parts_glue (F := F) (ℓ := (c : Thread nD τ).loc cc0_scratch4) stageSet _ mem_stageSet ![f0, f1] f0
  rw [bigSep_univ_two] at h
  rw [sPts_eq, sPts_eq]
  exact h

theorem oblk_inb : ∀ (b : Fin 8) (a : Fin 2), (![b.val * 1024, 0] : Fin 2 → Nat) a + S1024x512.size a ≤ S8192x512.size a := by decide

abbrev oRect (b : Fin 8) : Rect S8192x512 := Rect.unit (s := S8192x512) ![b.val * 1024, 0] S1024x512.size (oblk_inb b)
abbrev oBlk (b : Fin 8) : Memref sig .tc .hbm S1024x512 .f32 := (Memref.whole main_v1).slice (oRect b) (fun _ => rfl)

def oPts (c : Dev nD) (b : Fin 8) (f : Buf (Elt F) ((oBlk b).view.loc (c : Thread nD τ))) : sProp 𝕄 :=
  (oBlk b).view.loc (c : Thread nD τ) ↦[(oBlk b).view.set]{fullShare} f

def oSet (b : Fin 8) : Finset S8192x512.Idx := (oRect b).set

theorem mem_oSet {b : Fin 8} {i : S8192x512.Idx} : i ∈ oSet b ↔ (i 0).val / 1024 = b.val := by
  unfold oSet
  rw [Rect.mem_set_unit]
  constructor
  · intro h
    have h0 := h 0
    have e0 : (![b.val * 1024, 0] : Fin 2 → Nat) 0 = b.val * 1024 := rfl
    have e1 : S1024x512.size 0 = 1024 := rfl
    rw [e0, e1] at h0
    omega
  · intro h a
    match a with
    | ⟨0, _⟩ =>
      show b.val * 1024 ≤ (i 0).val ∧ (i 0).val < b.val * 1024 + 1024
      omega
    | ⟨1, _⟩ => exact ⟨Nat.zero_le _, (Nat.zero_add _).symm ▸ (i 1).isLt⟩

theorem oBlk_set (b : Fin 8) : (oBlk b).view.set = oSet b := View.set_slice_whole _ _

theorem oPts_eq (c : Dev nD) (b : Fin 8) (f : Buf (Elt F) ((c : Thread nD τ).loc main_v1)) :
    oPts (F := F) c b f = (((c : Thread nD τ).loc main_v1) ↦[oSet b]{fullShare} f : sProp 𝕄) := by
  unfold oPts
  rw [oBlk_set]

theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem access_set_s (k : Fin 2) : ((Memref.whole cc0_scratch4).access (sRect k) : View sig .tc _ _ _).set = stageSet k :=
  View.set_slice_whole _ _

def sLoaded (c : Dev nD) (k : Fin 2) (f : Buf (Elt F) ((sSlot k).view.loc (c : Thread nD τ))) : FVec F S1x1024x512 .f32 :=
  ((Memref.whole cc0_scratch4).access (sRect k) : View sig .tc _ _ _).read (Elt F) f

theorem wp_load_sslot (c : Dev nD) (k : Fin 2) (f : Buf (Elt F) ((sSlot k).view.loc (c : Thread nD τ)))
    {hl : (Memref.whole cc0_scratch4 : Memref sig .tc .vmem S2x1024x512 .f32).view.LoadsAt (sRect k).toLoadRect}
    {α : Type} {Q : α → sProp 𝕄} {k' : FVec F S1x1024x512 .f32 → Prog (TpuEff nD τ sig (Elt F) Λ₀ .tc) α} :
    ⊢ (iprop(sPts c k f -∗ (sPts c k f -∗ wp frame (wpE (defs₀ (F := F)) 𝒱₀ (c : Thread nD τ) none) Set.univ (k' (sLoaded c k f)) Q)
        -∗ wp frame (wpE (defs₀ (F := F)) 𝒱₀ (c : Thread nD τ) none) Set.univ (.op (.load (Memref.whole cc0_scratch4) (sRect k).toLoadRect hl) k') Q) : sProp 𝕄) :=
  entails_wand (by
    rw [sPts_eq]
    exact wp_load_rect 𝒱₀ (c : Thread nD τ) none Set.univ (m := Memref.whole cc0_scratch4) (r := sRect k)
      (by rw [access_set_s]))

def stored' (c : Dev nD) (k : Fin 2) (f : Buf (Elt F) ((sSlot k).view.loc (c : Thread nD τ))) (v : FVec F S1x1024x512 .f32) :
    Buf (Elt F) ((sSlot k).view.loc (c : Thread nD τ)) :=
  ((Memref.whole cc0_scratch4).access (sRect k) : View sig .tc _ _ _).write (Elt F) f v Finset.univ

theorem wp_store_sslot (c : Dev nD) (k : Fin 2) (f : Buf (Elt F) ((sSlot k).view.loc (c : Thread nD τ))) (v : FVec F S1x1024x512 .f32)
    {hst : ((Memref.whole cc0_scratch4 : Memref sig .tc .vmem S2x1024x512 .f32).access (sRect k)).Stores Finset.univ}
    {hm : (Finset.univ : Finset (sRect k).shape.Idx) = Finset.univ ∨ ∀ a, (sRect k).stride a = 1}
    {α : Type} {Q : α → sProp 𝕄} {k' : PUnit → Prog (TpuEff nD τ sig (Elt F) Λ₀ .tc) α} :
    ⊢ (iprop(sPts c k f -∗ (sPts c k (stored' c k f v) -∗ wp frame (wpE (defs₀ (F := F)) 𝒱₀ (c : Thread nD τ) none) Set.univ (k' ⟨⟩) Q)
        -∗ wp frame (wpE (defs₀ (F := F)) 𝒱₀ (c : Thread nD τ) none) Set.univ (.op (.store (Memref.whole cc0_scratch4) (sRect k) v Finset.univ hst hm) k') Q) : sProp 𝕄) :=
  entails_wand (by
    rw [sPts_eq, sPts_eq]
    exact wp_store 𝒱₀ (c : Thread nD τ) none Set.univ (m := Memref.whole cc0_scratch4) (r := sRect k)
      (by rw [View.setOn_univ, access_set_s]))

theorem read_stored' (c : Dev nD) (k : Fin 2) (f : Buf (Elt F) ((sSlot k).view.loc (c : Thread nD τ))) (y : FVec F S1024x512 .f32) :
    (sSlot k).view.read (Elt F) (stored' c k f (shapeCast S1x1024x512 y Gen.shapeCasts_S1024x512_S1x1024x512)) = y := by
  show shapeCast S1024x512 (((Memref.whole cc0_scratch4).access (sRect k) : View sig .tc _ _ _).read (Elt F)
      (stored' c k f (shapeCast S1x1024x512 y Gen.shapeCasts_S1024x512_S1x1024x512))) Gen.shapeCasts_S1x1024x512_S1024x512 = y
  unfold stored'
  rw [View.read_write_univ]
  exact shapeCast_shapeCast y _ _

abbrev outSem (k : Fin 2) : DmaSem sig := ⟨17 + k.val, by have := k.isLt; show 17 + k.val < 19; omega⟩

abbrev NO : ℕ := (oBlk 0).view.dmaCredit

theorem oBlk_amount (k : Fin 2) (b : Fin 8) : (oBlk b).view.amount (.dma (outSem k)) = NO := rfl
theorem oBlk_dmaCredit (b : Fin 8) : (oBlk b).view.dmaCredit = NO := rfl
theorem NO_pos : 0 < NO := View.dmaCredit_pos _ (by decide)

theorem slotOf_out (k : Fin 2) : slotOf (SemLoc.dma (outSem k) : SemLoc sig) = none := by revert k; decide

def oLanded (c : Dev nD) (k : Fin 2) (b : Fin 8) (fs : Buf (Elt F) ((sSlot k).view.loc (c : Thread nD τ)))
    (fd : Buf (Elt F) ((oBlk b).view.loc (c : Thread nD τ))) : Buf (Elt F) ((oBlk b).view.loc (c : Thread nD τ)) :=
  (oBlk b).view.write (Elt F) fd ((sSlot k).view.read (Elt F) fs) Finset.univ

theorem read_landed (c : Dev nD) (k : Fin 2) (b : Fin 8) (fs : Buf (Elt F) ((sSlot k).view.loc (c : Thread nD τ)))
    (fd : Buf (Elt F) ((oBlk b).view.loc (c : Thread nD τ))) :
    (oBlk b).view.read (Elt F) (oLanded c k b fs fd) = (sSlot k).view.read (Elt F) fs := by
  unfold oLanded; exact View.read_write_univ _ _

def oFlight (c : Dev nD) (k : Fin 2) (b : Fin 8) (fs : Buf (Elt F) ((sSlot k).view.loc (c : Thread nD τ)))
    (fd : Buf (Elt F) ((oBlk b).view.loc (c : Thread nD τ))) : sProp 𝕄 :=
  Transfers.Flight countersEmb (c : Thread nD τ) (SemLoc.dma (outSem k)) () NO iprop(oPts c b (oLanded c k b fs fd) ∗ sPts c k fs)

theorem wp_out_start (c : Dev nD) (k : Fin 2) (b : Fin 8) (tgt : Memref sig .tc .hbm S1024x512 .f32) (ht : tgt = oBlk b)
    (sm : DmaSem sig) (hsm : outSem k = sm)
    (fs : Buf (Elt F) ((sSlot k).view.loc (c : Thread nD τ))) (fd : Buf (Elt F) ((oBlk b).view.loc (c : Thread nD τ)))
    {hs : (sSlot k : Memref sig .tc .vmem S1024x512 .f32).view.WordExact} {hd : tgt.view.WordExact}
    {hsem : DmaTarget.Typed (nD := nD) .vmem (SemLoc.dma sm) (DmaTarget.here tgt : DmaTarget nD τ sig (c : Thread nD τ).2 .hbm S1024x512 .f32)}
    {α : Type} {Q : α → sProp 𝕄} {k' : PUnit → Prog (TpuEff nD τ sig (Elt F) Λ₀ .tc) α} :
    ⊢ (iprop(sPts c k fs -∗ oPts c b fd -∗ semVal ((c : Thread nD τ), SemLoc.dma sm) 0
        -∗ (oFlight c k b fs fd -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (sSlot k) (.here tgt) (.dma sm) hs hd hsem) k') Q) : sProp 𝕄) := by
  subst ht; subst hsm
  unfold oFlight sPts oPts oLanded
  iintro Hs Ho Hv Hk
  iapply (Transfers.wp_dmaLocal countersEmb 𝒱₀ (c : Thread nD τ) none (src := sSlot k) (via := .same) (dst := oBlk b) (sm := .dma (outSem k))
    (q := fullShare) (fs := fs) (Sd := (oBlk b).view.set) (fd := fd) () NO (oBlk_amount k b) NO_pos (Finset.Subset.refl _)) $$ [Hs Ho Hv]
  · isplitl [Hs]; · iexact Hs
    isplitl [Ho]; · iexact Ho
    iexact Hv
  iexact Hk

theorem wp_out_wait (c : Dev nD) (k : Fin 2) (b : Fin 8) (tgt : Memref sig .tc .hbm S1024x512 .f32) (ht : tgt = oBlk b)
    (sm : DmaSem sig) (hsm : outSem k = sm)
    (fs : Buf (Elt F) ((sSlot k).view.loc (c : Thread nD τ)))
    (fd : Buf (Elt F) ((oBlk b).view.loc (c : Thread nD τ))) (O : CellTallies nD τ sig Unit) (hO : OnRecv O) (W : Waits sig Unit)
    {sp' : Space} {s' : Shape} {e' : EltTy} {src : Memref sig .tc sp' s' e'}
    {hsrc : src.view.WordExact} {hdst : tgt.view.WordExact}
    {α : Type} {Q : α → sProp 𝕄} {k' : PUnit → Prog (TpuEff nD τ sig (Elt F) Λ₀ .tc) α} :
    ⊢ (iprop(oFlight c k b fs fd -∗ owes (c : Thread nD τ) O W -∗ levAts L lv
        -∗ ((sPts c k fs ∗ oPts c b (oLanded c k b fs fd) ∗ semVal ((c : Thread nD τ), SemLoc.dma sm) 0
              ∗ owes (c : Thread nD τ) O (insert (SemLoc.dma sm, ()) W))
            -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sm src tgt hsrc hdst) k') Q) : sProp 𝕄) := by
  subst ht; subst hsm
  unfold oFlight
  iintro Hf HO #Hlev Hk
  iapply (Transfers.wp_waitLocalO countersEmb 𝒱₀ (c : Thread nD τ) none (sem := outSem k) (srcw := src) (dstw := oBlk b) ()
      (oBlk_dmaCredit b) (O := O) (W := W)) $$ [Hf HO]
  · isplitl [Hf]; · iexact Hf
    isplitl [HO]; · iexact HO
    iapply (mayWait_low c (.dma (outSem k)) (lv_low c (outSem k) (slotOf_out k)) hO); iexact Hlev
  iintro ⟨⟨Ho, Hs⟩, Hv, HO⟩
  iapply Hk
  isplitl [Hs]; · iexact Hs
  isplitl [Ho]; · iexact Ho
  isplitl [Hv]; · iexact Hv
  iexact HO

theorem off5_eq (c : Dev nD) : k0_off5 c = ![c.val * 1024, 0] := (Gen.k0_off5_eq c).trans (by rw [Nat.mul_comm])
theorem off6_eq (c : Dev nD) (r : Fin 7) : k0_off6 c (BitVec.ofNat 32 (1 + r.val)) = ![(src c r).val * 1024, 0] := k0_off6_eq c r

theorem oBlk_own (c : Dev nD) :
    (Memref.whole main_v1 : Memref sig .tc .hbm S8192x512 .f32).slice (Rect.unit (s := S8192x512) (k0_off5 c) S1024x512.size (Gen.k0_off5_inb c)) (fun _ => rfl) = oBlk c :=
  Memref.slice_unit_congr _ (off5_eq c) _ _ _ _
theorem oBlk_from (c : Dev nD) (r : Fin 7) :
    (Memref.whole main_v1 : Memref sig .tc .hbm S8192x512 .f32).slice (Rect.unit (s := S8192x512) (k0_off6 c (BitVec.ofNat 32 (1 + r.val))) S1024x512.size (Gen.k0_off6_inb c r)) (fun _ => rfl)
      = oBlk (src c r) :=
  Memref.slice_unit_congr _ (off6_eq c r) _ _ _ _

end Cert.KernelIdeal.A2A

end
-- ==== Proof.Closing.lean ====
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.OutPath
import proofs.«900798_g7700000000000799_dist_gemm_a2a_m8192_k8192_n4096_f32_relu_v7x_i8_1_alg».proof.Proof.Spec

noncomputable section

namespace Cert.KernelIdeal.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem ownSems0_intro (c : Dev nD) :
    (iprop(semVal ((c : Thread nD τ), SemLoc.dma (1 : DmaSem sig)) 0 ∗ semVal ((c : Thread nD τ), SemLoc.dma (2 : DmaSem sig)) 0
        ∗ semVal ((c : Thread nD τ), SemLoc.dma (17 : DmaSem sig)) 0 ∗ semVal ((c : Thread nD τ), SemLoc.dma (18 : DmaSem sig)) 0
        ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0)
        ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0)) : sProp 𝕄)
      ⊢ (Pipeline.ownSems0 osem c : sProp 𝕄) := by
  rw [ownSems0_cells]
  iintro ⟨H1, H2, H17, H18, ⟨S0, S1, S2, S3, S4, S5, S6⟩, ⟨R0, R1, R2, R3, R4, R5, R6⟩⟩
  iframe

theorem oBlk_read_apply (c : Dev nD) (b : Fin 8) (g : Buf (Elt F) ((c : Thread nD τ).loc main_v1)) (x : S1024x512.Idx) :
    (oBlk b).view.read (Elt F) g x = g ((oRect b).emb x) := rfl

theorem exists_row (i : S8192x512.Idx) : ∃ (s : Fin 8) (r : Fin 1024) (n : Fin 512), (oRect s).emb (ix2 r n) = i := by
  have hi : (i 0).val < 8192 := (i 0).isLt
  refine ⟨⟨(i 0).val / 1024, by omega⟩, ⟨(i 0).val % 1024, Nat.mod_lt _ (by decide)⟩, ⟨(i 1).val, (i 1).isLt⟩, ?_⟩
  funext a
  apply Fin.ext
  rw [Rect.emb_apply]
  match a with
  | ⟨0, _⟩ => show (i 0).val / 1024 * 1024 + 1 * ((i 0).val % 1024) = (i 0).val; omega
  | ⟨1, _⟩ => show 0 + 1 * (i 1).val = (i 1).val; omega

theorem outSpec_at (xs : Fin 8 → FVec F S1024x8192 .f32) (ws : Fin 8 → FVec F S8192x4096 .f32) (c s : Fin 8) (r : Fin 1024) (n : Fin 512) :
    Spec.outSpec xs ws c ((oRect s).emb (ix2 r n))
      = if s = c then Spec.yBlk (xs c) (ws c) c (ix2 r n) else Spec.sent (xs s) (ws s) c (ix2 r n) := by
  have h0 : (((oRect s).emb (ix2 r n)) 0).val = s.val * 1024 + r.val := by
    rw [Rect.emb_apply]; show s.val * 1024 + 1 * r.val = _; omega
  have h1 : (((oRect s).emb (ix2 r n)) 1).val = n.val := by
    rw [Rect.emb_apply]; show 0 + 1 * n.val = _; omega
  have key : ∀ (S : Fin 8) (R : Fin 1024) (N : Fin 512), S = s → R = r → N = n →
      (if S = c then Spec.yBlk (xs c) (ws c) c (ix2 R N) else Spec.sent (xs S) (ws S) c (ix2 R N))
        = (if s = c then Spec.yBlk (xs c) (ws c) c (ix2 r n) else Spec.sent (xs s) (ws s) c (ix2 r n)) := by
    rintro _ _ _ rfl rfl rfl; rfl
  have hr := r.isLt
  unfold Spec.outSpec
  exact key _ _ _ (Fin.ext (by show _ / 1024 = s.val; rw [h0]; omega)) (Fin.ext (by show _ % 1024 = r.val; rw [h0]; omega)) (Fin.ext h1)

theorem exists_src : ∀ c s : Dev nD, s ≠ c → ∃ q : Fin 7, s = src c q := by decide

theorem outFinal_of_blocks (c : Dev nD) (g : Buf (Elt F) ((c : Thread nD τ).loc main_v1))
    (hown : (oBlk c).view.read (Elt F) g = ownV m c)
    (hrecv : ∀ q : Fin 7, (oBlk (src c q)).view.read (Elt F) g = extf .f32 (sentV m (src c q) q) Gen.bitsLt_bf16_f32) :
    g = (outFinal m c : Buf (Elt F) ((c : Thread nD τ).loc main_v1)) := by
  funext i
  obtain ⟨s, r, n, rfl⟩ := exists_row i
  show g ((oRect s).emb (ix2 r n)) = Spec.outSpec (fun d => xOf m d) (fun d => wOf m d) c ((oRect s).emb (ix2 r n))
  rw [outSpec_at, ← oBlk_read_apply c s g (ix2 r n)]
  by_cases hs : s = c
  · subst hs
    rw [if_pos rfl, hown]; rfl
  · obtain ⟨q, rfl⟩ := exists_src c s hs
    rw [if_neg hs, hrecv q]
    unfold sentV yOf Spec.sent
    rw [peer_src]

abbrev rowOf (c : Dev nD) : Fin 8 → Fin 8 := ![c, src c 0, src c 1, src c 2, src c 3, src c 4, src c 5, src c 6]

-- Row block `(c − t) mod 8` is the `t`-th a device meets, and that map is its own inverse.
theorem row_parts (c : Dev nD) (t : Fin 8) (i : S8192x512.Idx) :
    i ∈ oSet (rowOf c t) ↔ (⟨(c.val + 8 - (i 0).val / 1024) % 8, Nat.mod_lt _ (by decide)⟩ : Fin 8) = t := by
  have hi : (i 0).val < 8192 := (i 0).isLt
  have key : ∀ (c t b : Fin 8), b.val = (rowOf c t).val ↔ (⟨(c.val + 8 - b.val) % 8, Nat.mod_lt _ (by decide)⟩ : Fin 8) = t := by decide
  rw [mem_oSet]
  exact key c t ⟨(i 0).val / 1024, by omega⟩

theorem obuf_split_perm (c : Dev nD) (f : Buf (Elt F) ((c : Thread nD τ).loc main_v1)) :
    ((((c : Thread nD τ).loc main_v1)) ↦{fullShare} f : sProp 𝕄)
      ⊣⊢ iprop(oPts c c f ∗ oPts c (src c 0) f ∗ oPts c (src c 1) f ∗ oPts c (src c 2) f ∗ oPts c (src c 3) f ∗ oPts c (src c 4) f ∗ oPts c (src c 5) f ∗ oPts c (src c 6) f) := by
  simp only [oPts_eq]
  rw [parts_split (ℓ := (c : Thread nD τ).loc main_v1) (fun t => oSet (rowOf c t)) _ (row_parts c) f, bigSep_fin8]
  exact ⟨.refl, .refl⟩

theorem obuf_join_perm (c : Dev nD) (fc f0 f1 f2 f3 f4 f5 f6 : Buf (Elt F) ((c : Thread nD τ).loc main_v1)) :
    (iprop(oPts c c fc ∗ oPts c (src c 0) f0 ∗ oPts c (src c 1) f1 ∗ oPts c (src c 2) f2 ∗ oPts c (src c 3) f3 ∗ oPts c (src c 4) f4 ∗ oPts c (src c 5) f5 ∗ oPts c (src c 6) f6) : sProp 𝕄)
      ⊢ iprop(∃ g : Buf (Elt F) ((c : Thread nD τ).loc main_v1), ((((c : Thread nD τ).loc main_v1)) ↦{fullShare} g)
          ∗ ⌜(oBlk c).view.read (Elt F) g = (oBlk c).view.read (Elt F) fc
            ∧ (oBlk (src c 0)).view.read (Elt F) g = (oBlk (src c 0)).view.read (Elt F) f0
            ∧ (oBlk (src c 1)).view.read (Elt F) g = (oBlk (src c 1)).view.read (Elt F) f1
            ∧ (oBlk (src c 2)).view.read (Elt F) g = (oBlk (src c 2)).view.read (Elt F) f2
            ∧ (oBlk (src c 3)).view.read (Elt F) g = (oBlk (src c 3)).view.read (Elt F) f3
            ∧ (oBlk (src c 4)).view.read (Elt F) g = (oBlk (src c 4)).view.read (Elt F) f4
            ∧ (oBlk (src c 5)).view.read (Elt F) g = (oBlk (src c 5)).view.read (Elt F) f5
            ∧ (oBlk (src c 6)).view.read (Elt F) g = (oBlk (src c 6)).view.read (Elt F) f6⌝) := by
  have h := parts_join (F := F) (ℓ := (c : Thread nD τ).loc main_v1) (fun t => oSet (rowOf c t)) _ (row_parts c) ![fc, f0, f1, f2, f3, f4, f5, f6] fc
  rw [bigSep_fin8] at h
  simp only [oPts_eq]
  refine h.trans ?_
  iintro ⟨%g, HS, %hg⟩
  iexists g
  isplitl [HS]; · iexact HS
  ipureintro
  have rd : ∀ t : Fin 8, (oBlk (rowOf c t)).view.read (Elt F) g = (oBlk (rowOf c t)).view.read (Elt F) (![fc, f0, f1, f2, f3, f4, f5, f6] t) :=
    fun t => View.read_congr (fun i hi => hg t i (by rw [← oBlk_set]; exact hi))
  exact ⟨rd 0, rd 1, rd 2, rd 3, rd 4, rd 5, rd 6, rd 7⟩

theorem final_out (c : Dev nD) (fc f0 f1 f2 f3 f4 f5 f6 : Buf (Elt F) ((c : Thread nD τ).loc main_v1))
    (hown : (oBlk c).view.read (Elt F) fc = ownV m c)
    (h0 : (oBlk (src c 0)).view.read (Elt F) f0 = extf .f32 (sentV m (src c 0) 0) Gen.bitsLt_bf16_f32)
    (h1 : (oBlk (src c 1)).view.read (Elt F) f1 = extf .f32 (sentV m (src c 1) 1) Gen.bitsLt_bf16_f32)
    (h2 : (oBlk (src c 2)).view.read (Elt F) f2 = extf .f32 (sentV m (src c 2) 2) Gen.bitsLt_bf16_f32)
    (h3 : (oBlk (src c 3)).view.read (Elt F) f3 = extf .f32 (sentV m (src c 3) 3) Gen.bitsLt_bf16_f32)
    (h4 : (oBlk (src c 4)).view.read (Elt F) f4 = extf .f32 (sentV m (src c 4) 4) Gen.bitsLt_bf16_f32)
    (h5 : (oBlk (src c 5)).view.read (Elt F) f5 = extf .f32 (sentV m (src c 5) 5) Gen.bitsLt_bf16_f32)
    (h6 : (oBlk (src c 6)).view.read (Elt F) f6 = extf .f32 (sentV m (src c 6) 6) Gen.bitsLt_bf16_f32) :
    (iprop(oPts c c fc ∗ oPts c (src c 0) f0 ∗ oPts c (src c 1) f1 ∗ oPts c (src c 2) f2 ∗ oPts c (src c 3) f3 ∗ oPts c (src c 4) f4 ∗ oPts c (src c 5) f5 ∗ oPts c (src c 6) f6) : sProp 𝕄)
      ⊢ ((((c : Thread nD τ).loc main_v1)) ↦{fullShare} (outFinal m c : Buf (Elt F) ((c : Thread nD τ).loc main_v1)) : sProp 𝕄) := by
  refine (obuf_join_perm c fc f0 f1 f2 f3 f4 f5 f6).trans ?_
  iintro H
  icases H with ⟨%g, Hg, %hg⟩
  obtain ⟨e, e0, e1, e2, e3, e4, e5, e6⟩ := hg
  have hgo : g = (outFinal m c : Buf (Elt F) ((c : Thread nD τ).loc main_v1)) :=
    outFinal_of_blocks m c g (e.trans hown) (fun q => by
      fin_cases q
      · exact e0.trans h0
      · exact e1.trans h1
      · exact e2.trans h2
      · exact e3.trans h3
      · exact e4.trans h4
      · exact e5.trans h5
      · exact e6.trans h6)
  subst hgo
  iexact Hg

end Cert.KernelIdeal.A2A

end
-- ==== Proof.Vals.lean ====
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.Spec
import proofs.«900798_g7700000000000799_dist_gemm_a2a_m8192_k8192_n4096_f32_relu_v7x_i8_1_alg».proof.Proof.WTiles

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem xinb : ∀ (t : Fin 4) (a : Fin 2), (![0, t.val * 2048] : Fin 2 → Nat) a + S1024x2048.size a ≤ S1024x8192.size a := by decide

theorem xtile_value (g : (cc0_stg0_0 : Ref sig .tc).ty.Contents (Elt F)) (t : Fin 4) :
    shapeCast S1024x2048 ((Memref.whole cc0_stg0_0).view.readAt (Elt F)
        (Rect.unit (s := S1024x8192) ![0, t.val * 2048] S1024x2048.size (xinb t)).toLoadRect g) Gen.shapeCasts_S1024x2048_S1024x2048
      = Spec.xTile g t := by
  refine (shapeCast_self (s := S1024x2048) _ _).trans ?_
  funext i
  unfold Spec.xTile
  show g ((Rect.unit (s := S1024x8192) ![0, t.val * 2048] S1024x2048.size (xinb t)).emb i) = _
  refine congrArg g (funext fun a => Fin.ext ?_)
  match a with
  | ⟨0, _⟩ =>
    show 0 + 1 * (i 0).val = (i 0).val
    omega
  | ⟨1, _⟩ =>
    show t.val * 2048 + 1 * (i 1).val = t.val * 2048 + (i 1).val
    omega

theorem xtile_value0 (g : (cc0_stg0_0 : Ref sig .tc).ty.Contents (Elt F)) :
    shapeCast S1024x2048 ((Memref.whole cc0_stg0_0).view.readAt (Elt F)
        (Rect.unit (s := S1024x8192) ![0, 0] S1024x2048.size Gen.inb_S1024x8192_S1024x2048_0_0).toLoadRect g) Gen.shapeCasts_S1024x2048_S1024x2048
      = Spec.xTile g 0 := xtile_value g 0
theorem xtile_value1 (g : (cc0_stg0_0 : Ref sig .tc).ty.Contents (Elt F)) :
    shapeCast S1024x2048 ((Memref.whole cc0_stg0_0).view.readAt (Elt F)
        (Rect.unit (s := S1024x8192) ![0, 2048] S1024x2048.size Gen.inb_S1024x8192_S1024x2048_0_2048).toLoadRect g) Gen.shapeCasts_S1024x2048_S1024x2048
      = Spec.xTile g 1 := xtile_value g 1
theorem xtile_value2 (g : (cc0_stg0_0 : Ref sig .tc).ty.Contents (Elt F)) :
    shapeCast S1024x2048 ((Memref.whole cc0_stg0_0).view.readAt (Elt F)
        (Rect.unit (s := S1024x8192) ![0, 4096] S1024x2048.size Gen.inb_S1024x8192_S1024x2048_0_4096).toLoadRect g) Gen.shapeCasts_S1024x2048_S1024x2048
      = Spec.xTile g 2 := xtile_value g 2
theorem xtile_value3 (g : (cc0_stg0_0 : Ref sig .tc).ty.Contents (Elt F)) :
    shapeCast S1024x2048 ((Memref.whole cc0_stg0_0).view.readAt (Elt F)
        (Rect.unit (s := S1024x8192) ![0, 6144] S1024x2048.size Gen.inb_S1024x8192_S1024x2048_0_6144).toLoadRect g) Gen.shapeCasts_S1024x2048_S1024x2048
      = Spec.xTile g 3 := xtile_value g 3

theorem g0_eq (c : Dev nD) (g0 : (cc0_stg0_0 : Ref sig .tc).ty.Contents (Elt F)) (d0 : (cfg0.win 0).block.Idx → Elt F (cfg0.win 0).elt)
    (hg0 : View.read (Elt F) (Memref.whole cc0_stg0_0).view g0 = (dats m 0 c).before 0 Gen.t0_0 d0) : g0 = xOf m c := by
  have h : g0 = (dats m 0 c).before 0 Gen.t0_0 d0 := hg0
  rw [h]; unfold Dat.before; rw [if_pos (Gen.fetch0_0 Gen.t0_0)]; rfl

theorem blk_value (x : FVec F S1024x8192 .f32) (w : FVec F S8192x4096 .f32) (j : Fin 8)
    (a0 a1 a2 a3 : FVec F S1024x2048 .f32) (b0 b1 b2 b3 : FVec F S2048x512 .f32)
    (ha0 : a0 = Spec.xTile x 0) (ha1 : a1 = Spec.xTile x 1) (ha2 : a2 = Spec.xTile x 2) (ha3 : a3 = Spec.xTile x 3)
    (hb0 : b0 = Spec.wTile w 0 j) (hb1 : b1 = Spec.wTile w 1 j) (hb2 : b2 = Spec.wTile w 2 j) (hb3 : b3 = Spec.wTile w 3 j) :
    maximumf (addf (addf (addf (matmul dot_S1024x2048_S2048x512_S1024x512_1_0_0_1_n_n none a0 b0 (constant S1024x512 .f32 0x00000000#32))
        (matmul dot_S1024x2048_S2048x512_S1024x512_1_0_0_1_n_n none a1 b1 (constant S1024x512 .f32 0x00000000#32)))
        (matmul dot_S1024x2048_S2048x512_S1024x512_1_0_0_1_n_n none a2 b2 (constant S1024x512 .f32 0x00000000#32)))
        (matmul dot_S1024x2048_S2048x512_S1024x512_1_0_0_1_n_n none a3 b3 (constant S1024x512 .f32 0x00000000#32)))
      (broadcast S1024x512 (Scalar.ofBits .f32 0x00000000#32)) = Spec.yBlk x w j := by
  subst ha0 ha1 ha2 ha3 hb0 hb1 hb2 hb3
  rfl

theorem own_value (c : Dev nD) : Spec.yBlk (xOf m c) (wOf m c) c = ownV m c := rfl

omit [FloatOps F] in
theorem peer_as_mod (c : Dev nD) (q : Fin 7) :
    (⟨(c.val + (q.val + 1)) % 8, Nat.mod_lt _ (by decide)⟩ : Fin 8) = peer c q :=
  Fin.ext (by show (c.val + (q.val + 1)) % 8 = (c.val + q.val + 1) % 8; rw [Nat.add_assoc])

omit [FloatOps F] in
theorem self_as_mod (c : Dev nD) : (⟨(c.val + 0) % 8, Nat.mod_lt _ (by decide)⟩ : Fin 8) = c :=
  Fin.ext (by show (c.val + 0) % 8 = c.val; rw [Nat.add_zero]; exact Nat.mod_eq_of_lt c.isLt)

theorem acc_value (c : Dev nD) (r : Fin 8) (w : BitVec 32) (hw : w = BitVec.ofNat 32 r.val) (j : Fin 8)
    (hj : (⟨(c.val + r.val) % 8, Nat.mod_lt _ (by decide)⟩ : Fin 8) = j)
    (g0 : (cc0_stg0_0 : Ref sig .tc).ty.Contents (Elt F)) (hg : g0 = xOf m c)
    (inb1 : ∀ a, (k0_off1 c w) a + S2048x512.size a ≤ S8192x4096.size a) (inb2 : ∀ a, (k0_off2 c w) a + S2048x512.size a ≤ S8192x4096.size a)
    (inb3 : ∀ a, (k0_off3 c w) a + S2048x512.size a ≤ S8192x4096.size a) (inb4 : ∀ a, (k0_off4 c w) a + S2048x512.size a ≤ S8192x4096.size a)
    (fd1 : Buf (Elt F) ((wSlot 0).view.loc (c : Thread nD τ))) (fd2 : Buf (Elt F) ((wSlot 1).view.loc (c : Thread nD τ)))
    (fd3 : Buf (Elt F) ((wSlot 0).view.loc (c : Thread nD τ))) (fd4 : Buf (Elt F) ((wSlot 1).view.loc (c : Thread nD τ))) :
    maximumf (addf (addf (addf
        (matmul dot_S1024x2048_S2048x512_S1024x512_1_0_0_1_n_n none ((Memref.whole cc0_stg0_0).view.readAt (Elt F) (Rect.unit (s := S1024x8192) ![0, 0] S1024x2048.size Gen.inb_S1024x8192_S1024x2048_0_0).toLoadRect g0) (shapeCast S2048x512 (wLoaded c 0 (wLanded m c 0 (k0_off1 c w) inb1 fd1)) Gen.shapeCasts_S1x2048x512_S2048x512) (constant S1024x512 .f32 0x00000000#32))
        (matmul dot_S1024x2048_S2048x512_S1024x512_1_0_0_1_n_n none ((Memref.whole cc0_stg0_0).view.readAt (Elt F) (Rect.unit (s := S1024x8192) ![0, 2048] S1024x2048.size Gen.inb_S1024x8192_S1024x2048_0_2048).toLoadRect g0) (shapeCast S2048x512 (wLoaded c 1 (wLanded m c 1 (k0_off2 c w) inb2 fd2)) Gen.shapeCasts_S1x2048x512_S2048x512) (constant S1024x512 .f32 0x00000000#32)))
        (matmul dot_S1024x2048_S2048x512_S1024x512_1_0_0_1_n_n none ((Memref.whole cc0_stg0_0).view.readAt (Elt F) (Rect.unit (s := S1024x8192) ![0, 4096] S1024x2048.size Gen.inb_S1024x8192_S1024x2048_0_4096).toLoadRect g0) (shapeCast S2048x512 (wLoaded c 0 (wLanded m c 0 (k0_off3 c w) inb3 fd3)) Gen.shapeCasts_S1x2048x512_S2048x512) (constant S1024x512 .f32 0x00000000#32)))
        (matmul dot_S1024x2048_S2048x512_S1024x512_1_0_0_1_n_n none ((Memref.whole cc0_stg0_0).view.readAt (Elt F) (Rect.unit (s := S1024x8192) ![0, 6144] S1024x2048.size Gen.inb_S1024x8192_S1024x2048_0_6144).toLoadRect g0) (shapeCast S2048x512 (wLoaded c 1 (wLanded m c 1 (k0_off4 c w) inb4 fd4)) Gen.shapeCasts_S1x2048x512_S2048x512) (constant S1024x512 .f32 0x00000000#32)))
      (broadcast S1024x512 (Scalar.ofBits .f32 0x00000000#32)) = Spec.yBlk (xOf m c) (wOf m c) j := by
  subst hj
  refine (blk_value (x := g0) (wOf m c) _ _ _ _ _ _ _ _ _
    ((shapeCast_self _ _).symm.trans (xtile_value0 g0)) ((shapeCast_self _ _).symm.trans (xtile_value1 g0))
    ((shapeCast_self _ _).symm.trans (xtile_value2 g0)) ((shapeCast_self _ _).symm.trans (xtile_value3 g0))
    (wtile_value1 m c 0 r w hw inb1 fd1) (wtile_value2 m c 1 r w hw inb2 fd2)
    (wtile_value3 m c 0 r w hw inb3 fd3) (wtile_value4 m c 1 r w hw inb4 fd4)).trans ?_
  rw [hg]

end Cert.KernelIdeal.A2A

end
-- ==== Proof.Finish.lean ====
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.Tables
import proofs.«900798_g7700000000000799_dist_gemm_a2a_m8192_k8192_n4096_f32_relu_v7x_i8_1_alg».proof.Proof.Remote
import proofs.«900798_g7700000000000799_dist_gemm_a2a_m8192_k8192_n4096_f32_relu_v7x_i8_1_alg».proof.Proof.Slots
import proofs.«900798_g7700000000000799_dist_gemm_a2a_m8192_k8192_n4096_f32_relu_v7x_i8_1_alg».proof.Proof.SlotOps
import proofs.«900798_g7700000000000799_dist_gemm_a2a_m8192_k8192_n4096_f32_relu_v7x_i8_1_alg».proof.Proof.WTiles
import proofs.«900798_g7700000000000799_dist_gemm_a2a_m8192_k8192_n4096_f32_relu_v7x_i8_1_alg».proof.Proof.OutPath
import proofs.«900798_g7700000000000799_dist_gemm_a2a_m8192_k8192_n4096_f32_relu_v7x_i8_1_alg».proof.Proof.Closing

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem acc_whole (c : Dev nD) (f : Buf (Elt F) ((Memref.whole cc0_scratch1 : Memref sig .tc .vmem S1024x512 .f32).view.loc (c : Thread nD τ))) :
    (((Memref.whole cc0_scratch1 : Memref sig .tc .vmem S1024x512 .f32).view.loc (c : Thread nD τ) ↦[(Memref.whole cc0_scratch1 : Memref sig .tc .vmem S1024x512 .f32).view.set]{fullShare} f) : sProp 𝕄)
      = (((c : Thread nD τ).loc cc0_scratch1) ↦{fullShare} f) := by
  simp only [Memref.view_whole, View.set_whole]

theorem body_finish (K : Dev nD × Fin 15 → ℕ) (c : Dev nD)
    (fw0 fw1 : Buf (Elt F) ((c : Thread nD τ).loc cc0_scratch0))
    (facc : Buf (Elt F) ((Memref.whole cc0_scratch1 : Memref sig .tc .vmem S1024x512 .f32).view.loc (c : Thread nD τ)))
    (fy0 fy1 fy2 fy3 fy4 fy5 fy6 : Buf (Elt F) ((c : Thread nD τ).loc cc0_scratch2))
    (fr0 fr1 fr2 fr3 fr4 fr5 fr6 : Buf (Elt F) ((c : Thread nD τ).loc cc0_scratch3))
    (fs0 fs1 : Buf (Elt F) ((c : Thread nD τ).loc cc0_scratch4))
    (fc fo0 fo1 fo2 fo3 fo4 fo5 fo6 : Buf (Elt F) ((c : Thread nD τ).loc main_v1))
    (hown : (oBlk c).view.read (Elt F) fc = ownV m c)
    (h0 : (oBlk (src c 0)).view.read (Elt F) fo0 = extf .f32 (sentV m (src c 0) 0) Gen.bitsLt_bf16_f32)
    (h1 : (oBlk (src c 1)).view.read (Elt F) fo1 = extf .f32 (sentV m (src c 1) 1) Gen.bitsLt_bf16_f32)
    (h2 : (oBlk (src c 2)).view.read (Elt F) fo2 = extf .f32 (sentV m (src c 2) 2) Gen.bitsLt_bf16_f32)
    (h3 : (oBlk (src c 3)).view.read (Elt F) fo3 = extf .f32 (sentV m (src c 3) 3) Gen.bitsLt_bf16_f32)
    (h4 : (oBlk (src c 4)).view.read (Elt F) fo4 = extf .f32 (sentV m (src c 4) 4) Gen.bitsLt_bf16_f32)
    (h5 : (oBlk (src c 5)).view.read (Elt F) fo5 = extf .f32 (sentV m (src c 5) 5) Gen.bitsLt_bf16_f32)
    (h6 : (oBlk (src c 6)).view.read (Elt F) fo6 = extf .f32 (sentV m (src c 6) 6) Gen.bitsLt_bf16_f32) :
    ⊢ (iprop(cellInv ER (sched m) (K (c, kS 0)) (sendCell c 0)
        -∗ cellInv ER (sched m) (K (c, kS 1)) (sendCell c 1)
        -∗ cellInv ER (sched m) (K (c, kS 2)) (sendCell c 2)
        -∗ cellInv ER (sched m) (K (c, kS 3)) (sendCell c 3)
        -∗ cellInv ER (sched m) (K (c, kS 4)) (sendCell c 4)
        -∗ cellInv ER (sched m) (K (c, kS 5)) (sendCell c 5)
        -∗ cellInv ER (sched m) (K (c, kS 6)) (sendCell c 6)
        -∗ cellInv ER (sched m) (K (c, kR 0)) (recvCell c 0)
        -∗ cellInv ER (sched m) (K (c, kR 1)) (recvCell c 1)
        -∗ cellInv ER (sched m) (K (c, kR 2)) (recvCell c 2)
        -∗ cellInv ER (sched m) (K (c, kR 3)) (recvCell c 3)
        -∗ cellInv ER (sched m) (K (c, kR 4)) (recvCell c 4)
        -∗ cellInv ER (sched m) (K (c, kR 5)) (recvCell c 5)
        -∗ cellInv ER (sched m) (K (c, kR 6)) (recvCell c 6)
        -∗ atPos ER (sendCell c 0) 1 ∅ 0
        -∗ atPos ER (sendCell c 1) 1 ∅ 0
        -∗ atPos ER (sendCell c 2) 1 ∅ 0
        -∗ atPos ER (sendCell c 3) 1 ∅ 0
        -∗ atPos ER (sendCell c 4) 1 ∅ 0
        -∗ atPos ER (sendCell c 5) 1 ∅ 0
        -∗ atPos ER (sendCell c 6) 1 ∅ 0
        -∗ atPos ER (recvCell c 0) 1 ∅ 0
        -∗ atPos ER (recvCell c 1) 1 ∅ 0
        -∗ atPos ER (recvCell c 2) 1 ∅ 0
        -∗ atPos ER (recvCell c 3) 1 ∅ 0
        -∗ atPos ER (recvCell c 4) 1 ∅ 0
        -∗ atPos ER (recvCell c 5) 1 ∅ 0
        -∗ atPos ER (recvCell c 6) 1 ∅ 0
        -∗ semVal ((c : Thread nD τ), SemLoc.dma (1 : DmaSem sig)) 0
        -∗ semVal ((c : Thread nD τ), SemLoc.dma (2 : DmaSem sig)) 0
        -∗ semVal ((c : Thread nD τ), SemLoc.dma (17 : DmaSem sig)) 0
        -∗ semVal ((c : Thread nD τ), SemLoc.dma (18 : DmaSem sig)) 0
        -∗ aPts m c false
        -∗ aPts m c true
        -∗ wPts c 0 fw0
        -∗ wPts c 1 fw1
        -∗ ((Memref.whole cc0_scratch1 : Memref sig .tc .vmem S1024x512 .f32).view.loc (c : Thread nD τ) ↦[(Memref.whole cc0_scratch1 : Memref sig .tc .vmem S1024x512 .f32).view.set]{fullShare} facc)
        -∗ yPts c 0 fy0
        -∗ yPts c 1 fy1
        -∗ yPts c 2 fy2
        -∗ yPts c 3 fy3
        -∗ yPts c 4 fy4
        -∗ yPts c 5 fy5
        -∗ yPts c 6 fy6
        -∗ rPts c 0 fr0
        -∗ rPts c 1 fr1
        -∗ rPts c 2 fr2
        -∗ rPts c 3 fr3
        -∗ rPts c 4 fr4
        -∗ rPts c 5 fr5
        -∗ rPts c 6 fr6
        -∗ sPts c 0 fs0
        -∗ sPts c 1 fs1
        -∗ oPts c c fc
        -∗ oPts c (src c 0) fo0
        -∗ oPts c (src c 1) fo1
        -∗ oPts c (src c 2) fo2
        -∗ oPts c (src c 3) fo3
        -∗ oPts c (src c 4) fo4
        -∗ oPts c (src c 5) fo5
        -∗ oPts c (src c 6) fo6
        -∗ |={Set.univ}=> Φ₁ m c) : sProp 𝕄) := by
  iintro #IS0 #IS1 #IS2 #IS3 #IS4 #IS5 #IS6 #IR0 #IR1 #IR2 #IR3 #IR4 #IR5 #IR6 AS0 AS1 AS2 AS3 AS4 AS5 AS6 AR0 AR1 AR2 AR3 AR4 AR5 AR6 V1 V2 V17 V18 Af At W0 W1 Acc Y0 Y1 Y2 Y3 Y4 Y5 Y6 R0 R1 R2 R3 R4 R5 R6 S0 S1 Oc O0 O1 O2 O3 O4 O5 O6
  imod (close_cell m _ _) $$ IS0 AS0 with ZS0
  imod (close_cell m _ _) $$ IS1 AS1 with ZS1
  imod (close_cell m _ _) $$ IS2 AS2 with ZS2
  imod (close_cell m _ _) $$ IS3 AS3 with ZS3
  imod (close_cell m _ _) $$ IS4 AS4 with ZS4
  imod (close_cell m _ _) $$ IS5 AS5 with ZS5
  imod (close_cell m _ _) $$ IS6 AS6 with ZS6
  imod (close_cell m _ _) $$ IR0 AR0 with ZR0
  imod (close_cell m _ _) $$ IR1 AR1 with ZR1
  imod (close_cell m _ _) $$ IR2 AR2 with ZR2
  imod (close_cell m _ _) $$ IR3 AR3 with ZR3
  imod (close_cell m _ _) $$ IR4 AR4 with ZR4
  imod (close_cell m _ _) $$ IR5 AR5 with ZR5
  imod (close_cell m _ _) $$ IR6 AR6 with ZR6
  ihave Hsem := (ownSems0_intro (F := F) c) $$ [V1 V2 V17 V18 ZS0 ZS1 ZS2 ZS3 ZS4 ZS5 ZS6 ZR0 ZR1 ZR2 ZR3 ZR4 ZR5 ZR6]
  · iframe
  ihave Ha := (arg1_split m c).2 $$ [Af At]
  · iframe
  ihave Hw := (wbuf_join (F := F) c fw0 fw1) $$ [W0 W1]
  · iframe
  ihave Hacc := (Entails.of_eq (acc_whole (F := F) c facc)) $$ Acc
  ihave Hy := (ybuf_join (F := F) c fy0 fy1 fy2 fy3 fy4 fy5 fy6) $$ [Y0 Y1 Y2 Y3 Y4 Y5 Y6]
  · iframe
  ihave Hr := (rbuf_join (F := F) c fr0 fr1 fr2 fr3 fr4 fr5 fr6) $$ [R0 R1 R2 R3 R4 R5 R6]
  · iframe
  ihave Hs := (sbuf_join (F := F) c fs0 fs1) $$ [S0 S1]
  · iframe
  ihave Ho := (final_out m c fc fo0 fo1 fo2 fo3 fo4 fo5 fo6 hown h0 h1 h2 h3 h4 h5 h6) $$ [Oc O0 O1 O2 O3 O4 O5 O6]
  · iframe
  imodintro
  unfold Φ₁
  rw [scopedRest0_eq]
  iframe Ha Ho Hsem Hw Hy Hr Hs
  iexists facc; iexact Hacc

end Cert.KernelIdeal.A2A

end
-- ==== Proof.Body.lean ====
import proofs.«900798_g7700000000000799_dist_gemm_a2a_m8192_k8192_n4096_f32_relu_v7x_i8_1_alg».proof.Proof.Proto
import proofs.«900798_g7700000000000799_dist_gemm_a2a_m8192_k8192_n4096_f32_relu_v7x_i8_1_alg».proof.Proof.Tables
import proofs.«900798_g7700000000000799_dist_gemm_a2a_m8192_k8192_n4096_f32_relu_v7x_i8_1_alg».proof.Proof.Levels
import proofs.«900798_g7700000000000799_dist_gemm_a2a_m8192_k8192_n4096_f32_relu_v7x_i8_1_alg».proof.Proof.Slots
import proofs.«900798_g7700000000000799_dist_gemm_a2a_m8192_k8192_n4096_f32_relu_v7x_i8_1_alg».proof.Proof.Remote
import proofs.«900798_g7700000000000799_dist_gemm_a2a_m8192_k8192_n4096_f32_relu_v7x_i8_1_alg».proof.Proof.SlotOps
import proofs.«900798_g7700000000000799_dist_gemm_a2a_m8192_k8192_n4096_f32_relu_v7x_i8_1_alg».proof.Proof.WTiles
import proofs.«900798_g7700000000000799_dist_gemm_a2a_m8192_k8192_n4096_f32_relu_v7x_i8_1_alg».proof.Proof.OutPath
import proofs.«900798_g7700000000000799_dist_gemm_a2a_m8192_k8192_n4096_f32_relu_v7x_i8_1_alg».proof.Proof.Closing
import proofs.«900798_g7700000000000799_dist_gemm_a2a_m8192_k8192_n4096_f32_relu_v7x_i8_1_alg».proof.Proof.Vals
import proofs.«900798_g7700000000000799_dist_gemm_a2a_m8192_k8192_n4096_f32_relu_v7x_i8_1_alg».proof.Proof.Finish

set_option maxRecDepth 16384

noncomputable section

namespace Cert.KernelIdeal.A2A

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem pt_whole (c : Dev nD) (b : Ref sig .tc) (f : Buf (Elt F) ((c : Thread nD τ).loc b)) :
    ((((c : Thread nD τ).loc b) ↦{fullShare} f : sProp 𝕄))
      = ((Memref.whole b).view.loc (c : Thread nD τ) ↦[(Memref.whole b).view.set]{fullShare} f) := by
  rw [View.set_whole]

theorem prog_ret_bind {E : Type → Type} {α β : Type} (a : α) (k : α → Prog E β) : (Prog.ret a).bind k = k a := rfl

theorem sent_fact (c : Dev nD) (q : Fin 7) (f : Buf (Elt F) ((ySlot q).view.loc (c : Thread nD τ))) (pay : FVec F S1x1024x512 .bf16)
    (h : ∃ v : FVec F S1024x512 .f32, pay = shapeCast S1x1024x512 (truncf .bf16 v Gen.bitsLt_bf16_f32) Gen.shapeCasts_S1024x512_S1x1024x512 ∧ v = yOf m c q) :
    (ySlot q).view.read (Elt F) (stored c q f pay) = sentV m c q := by
  obtain ⟨v, rfl, rfl⟩ := h
  rw [read_stored]; rfl

theorem pay_recv_all (c : Dev nD) (q : Fin 7) :
    bigSep ((sched (F := F) m).duties (recvCell c q) 0) (fun d => (sched (F := F) m).payload (recvCell c q) 0 d) = recvPay m c q := by
  rw [duties_recv, bigSep_singleton, payload_recv]
theorem pay_send_all (c : Dev nD) (q : Fin 7) :
    bigSep ((sched (F := F) m).duties (sendCell c q) 0) (fun d => (sched (F := F) m).payload (sendCell c q) 0 d) = sendPay m c q := by
  rw [duties_send, bigSep_singleton, payload_send]

theorem wp_sig (K : Dev nD × Fin 15 → ℕ) (c : Dev nD) (p q : Fin 7) (hq : rev p = q) (f : Buf (Elt F) ((rSlot q).view.loc (c : Thread nD τ)))
    (O : CellTallies nD τ sig Unit) (W : Waits sig Unit) {α : Type} {k : PUnit → Prog (TpuEff nD τ sig (Elt F) Λ₀ .tc) α} {Q : α → sProp 𝕄} :
    ⊢ (iprop(cellInv ER (sched m) (K (peer c p, 0)) (barCell (peer c p)) -∗ owes (c : Thread nD τ) (O + tB c p) W
        -∗ dutyTok ER (barCell (peer c p)) 0 (rev p) -∗ rPts c q f
        -∗ reached ER (recvCell c q) 0 -∗ reached ER (barCell (peer c p)) 0
        -∗ (owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (peer c p : Thread nD τ) barS 1) k) Q) : sProp 𝕄) := by
  subst hq
  iintro #HI HO Ht Hr #Hrc #Hrb
  iapply (Rounds.wp_signal 𝒱₀ ER (sched m) (c : Thread nD τ) none (dst := (peer c p : Thread nD τ)) (κ := K (peer c p, 0)) (d := rev p)
      (by rw [duties_bar]; exact Finset.mem_univ _) (amount_bar m (peer c p) (rev p)) () O rfl) $$ [HO Ht Hr]
  isplitr; · iexact HI
  isplitl [HO]; · iexact HO
  isplitl [Ht]; · iexact Ht
  isplitl [Hr]
  · rw [payload_bar_peer]
    isplitl [Hr]; · iexists f; iexact Hr
    iexact Hrc
  · iexact Hrb

local macro "go" : tactic => `(tactic| first | sl_exec_parts (disch := first | decide | (repeat (first | exact OnRecv.zero | exact OnRecv.tR _ _ | apply OnRecv.add))) | skip)

local macro "go'" : tactic => `(tactic| (rw [prog_ret_bind]; sl_exec_parts (disch := first | decide | (repeat (first | exact OnRecv.zero | exact OnRecv.tR _ _ | apply OnRecv.add)))))

local macro "open_vals" : tactic => `(tactic| (
  sl_unfold_run_names
  simp only [View.readCov_cons_toLoadRect, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, shapeCast_self]))

set_option hygiene false in
local macro "tile_block " R:num ", " R':num ", " H:ident : tactic => `(tactic| (
  iapply (wp_wtile_start m c 1 2 rfl true (k0_off2 c (BitVec.ofNat 32 $R)) (k0_off2_inb c $R) _) $$ Hwv1 HaT Hs2; iintro Hfl1; go
  iapply (wp_wtile_wait m c 0 1 rfl false (k0_off1 c (BitVec.ofNat 32 $R)) (k0_off1_inb c $R) _ _ $H _) $$ Hfl0 HO Hlev; iintro ⟨Hwv0, HaF, Hs1, HO⟩; go
  iapply (wp_load_wslot c 0 _) $$ Hwv0; iintro Hwv0; go
  iapply (wp_wtile_start m c 0 1 rfl false (k0_off3 c (BitVec.ofNat 32 $R)) (k0_off3_inb c $R) _) $$ Hwv0 HaF Hs1; iintro Hfl0; go
  iapply (wp_wtile_wait m c 1 2 rfl true (k0_off2 c (BitVec.ofNat 32 $R)) (k0_off2_inb c $R) _ _ $H _) $$ Hfl1 HO Hlev; iintro ⟨Hwv1, HaT, Hs2, HO⟩; go
  iapply (wp_load_wslot c 1 _) $$ Hwv1; iintro Hwv1; go
  iapply (wp_wtile_start m c 1 2 rfl true (k0_off4 c (BitVec.ofNat 32 $R)) (k0_off4_inb c $R) _) $$ Hwv1 HaT Hs2; iintro Hfl1; go
  iapply (wp_wtile_wait m c 0 1 rfl false (k0_off3 c (BitVec.ofNat 32 $R)) (k0_off3_inb c $R) _ _ $H _) $$ Hfl0 HO Hlev; iintro ⟨Hwv0, HaF, Hs1, HO⟩; go
  iapply (wp_load_wslot c 0 _) $$ Hwv0; iintro Hwv0; go
  iapply (wp_wtile_start m c 0 1 rfl false (k0_off1 c (BitVec.ofNat 32 $R')) (k0_off1_inb c $R') _) $$ Hwv0 HaF Hs1; iintro Hfl0; go
  iapply (wp_wtile_wait m c 1 2 rfl true (k0_off4 c (BitVec.ofNat 32 $R)) (k0_off4_inb c $R) _ _ $H _) $$ Hfl1 HO Hlev; iintro ⟨Hwv1, HaT, Hs2, HO⟩; go
  iapply (wp_load_wslot c 1 _) $$ Hwv1; iintro Hwv1; go))

set_option hygiene false in
local macro "tile_block_last " H:ident : tactic => `(tactic| (
  iapply (wp_wtile_start m c 1 2 rfl true (k0_off2 c (BitVec.ofNat 32 0)) (k0_off2_inb c 0) _) $$ Hwv1 HaT Hs2; iintro Hfl1; go
  iapply (wp_wtile_wait m c 0 1 rfl false (k0_off1 c (BitVec.ofNat 32 0)) (k0_off1_inb c 0) _ _ $H _) $$ Hfl0 HO Hlev; iintro ⟨Hwv0, HaF, Hs1, HO⟩; go
  iapply (wp_load_wslot c 0 _) $$ Hwv0; iintro Hwv0; go
  iapply (wp_wtile_start m c 0 1 rfl false (k0_off3 c (BitVec.ofNat 32 0)) (k0_off3_inb c 0) _) $$ Hwv0 HaF Hs1; iintro Hfl0; go
  iapply (wp_wtile_wait m c 1 2 rfl true (k0_off2 c (BitVec.ofNat 32 0)) (k0_off2_inb c 0) _ _ $H _) $$ Hfl1 HO Hlev; iintro ⟨Hwv1, HaT, Hs2, HO⟩; go
  iapply (wp_load_wslot c 1 _) $$ Hwv1; iintro Hwv1; go
  iapply (wp_wtile_start m c 1 2 rfl true (k0_off4 c (BitVec.ofNat 32 0)) (k0_off4_inb c 0) _) $$ Hwv1 HaT Hs2; iintro Hfl1; go
  iapply (wp_wtile_wait m c 0 1 rfl false (k0_off3 c (BitVec.ofNat 32 0)) (k0_off3_inb c 0) _ _ $H _) $$ Hfl0 HO Hlev; iintro ⟨Hwv0, HaF, Hs1, HO⟩; go
  iapply (wp_load_wslot c 0 _) $$ Hwv0; iintro Hwv0; go
  iapply (wp_wtile_wait m c 1 2 rfl true (k0_off4 c (BitVec.ofNat 32 0)) (k0_off4_inb c 0) _ _ $H _) $$ Hfl1 HO Hlev; iintro ⟨Hwv1, HaT, Hs2, HO⟩; go
  iapply (wp_load_wslot c 1 _) $$ Hwv1; iintro Hwv1; go))

attribute [local sl_canon] dev1_eq dev2_eq dev3_eq dev4_eq dev5_eq dev6_eq dev7_eq dev8_eq dev9_eq dev10_eq dev11_eq dev12_eq dev13_eq dev14_eq

set_option maxHeartbeats 16000000 in
set_option sl_exec.dmaWindow true in
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc
        ∗ ∃ d, owns (c : Thread nD τ) (Memref.whole cc0_stg0_0) fullShare ((dats m 0 c).before 0 t0_0 d))
     ⊢ wp frame (wpE (defs₀ (F := F)) 𝒱₀ c none) Set.univ (bodyAt0 (F := F) t0_0)
        (fun _ => iprop(Φ₁ m c ∗ (dats m 0 c).owesAt () t0_0.succ
          ∗ owns (c : Thread nD τ) (Memref.whole cc0_stg0_0) fullShare (xOf m c)))
  unfold Φ₀ start ghost invs posns marks payToks locSems arrs
  simp only [bigSep_fin7]
  rw [scopedRest0_eq]
  unfold owns
  iintro ⟨⟨⟨⟨%K, ⟨#HIb, ⟨#HIs0, #HIs1, #HIs2, #HIs3, #HIs4, #HIs5, #HIs6⟩, ⟨#HIr0, #HIr1, #HIr2, #HIr3, #HIr4, #HIr5, #HIr6⟩, ⟨#HIpb0, #HIpb1, #HIpb2, #HIpb3, #HIpb4, #HIpb5, #HIpb6⟩, #HIpr0, #HIpr1, #HIpr2, #HIpr3, #HIpr4, #HIpr5, #HIpr6⟩,
      ⟨HaB, ⟨HaS0, HaS1, HaS2, HaS3, HaS4, HaS5, HaS6⟩, HaR0, HaR1, HaR2, HaR3, HaR4, HaR5, HaR6⟩,
      ⟨⟨#HrPB0, #HrPB1, #HrPB2, #HrPB3, #HrPB4, #HrPB5, #HrPB6⟩, ⟨#HrPR0, #HrPR1, #HrPR2, #HrPR3, #HrPR4, #HrPR5, #HrPR6⟩, ⟨#HrS0, #HrS1, #HrS2, #HrS3, #HrS4, #HrS5, #HrS6⟩, #HrR0, #HrR1, #HrR2, #HrR3, #HrR4, #HrR5, #HrR6⟩,
      ⟨HtB0, HtB1, HtB2, HtB3, HtB4, HtB5, HtB6⟩, ⟨HtR0, HtR1, HtR2, HtR3, HtR4, HtR5, HtR6⟩, HtS0, HtS1, HtS2, HtS3, HtS4, HtS5, HtS6⟩,
      HcB, ⟨HcR0, HcR1, HcR2, HcR3, HcR4, HcR5, HcR6⟩, #Hlev, ⟨Hs1, Hs2, Hs17, Hs18⟩, Hw, Hout⟩,
      ⟨%f0, Hb0⟩, ⟨%f1, Hb1⟩, ⟨%f2, Hb2⟩, ⟨%f3, Hb3⟩, ⟨%f4, Hb4⟩⟩, Ho, ⟨%d0, %g0, %hg0, Hx⟩⟩
  unfold Dat.owesAt Pipeline.owesWithin
  icases Ho with ⟨%W, %hW, HO⟩
  rw [show (dats m 0 c).owed t0_0.castSucc = O₀ c from rfl]
  unfold O₀ OR
  ihave Hr := (rbuf_split c f3).1 $$ Hb3
  icases Hr with ⟨Hr0, Hr1, Hr2, Hr3, Hr4, Hr5, Hr6⟩
  ihave Hy := (ybuf_split c f2).1 $$ Hb2
  icases Hy with ⟨Hy0, Hy1, Hy2, Hy3, Hy4, Hy5, Hy6⟩
  sl_exec_parts
  iapply (wp_sig m K c 0 6 rfl f3 _ W) $$ HIpb0 HO HtB0 Hr6 HrR6 HrPB0; iintro HO; sl_exec_parts
  iapply (wp_sig m K c 1 5 rfl f3 _ W) $$ HIpb1 HO HtB1 Hr5 HrR5 HrPB1; iintro HO; sl_exec_parts
  iapply (wp_sig m K c 2 4 rfl f3 _ W) $$ HIpb2 HO HtB2 Hr4 HrR4 HrPB2; iintro HO; sl_exec_parts
  iapply (wp_sig m K c 3 3 rfl f3 _ W) $$ HIpb3 HO HtB3 Hr3 HrR3 HrPB3; iintro HO; sl_exec_parts
  iapply (wp_sig m K c 4 2 rfl f3 _ W) $$ HIpb4 HO HtB4 Hr2 HrR2 HrPB4; iintro HO; sl_exec_parts
  iapply (wp_sig m K c 5 1 rfl f3 _ W) $$ HIpb5 HO HtB5 Hr1 HrR1 HrPB5; iintro HO; sl_exec_parts
  iapply (wp_sig m K c 6 0 rfl f3 _ W) $$ HIpb6 HO HtB6 Hr0 HrR0 HrPB6; iintro HO; sl_exec_parts
  have hOR : OnRecv (tR c 6 + tR c 5 + tR c 4 + tR c 3 + tR c 2 + tR c 1 + tR c 0) :=
    ((((((OnRecv.tR c 6).add (OnRecv.tR c 5)).add (OnRecv.tR c 4)).add (OnRecv.tR c 3)).add (OnRecv.tR c 2)).add (OnRecv.tR c 1)).add (OnRecv.tR c 0)
  iapply (Rounds.wp_wait_rest_token 𝒱₀ ER (sched m) (c : Thread nD τ) none (κ := K (c, 0))
      (wpE_semWait_eq 𝒱₀ (c : Thread nD τ) none Set.univ) (Set.mem_univ _) () (O := _) (W := W) (R := 0) (m := 0) (T := ∅)
      (by rw [expect_bar]; decide)) $$ [HcB HO HaB]
  · isplitr; · iexact HIb
    isplitl [HcB]; · iexact HcB
    isplitl [HO]; · iexact HO
    isplitr; · iapply (mayWait_low c (.reg barS) (by dsimp only [lv]; rw [if_pos rfl]; decide) hOR); iexact Hlev
    iexact HaB
  iintro ⟨HO, HaB, -, Hpay⟩
  ihave Hp := (Entails.of_eq (rest_bar m c)) $$ Hpay
  unfold barPay
  icases Hp with ⟨⟨⟨%g0', Hp0⟩, #Hq0⟩, ⟨⟨%g1', Hp1⟩, #Hq1⟩, ⟨⟨%g2', Hp2⟩, #Hq2⟩, ⟨⟨%g3', Hp3⟩, #Hq3⟩, ⟨⟨%g4', Hp4⟩, #Hq4⟩, ⟨⟨%g5', Hp5⟩, #Hq5⟩, ⟨⟨%g6', Hp6⟩, #Hq6⟩⟩
  ihave Hb1 := (Entails.of_eq (pt_whole c cc0_scratch1 _)) $$ Hb1
  ihave Hwv := (wbuf_split c f0).1 $$ Hb0
  icases Hwv with ⟨Hwv0, Hwv1⟩
  ihave Ha := (arg1_split m c).1 $$ Hw
  icases Ha with ⟨HaF, HaT⟩
  ihave Hst := (sbuf_split c f4).1 $$ Hb4
  icases Hst with ⟨Hst0, Hst1⟩
  ihave Hob := (obuf_split_perm c _).1 $$ Hout
  icases Hob with ⟨Hoc, Ho0, Ho1, Ho2, Ho3, Ho4, Ho5, Ho6⟩
  have hOR6 : OnRecv (tR c 6 + tR c 5 + tR c 4 + tR c 3 + tR c 2 + tR c 1) :=
    (((((OnRecv.tR c 6).add (OnRecv.tR c 5)).add (OnRecv.tR c 4)).add (OnRecv.tR c 3)).add (OnRecv.tR c 2)).add (OnRecv.tR c 1)
  have hOR5 : OnRecv (tR c 6 + tR c 5 + tR c 4 + tR c 3 + tR c 2) :=
    ((((OnRecv.tR c 6).add (OnRecv.tR c 5)).add (OnRecv.tR c 4)).add (OnRecv.tR c 3)).add (OnRecv.tR c 2)
  have hOR4 : OnRecv (tR c 6 + tR c 5 + tR c 4 + tR c 3) := (((OnRecv.tR c 6).add (OnRecv.tR c 5)).add (OnRecv.tR c 4)).add (OnRecv.tR c 3)
  have hOR3 : OnRecv (tR c 6 + tR c 5 + tR c 4) := ((OnRecv.tR c 6).add (OnRecv.tR c 5)).add (OnRecv.tR c 4)
  have hOR2 : OnRecv (tR c 6 + tR c 5) := (OnRecv.tR c 6).add (OnRecv.tR c 5)
  have hOR1 : OnRecv (tR c 6) := OnRecv.tR c 6
  have hOR0 : OnRecv (0 : CellTallies nD τ sig Unit) := OnRecv.zero
  go
  iapply (wp_wtile_start m c 0 1 rfl false (k0_off1 c (BitVec.ofNat 32 1)) (k0_off1_inb c 1) _) $$ Hwv0 HaF Hs1; iintro Hfl0; go
  tile_block 1, 2, hOR
  iapply (wp_load_yslot c 0 _) $$ Hy0; iintro Hy0
  iapply (wp_store_yslot c 0 _ _) $$ Hy0; iintro Hy0; go'
  iapply (wp_send_slot' m K c ⟨k0_dev8 c, k0_dev8_lt c⟩ 0 (dev8_eq c) _ (sent_fact m c 0 _ _ ?_) _ _ _) $$ HIs0 HIpr0 Hy0 Hp0 HO HtS0 HrS0 HtR0 HrPR0
  · refine ⟨_, rfl, ?_⟩
    open_vals
    exact acc_value m c 1 (BitVec.ofNat 32 1) rfl (peer c 0) (peer_as_mod c 0) g0 (g0_eq m c g0 d0 hg0) _ _ _ _ _ _ _ _
  iintro ⟨HcS0, HO⟩; go
  tile_block 2, 3, hOR6
  iapply (wp_load_yslot c 1 _) $$ Hy1; iintro Hy1
  iapply (wp_store_yslot c 1 _ _) $$ Hy1; iintro Hy1; go'
  iapply (wp_send_slot' m K c ⟨k0_dev9 c, k0_dev9_lt c⟩ 1 (dev9_eq c) _ (sent_fact m c 1 _ _ ?_) _ _ _) $$ HIs1 HIpr1 Hy1 Hp1 HO HtS1 HrS1 HtR1 HrPR1
  · refine ⟨_, rfl, ?_⟩
    open_vals
    exact acc_value m c 2 (BitVec.ofNat 32 2) rfl (peer c 1) (peer_as_mod c 1) g0 (g0_eq m c g0 d0 hg0) _ _ _ _ _ _ _ _
  iintro ⟨HcS1, HO⟩; go
  tile_block 3, 4, hOR5
  iapply (wp_load_yslot c 2 _) $$ Hy2; iintro Hy2
  iapply (wp_store_yslot c 2 _ _) $$ Hy2; iintro Hy2; go'
  iapply (wp_send_slot' m K c ⟨k0_dev10 c, k0_dev10_lt c⟩ 2 (dev10_eq c) _ (sent_fact m c 2 _ _ ?_) _ _ _) $$ HIs2 HIpr2 Hy2 Hp2 HO HtS2 HrS2 HtR2 HrPR2
  · refine ⟨_, rfl, ?_⟩
    open_vals
    exact acc_value m c 3 (BitVec.ofNat 32 3) rfl (peer c 2) (peer_as_mod c 2) g0 (g0_eq m c g0 d0 hg0) _ _ _ _ _ _ _ _
  iintro ⟨HcS2, HO⟩; go
  tile_block 4, 5, hOR4
  iapply (wp_load_yslot c 3 _) $$ Hy3; iintro Hy3
  iapply (wp_store_yslot c 3 _ _) $$ Hy3; iintro Hy3; go'
  iapply (wp_send_slot' m K c ⟨k0_dev11 c, k0_dev11_lt c⟩ 3 (dev11_eq c) _ (sent_fact m c 3 _ _ ?_) _ _ _) $$ HIs3 HIpr3 Hy3 Hp3 HO HtS3 HrS3 HtR3 HrPR3
  · refine ⟨_, rfl, ?_⟩
    open_vals
    exact acc_value m c 4 (BitVec.ofNat 32 4) rfl (peer c 3) (peer_as_mod c 3) g0 (g0_eq m c g0 d0 hg0) _ _ _ _ _ _ _ _
  iintro ⟨HcS3, HO⟩; go
  tile_block 5, 6, hOR3
  iapply (wp_load_yslot c 4 _) $$ Hy4; iintro Hy4
  iapply (wp_store_yslot c 4 _ _) $$ Hy4; iintro Hy4; go'
  iapply (wp_send_slot' m K c ⟨k0_dev12 c, k0_dev12_lt c⟩ 4 (dev12_eq c) _ (sent_fact m c 4 _ _ ?_) _ _ _) $$ HIs4 HIpr4 Hy4 Hp4 HO HtS4 HrS4 HtR4 HrPR4
  · refine ⟨_, rfl, ?_⟩
    open_vals
    exact acc_value m c 5 (BitVec.ofNat 32 5) rfl (peer c 4) (peer_as_mod c 4) g0 (g0_eq m c g0 d0 hg0) _ _ _ _ _ _ _ _
  iintro ⟨HcS4, HO⟩; go
  tile_block 6, 7, hOR2
  iapply (wp_load_yslot c 5 _) $$ Hy5; iintro Hy5
  iapply (wp_store_yslot c 5 _ _) $$ Hy5; iintro Hy5; go'
  iapply (wp_send_slot' m K c ⟨k0_dev13 c, k0_dev13_lt c⟩ 5 (dev13_eq c) _ (sent_fact m c 5 _ _ ?_) _ _ _) $$ HIs5 HIpr5 Hy5 Hp5 HO HtS5 HrS5 HtR5 HrPR5
  · refine ⟨_, rfl, ?_⟩
    open_vals
    exact acc_value m c 6 (BitVec.ofNat 32 6) rfl (peer c 5) (peer_as_mod c 5) g0 (g0_eq m c g0 d0 hg0) _ _ _ _ _ _ _ _
  iintro ⟨HcS5, HO⟩; go
  tile_block 7, 0, hOR1
  rw [show tR c 6 = 0 + tR c 6 from (zero_add _).symm]
  iapply (wp_load_yslot c 6 _) $$ Hy6; iintro Hy6
  iapply (wp_store_yslot c 6 _ _) $$ Hy6; iintro Hy6; go'
  iapply (wp_send_slot' m K c ⟨k0_dev14 c, k0_dev14_lt c⟩ 6 (dev14_eq c) _ (sent_fact m c 6 _ _ ?_) _ _ _) $$ HIs6 HIpr6 Hy6 Hp6 HO HtS6 HrS6 HtR6 HrPR6
  · refine ⟨_, rfl, ?_⟩
    open_vals
    exact acc_value m c 7 (BitVec.ofNat 32 7) rfl (peer c 6) (peer_as_mod c 6) g0 (g0_eq m c g0 d0 hg0) _ _ _ _ _ _ _ _
  iintro ⟨HcS6, HO⟩; go
  tile_block_last hOR0

  iapply (wp_load_sslot c 0 _) $$ Hst0; iintro Hst0
  iapply (wp_store_sslot c 0 _ _) $$ Hst0; iintro Hst0; go'
  iapply (wp_out_start c 0 c _ (oBlk_own c) 17 rfl _ _) $$ Hst0 Hoc Hs17; iintro Hfo0; go

  ihave Hpay := (Entails.of_eq (pay_recv_all m c 0)) $$ HaR0_pay1
  unfold recvPay; icases Hpay with ⟨%gr0, Hr0, %hgr0⟩
  iapply (wp_load_rslot c 0 _) $$ Hr0; iintro Hr0; go
  iapply (wp_load_sslot c 1 _) $$ Hst1; iintro Hst1
  iapply (wp_store_sslot c 1 _ _) $$ Hst1; iintro Hst1; go'
  iapply (wp_out_start c 1 (src c 0) _ (oBlk_from c 0) 18 rfl _ _) $$ Hst1 Ho0 Hs18; iintro Hfo1; go

  iapply (wp_out_wait c 0 c _ (oBlk_own c) 17 rfl _ _ _ hOR0 _) $$ Hfo0 HO Hlev; iintro ⟨Hst0, Hoc, Hs17, HO⟩; go
  ihave Hpay := (Entails.of_eq (pay_recv_all m c 1)) $$ HaR1_pay1
  unfold recvPay; icases Hpay with ⟨%gr1, Hr1, %hgr1⟩
  iapply (wp_load_rslot c 1 _) $$ Hr1; iintro Hr1; go
  iapply (wp_load_sslot c 0 _) $$ Hst0; iintro Hst0
  iapply (wp_store_sslot c 0 _ _) $$ Hst0; iintro Hst0; go'
  iapply (wp_out_start c 0 (src c 1) _ (oBlk_from c 1) 17 rfl _ _) $$ Hst0 Ho1 Hs17; iintro Hfo0; go

  iapply (wp_out_wait c 1 (src c 0) _ (oBlk_from c 0) 18 rfl _ _ _ hOR0 _) $$ Hfo1 HO Hlev; iintro ⟨Hst1, Ho0, Hs18, HO⟩; go
  ihave Hpay := (Entails.of_eq (pay_recv_all m c 2)) $$ HaR2_pay1
  unfold recvPay; icases Hpay with ⟨%gr2, Hr2, %hgr2⟩
  iapply (wp_load_rslot c 2 _) $$ Hr2; iintro Hr2; go
  iapply (wp_load_sslot c 1 _) $$ Hst1; iintro Hst1
  iapply (wp_store_sslot c 1 _ _) $$ Hst1; iintro Hst1; go'
  iapply (wp_out_start c 1 (src c 2) _ (oBlk_from c 2) 18 rfl _ _) $$ Hst1 Ho2 Hs18; iintro Hfo1; go

  iapply (wp_out_wait c 0 (src c 1) _ (oBlk_from c 1) 17 rfl _ _ _ hOR0 _) $$ Hfo0 HO Hlev; iintro ⟨Hst0, Ho1, Hs17, HO⟩; go
  ihave Hpay := (Entails.of_eq (pay_recv_all m c 3)) $$ HaR3_pay1
  unfold recvPay; icases Hpay with ⟨%gr3, Hr3, %hgr3⟩
  iapply (wp_load_rslot c 3 _) $$ Hr3; iintro Hr3; go
  iapply (wp_load_sslot c 0 _) $$ Hst0; iintro Hst0
  iapply (wp_store_sslot c 0 _ _) $$ Hst0; iintro Hst0; go'
  iapply (wp_out_start c 0 (src c 3) _ (oBlk_from c 3) 17 rfl _ _) $$ Hst0 Ho3 Hs17; iintro Hfo0; go

  iapply (wp_out_wait c 1 (src c 2) _ (oBlk_from c 2) 18 rfl _ _ _ hOR0 _) $$ Hfo1 HO Hlev; iintro ⟨Hst1, Ho2, Hs18, HO⟩; go
  ihave Hpay := (Entails.of_eq (pay_recv_all m c 4)) $$ HaR4_pay1
  unfold recvPay; icases Hpay with ⟨%gr4, Hr4, %hgr4⟩
  iapply (wp_load_rslot c 4 _) $$ Hr4; iintro Hr4; go
  iapply (wp_load_sslot c 1 _) $$ Hst1; iintro Hst1
  iapply (wp_store_sslot c 1 _ _) $$ Hst1; iintro Hst1; go'
  iapply (wp_out_start c 1 (src c 4) _ (oBlk_from c 4) 18 rfl _ _) $$ Hst1 Ho4 Hs18; iintro Hfo1; go

  iapply (wp_out_wait c 0 (src c 3) _ (oBlk_from c 3) 17 rfl _ _ _ hOR0 _) $$ Hfo0 HO Hlev; iintro ⟨Hst0, Ho3, Hs17, HO⟩; go
  ihave Hpay := (Entails.of_eq (pay_recv_all m c 5)) $$ HaR5_pay1
  unfold recvPay; icases Hpay with ⟨%gr5, Hr5, %hgr5⟩
  iapply (wp_load_rslot c 5 _) $$ Hr5; iintro Hr5; go
  iapply (wp_load_sslot c 0 _) $$ Hst0; iintro Hst0
  iapply (wp_store_sslot c 0 _ _) $$ Hst0; iintro Hst0; go'
  iapply (wp_out_start c 0 (src c 5) _ (oBlk_from c 5) 17 rfl _ _) $$ Hst0 Ho5 Hs17; iintro Hfo0; go

  iapply (wp_out_wait c 1 (src c 4) _ (oBlk_from c 4) 18 rfl _ _ _ hOR0 _) $$ Hfo1 HO Hlev; iintro ⟨Hst1, Ho4, Hs18, HO⟩; go
  ihave Hpay := (Entails.of_eq (pay_recv_all m c 6)) $$ HaR6_pay1
  unfold recvPay; icases Hpay with ⟨%gr6, Hr6, %hgr6⟩
  iapply (wp_load_rslot c 6 _) $$ Hr6; iintro Hr6; go
  iapply (wp_load_sslot c 1 _) $$ Hst1; iintro Hst1
  iapply (wp_store_sslot c 1 _ _) $$ Hst1; iintro Hst1; go'
  iapply (wp_out_start c 1 (src c 6) _ (oBlk_from c 6) 18 rfl _ _) $$ Hst1 Ho6 Hs18; iintro Hfo1; go

  iapply (wp_out_wait c 0 (src c 5) _ (oBlk_from c 5) 17 rfl _ _ _ hOR0 _) $$ Hfo0 HO Hlev; iintro ⟨Hst0, Ho5, Hs17, HO⟩; go
  iapply (wp_out_wait c 1 (src c 6) _ (oBlk_from c 6) 18 rfl _ _ _ hOR0 _) $$ Hfo1 HO Hlev; iintro ⟨Hst1, Ho6, Hs18, HO⟩; go

  ihave Hpay := (Entails.of_eq (pay_send_all m c 0)) $$ HaS0_pay1
  unfold sendPay; icases Hpay with ⟨%fy0, Hy0, %hfy0⟩
  ihave Hpay := (Entails.of_eq (pay_send_all m c 1)) $$ HaS1_pay1
  unfold sendPay; icases Hpay with ⟨%fy1, Hy1, %hfy1⟩
  ihave Hpay := (Entails.of_eq (pay_send_all m c 2)) $$ HaS2_pay1
  unfold sendPay; icases Hpay with ⟨%fy2, Hy2, %hfy2⟩
  ihave Hpay := (Entails.of_eq (pay_send_all m c 3)) $$ HaS3_pay1
  unfold sendPay; icases Hpay with ⟨%fy3, Hy3, %hfy3⟩
  ihave Hpay := (Entails.of_eq (pay_send_all m c 4)) $$ HaS4_pay1
  unfold sendPay; icases Hpay with ⟨%fy4, Hy4, %hfy4⟩
  ihave Hpay := (Entails.of_eq (pay_send_all m c 5)) $$ HaS5_pay1
  unfold sendPay; icases Hpay with ⟨%fy5, Hy5, %hfy5⟩
  ihave Hpay := (Entails.of_eq (pay_send_all m c 6)) $$ HaS6_pay1
  unfold sendPay; icases Hpay with ⟨%fy6, Hy6, %hfy6⟩

  imod (body_finish m K c _ _ _ _ _ _ _ _ _ _ _ _ _ _ _ _ _ _ _ _ _ _ _ _ _ _ _ ?_ ?_ ?_ ?_ ?_ ?_ ?_ ?_) $$ HIs0 HIs1 HIs2 HIs3 HIs4 HIs5 HIs6 HIr0 HIr1 HIr2 HIr3 HIr4 HIr5 HIr6 HaS0 HaS1 HaS2 HaS3 HaS4 HaS5 HaS6 HaR0 HaR1 HaR2 HaR3 HaR4 HaR5 HaR6 Hs1 Hs2 Hs17 Hs18 HaF HaT Hwv0 Hwv1 Hb1 Hy0 Hy1 Hy2 Hy3 Hy4 Hy5 Hy6 Hr0 Hr1 Hr2 Hr3 Hr4 Hr5 Hr6 Hst0 Hst1 Hoc Ho0 Ho1 Ho2 Ho3 Ho4 Ho5 Ho6 with HΦ
  ·
    refine (read_landed c 0 c _ _).trans ((read_stored' c 0 _ _).trans ?_)
    open_vals
    exact (acc_value m c 0 (BitVec.ofNat 32 0) rfl c (self_as_mod c) g0 (g0_eq m c g0 d0 hg0) _ _ _ _ _ _ _ _).trans (own_value m c)
  · refine (read_landed c 1 (src c 0) _ _).trans ((read_stored' c 1 _ _).trans ?_)
    sl_unfold_run_names
    rw [loaded_rslot, hgr0]
  · refine (read_landed c 0 (src c 1) _ _).trans ((read_stored' c 0 _ _).trans ?_)
    sl_unfold_run_names
    rw [loaded_rslot, hgr1]
  · refine (read_landed c 1 (src c 2) _ _).trans ((read_stored' c 1 _ _).trans ?_)
    sl_unfold_run_names
    rw [loaded_rslot, hgr2]
  · refine (read_landed c 0 (src c 3) _ _).trans ((read_stored' c 0 _ _).trans ?_)
    sl_unfold_run_names
    rw [loaded_rslot, hgr3]
  · refine (read_landed c 1 (src c 4) _ _).trans ((read_stored' c 1 _ _).trans ?_)
    sl_unfold_run_names
    rw [loaded_rslot, hgr4]
  · refine (read_landed c 0 (src c 5) _ _).trans ((read_stored' c 0 _ _).trans ?_)
    sl_unfold_run_names
    rw [loaded_rslot, hgr5]
  · refine (read_landed c 1 (src c 6) _ _).trans ((read_stored' c 1 _ _).trans ?_)
    sl_unfold_run_names
    rw [loaded_rslot, hgr6]

  rw [wp_ret]
  imodintro
  rw [show (dats m 0 c).owed t0_0.succ = 0 from rfl]
  isplitl [HΦ]; · iexact HΦ
  isplitl [HO]
  · iexists _
    isplitr
    swap
    · iexact HO
    · ipureintro; exact fun _ _ => Or.inl trivial
  iexists g0
  isplitr; · ipureintro; rw [View.read_whole]; exact g0_eq m c g0 d0 hg0
  iexact Hx

end Cert.KernelIdeal.A2A

end
-- ==== Proof.Bits.Arith.lean ====
import proofs.«900798_g7700000000000799_dist_gemm_a2a_m8192_k8192_n4096_f32_relu_v7x_i8_1_alg».proof.Proof.Gen.Kernel

set_option Elab.async false

namespace Cert.Kernel.A2A

open Cert.Kernel Cert.Kernel.Gen Idealize.ShloMosaic

-- On the ring of eight: the device `q + 1` places after `c`, the one as far before it, and `c`'s number as its partner `q` counts it.
def peer (c : Dev nD) (q : Fin 7) : Dev nD := ⟨(c.val + q.val + 1) % 8, Nat.mod_lt _ (by decide)⟩
def src (c : Dev nD) (q : Fin 7) : Dev nD := ⟨(c.val + 7 - q.val) % 8, Nat.mod_lt _ (by decide)⟩
def rev (q : Fin 7) : Fin 7 := ⟨6 - q.val, by omega⟩

theorem peer_src (c : Dev nD) (q : Fin 7) : peer (src c q) q = c := by revert c q; decide
theorem src_peer (c : Dev nD) (q : Fin 7) : src (peer c q) q = c := by revert c q; decide
theorem peer_peer_rev (c : Dev nD) (q : Fin 7) : peer (peer c q) (rev q) = c := by revert c q; decide
theorem rev_rev (q : Fin 7) : rev (rev q) = q := by revert q; decide
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel
theorem k0_off1_eq (c : Dev nD) (r : Fin 8) : k0_off1 c (BitVec.ofNat 32 r.val) = ![0, ((c.val + r.val) % 8) * 512] := by revert c r; decide +kernel
theorem k0_off2_eq (c : Dev nD) (r : Fin 8) : k0_off2 c (BitVec.ofNat 32 r.val) = ![2048, ((c.val + r.val) % 8) * 512] := by revert c r; decide +kernel
theorem k0_off3_eq (c : Dev nD) (r : Fin 8) : k0_off3 c (BitVec.ofNat 32 r.val) = ![4096, ((c.val + r.val) % 8) * 512] := by revert c r; decide +kernel
theorem k0_off4_eq (c : Dev nD) (r : Fin 8) : k0_off4 c (BitVec.ofNat 32 r.val) = ![6144, ((c.val + r.val) % 8) * 512] := by revert c r; decide +kernel
theorem k0_off6_eq (c : Dev nD) (r : Fin 7) : k0_off6 c (BitVec.ofNat 32 (1 + r.val)) = ![((c.val + 7 - r.val) % 8) * 1024, 0] := by revert c r; decide +kernel

end Cert.Kernel.A2A
-- ==== Proof.Bits.Spec.lean ====
import proofs.«900798_g7700000000000799_dist_gemm_a2a_m8192_k8192_n4096_f32_relu_v7x_i8_1_alg».proof.Kernel
import proofs.«900798_g7700000000000799_dist_gemm_a2a_m8192_k8192_n4096_f32_relu_v7x_i8_1_alg».proof.Proof.Gen.Kernel
import Idealize.ShloMosaic.Lib.ValueIdx

noncomputable section

namespace Cert.Kernel.Spec

open Idealize.ShloMosaic Idealize.ShloMosaic.ValueIdx Cert.Kernel

variable {F : FTy → Type} [FloatOps F]

def xTile (x : FVec F S1024x8192 .f32) (t : Fin 4) : FVec F S1024x2048 .f32 := fun i =>
  x (ix2 (⟨(i 0).val, idx2_lt0 i⟩ : Fin 1024)
    (⟨t.val * 2048 + (i 1).val, by have h1 := idx2_lt1 i; have h2 := t.isLt; omega⟩ : Fin 8192))

def wTile (w : FVec F S8192x4096 .f32) (t : Fin 4) (j : Fin 8) : FVec F S2048x512 .f32 := fun i =>
  w (ix2 (⟨t.val * 2048 + (i 0).val, by have h1 := idx2_lt0 i; have h2 := t.isLt; omega⟩ : Fin 8192)
    (⟨j.val * 512 + (i 1).val, by have h1 := idx2_lt1 i; have h2 := j.isLt; omega⟩ : Fin 4096))

def tileDot (a : FVec F S1024x2048 .f32) (b : FVec F S2048x512 .f32) : FVec F S1024x512 .f32 :=
  matmul dot_S1024x2048_S2048x512_S1024x512_1_0_0_1_n_n none a b (constant S1024x512 .f32 0x00000000#32)

def relu4 (p0 p1 p2 p3 : FVec F S1024x512 .f32) : FVec F S1024x512 .f32 :=
  maximumf (addf (addf (addf p0 p1) p2) p3) (broadcast S1024x512 (Scalar.ofBits .f32 0x00000000#32))

def yBlk (x : FVec F S1024x8192 .f32) (w : FVec F S8192x4096 .f32) (j : Fin 8) : FVec F S1024x512 .f32 :=
  relu4 (tileDot (xTile x 0) (wTile w 0 j)) (tileDot (xTile x 1) (wTile w 1 j))
    (tileDot (xTile x 2) (wTile w 2 j)) (tileDot (xTile x 3) (wTile w 3 j))

def sent (x : FVec F S1024x8192 .f32) (w : FVec F S8192x4096 .f32) (j : Fin 8) : FVec F S1024x512 .f32 :=
  extf .f32 (truncf .bf16 (yBlk x w j) (by decide)) (by decide)

def outSpec (xs : Fin 8 → FVec F S1024x8192 .f32) (ws : Fin 8 → FVec F S8192x4096 .f32) (c : Fin 8) :
    FVec F S8192x512 .f32 := fun i =>
  let s : Fin 8 := ⟨(i 0).val / 1024, by have h := idx2_lt0 i; omega⟩
  let r : Fin 1024 := ⟨(i 0).val % 1024, Nat.mod_lt _ (by decide)⟩
  let n : Fin 512 := ⟨(i 1).val, idx2_lt1 i⟩
  if s = c then yBlk (xs c) (ws c) c (ix2 r n) else sent (xs s) (ws s) c (ix2 r n)

end Cert.Kernel.Spec

end
-- ==== Proof.Bits.Proto.lean ====
import proofs.«900798_g7700000000000799_dist_gemm_a2a_m8192_k8192_n4096_f32_relu_v7x_i8_1_alg».proof.Proof.Bits.Arith
import proofs.«900798_g7700000000000799_dist_gemm_a2a_m8192_k8192_n4096_f32_relu_v7x_i8_1_alg».proof.Proof.Bits.Spec
import proofs.«900798_g7700000000000799_dist_gemm_a2a_m8192_k8192_n4096_f32_relu_v7x_i8_1_alg».proof.Proof.Gen.Kernel.Skeleton
import proofs.«900798_g7700000000000799_dist_gemm_a2a_m8192_k8192_n4096_f32_relu_v7x_i8_1_alg».proof.Proof.Gen.Kernel.Launch
import proofs.«900798_g7700000000000799_dist_gemm_a2a_m8192_k8192_n4096_f32_relu_v7x_i8_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ)

abbrev barS : Sem sig := (SemArray.scalar (sig.barrier 0 rfl) : Sems sig S_).sem

abbrev sendSem (q : Fin 7) : DmaSem sig := ⟨3 + q.val, by have := q.isLt; show 3 + q.val < 19; omega⟩
abbrev recvSem (q : Fin 7) : DmaSem sig := ⟨10 + q.val, by have := q.isLt; show 10 + q.val < 19; omega⟩

abbrev barCell (c : Dev nD) : GSem nD τ sig := ((c : Thread nD τ), .reg barS)
abbrev sendCell (c : Dev nD) (q : Fin 7) : GSem nD τ sig := ((c : Thread nD τ), .dma (sendSem q))
abbrev recvCell (c : Dev nD) (q : Fin 7) : GSem nD τ sig := ((c : Thread nD τ), .dma (recvSem q))

theorem slot_inb : ∀ (q : Fin 7) (a : Fin 3), (![q.val, 0, 0] : Fin 3 → Nat) a + S1x1024x512.size a ≤ S7x1024x512.size a := by decide

abbrev ySlot (q : Fin 7) : Memref sig .tc .vmem S1024x512 .bf16 :=
  ((Memref.whole cc0_scratch2).slice (Rect.unit (s := S7x1024x512) ![q.val, 0, 0] S1x1024x512.size (slot_inb q)) (fun _ => rfl)).squeeze S1024x512 Gen.squeezes_S1x1024x512_S1024x512
abbrev rSlot (q : Fin 7) : Memref sig .tc .vmem S1024x512 .bf16 :=
  ((Memref.whole cc0_scratch3).slice (Rect.unit (s := S7x1024x512) ![q.val, 0, 0] S1x1024x512.size (slot_inb q)) (fun _ => rfl)).squeeze S1024x512 Gen.squeezes_S1x1024x512_S1024x512

abbrev N : ℕ := (rSlot 0).view.dmaCredit

def rPts (c : Dev nD) (q : Fin 7) (f : Buf (Elt F) ((rSlot q).view.loc (c : Thread nD τ))) : sProp 𝕄 :=
  (rSlot q).view.loc (c : Thread nD τ) ↦[(rSlot q).view.set]{fullShare} f
def yPts (c : Dev nD) (q : Fin 7) (f : Buf (Elt F) ((ySlot q).view.loc (c : Thread nD τ))) : sProp 𝕄 :=
  (ySlot q).view.loc (c : Thread nD τ) ↦[(ySlot q).view.set]{fullShare} f

def xOf (c : Dev nD) : FVec F S1024x8192 .f32 :=
  (win0_0.blk Gen.t0_0).view.read (Elt F) (m ((c : Thread nD τ).loc main_arg0))
def wOf (c : Dev nD) : FVec F S8192x4096 .f32 := m ((c : Thread nD τ).loc main_arg1)

def yOf (c : Dev nD) (q : Fin 7) : FVec F S1024x512 .f32 := Spec.yBlk (xOf m c) (wOf m c) (peer c q)
def sentV (c : Dev nD) (q : Fin 7) : FVec F S1024x512 .bf16 := truncf .bf16 (yOf m c q) Gen.bitsLt_bf16_f32

def ownV (c : Dev nD) : FVec F S1024x512 .f32 := Spec.yBlk (xOf m c) (wOf m c) c

def outFinal (c : Dev nD) : FVec F S8192x512 .f32 := Spec.outSpec (fun d => xOf m d) (fun d => wOf m d) c

def slotOf (s : SemLoc sig) : Option (Bool × Fin 7) :=
  match s with
  | .dma k => if h : 3 ≤ k.val ∧ k.val < 10 then some (false, ⟨k.val - 3, by omega⟩)
              else if h : 10 ≤ k.val ∧ k.val < 17 then some (true, ⟨k.val - 10, by omega⟩) else none
  | _ => none

def barPay (c : Dev nD) (q : Fin 7) : sProp 𝕄 :=
  iprop((∃ f, rPts (peer c q) q f) ∗ reached ER (recvCell (peer c q) q) 0)

def recvPay (c : Dev nD) (q : Fin 7) : sProp 𝕄 :=
  iprop(∃ f, rPts c q f ∗ ⌜(rSlot q).view.read (Elt F) f = sentV m (src c q) q⌝)

def sendPay (c : Dev nD) (q : Fin 7) : sProp 𝕄 :=
  iprop(∃ f, yPts c q f ∗ ⌜(ySlot q).view.read (Elt F) f = sentV m c q⌝)

omit [FloatOps F] in
instance rPts_storable (c : Dev nD) (q : Fin 7) (f) : BI.Storable (upEmb : UEmb _ 𝕄) (rPts (F := F) c q f) := by unfold rPts; infer_instance
omit [FloatOps F] in
instance yPts_storable (c : Dev nD) (q : Fin 7) (f) : BI.Storable (upEmb : UEmb _ 𝕄) (yPts (F := F) c q f) := by unfold yPts; infer_instance
instance ER_landsIn : (ER (F := F)).LandsIn (upEmb : UEmb _ 𝕄) := by unfold ER; infer_instance
set_option synthInstance.maxHeartbeats 200000 in
instance barPay_storable (c : Dev nD) (q : Fin 7) : BI.Storable (upEmb : UEmb _ 𝕄) (barPay (F := F) c q) := by unfold barPay; infer_instance
set_option synthInstance.maxHeartbeats 200000 in
instance recvPay_storable (c : Dev nD) (q : Fin 7) : BI.Storable (upEmb : UEmb _ 𝕄) (recvPay m c q) := by unfold recvPay; infer_instance
set_option synthInstance.maxHeartbeats 200000 in
instance sendPay_storable (c : Dev nD) (q : Fin 7) : BI.Storable (upEmb : UEmb _ 𝕄) (sendPay m c q) := by unfold sendPay; infer_instance

abbrev IsBar (g : GSem nD τ sig) : Prop := g.1.2 = .tc ∧ g.2 = .reg barS
abbrev IsXfer (g : GSem nD τ sig) : Prop := g.1.2 = .tc ∧ (slotOf g.2).isSome

def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match slotOf g.2 with
      | some (true, q) => recvPay m g.1.1 q
      | some (false, q) => sendPay m g.1.1 q
      | none => iprop(emp)
  amount_pos g _ _ _ := by
    by_cases h : g.2 = .reg barS
    · rw [if_pos h]; exact Nat.one_pos
    · rw [if_neg h]; exact View.dmaCredit_pos _ (by decide)

instance sched_payload_storable (g : GSem nD τ sig) (r : ℕ) (d : Fin 7) :
    BI.Storable (upEmb : UEmb _ 𝕄) ((sched (F := F) m).payload g r d) := by
  show BI.Storable upEmb (if g.2 = .reg barS then barPay g.1.1 d
    else match slotOf g.2 with
      | some (true, q) => recvPay m g.1.1 q
      | some (false, q) => sendPay m g.1.1 q
      | none => iprop(emp))
  (repeat' split) <;> infer_instance

abbrev tB (c : Dev nD) (p : Fin 7) : CellTallies nD τ sig Unit := tallyAt (barCell (peer c p)) () 1
abbrev tR (c : Dev nD) (q : Fin 7) : CellTallies nD τ sig Unit := tallyAt (recvCell (peer c q) q) () N

def OR (c : Dev nD) : CellTallies nD τ sig Unit := tR c 6 + tR c 5 + tR c 4 + tR c 3 + tR c 2 + tR c 1 + tR c 0

def O₀ (c : Dev nD) : CellTallies nD τ sig Unit := OR c + tB c 6 + tB c 5 + tB c 4 + tB c 3 + tB c 2 + tB c 1 + tB c 0

def L (g : GSem nD τ sig) : Finset Unit := if g.1.2 = .tc then {()} else ∅

def lv (g : GSem nD τ sig) (_ : Unit) : ℕ :=
  if g.2 = .reg barS then 1 else match slotOf g.2 with | some (true, _) => 2 | _ => 0

abbrev kS (q : Fin 7) : Fin 15 := ⟨1 + q.val, by have := q.isLt; omega⟩
abbrev kR (q : Fin 7) : Fin 15 := ⟨8 + q.val, by have := q.isLt; omega⟩
abbrev csem (k : Fin 15) : SemLoc sig :=
  if h : k.val = 0 then .reg barS else .dma ⟨2 + k.val, by have := k.isLt; show 2 + k.val < 19; omega⟩
abbrev kcell (ck : Dev nD × Fin 15) : GSem nD τ sig := ((ck.1 : Thread nD τ), csem ck.2)

def invs (K : Dev nD × Fin 15 → ℕ) (c : Dev nD) : sProp 𝕄 :=
  iprop(cellInv ER (sched m) (K (c, 0)) (barCell c)
    ∗ (bigSep Finset.univ fun q : Fin 7 => cellInv ER (sched m) (K (c, kS q)) (sendCell c q))
    ∗ (bigSep Finset.univ fun q : Fin 7 => cellInv ER (sched m) (K (c, kR q)) (recvCell c q))
    ∗ (bigSep Finset.univ fun q : Fin 7 => cellInv ER (sched m) (K (peer c q, 0)) (barCell (peer c q)))
    ∗ (bigSep Finset.univ fun q : Fin 7 => cellInv ER (sched m) (K (peer c q, kR q)) (recvCell (peer c q) q)))

def posns (c : Dev nD) : sProp 𝕄 :=
  iprop(atPos ER (barCell c) 0 ∅ 0
    ∗ (bigSep Finset.univ fun q : Fin 7 => atPos ER (sendCell c q) 0 ∅ 0)
    ∗ (bigSep Finset.univ fun q : Fin 7 => atPos ER (recvCell c q) 0 ∅ 0))

def marks (c : Dev nD) : sProp 𝕄 :=
  iprop((bigSep Finset.univ fun q : Fin 7 => reached ER (barCell (peer c q)) 0)
    ∗ (bigSep Finset.univ fun q : Fin 7 => reached ER (recvCell (peer c q) q) 0)
    ∗ (bigSep Finset.univ fun q : Fin 7 => reached ER (sendCell c q) 0)
    ∗ (bigSep Finset.univ fun q : Fin 7 => reached ER (recvCell c q) 0))

def payToks (c : Dev nD) : sProp 𝕄 :=
  iprop((bigSep Finset.univ fun p : Fin 7 => dutyTok ER (barCell (peer c p)) 0 (rev p))
    ∗ (bigSep Finset.univ fun q : Fin 7 => dutyTok ER (recvCell (peer c q) q) 0 (0 : Fin 7))
    ∗ (bigSep Finset.univ fun q : Fin 7 => dutyTok ER (sendCell c q) 0 (0 : Fin 7)))

def ghost (K : Dev nD × Fin 15 → ℕ) (c : Dev nD) : sProp 𝕄 :=
  iprop(invs m K c ∗ posns c ∗ marks c ∗ payToks c)

def locSems (c : Dev nD) : sProp 𝕄 :=
  iprop(semVal ((c : Thread nD τ), SemLoc.dma (1 : DmaSem sig)) 0 ∗ semVal ((c : Thread nD τ), SemLoc.dma (2 : DmaSem sig)) 0
    ∗ semVal ((c : Thread nD τ), SemLoc.dma (17 : DmaSem sig)) 0 ∗ semVal ((c : Thread nD τ), SemLoc.dma (18 : DmaSem sig)) 0)

def arrs (c : Dev nD) : sProp 𝕄 :=
  iprop((((c : Thread nD τ).loc main_arg1) ↦{fullShare} m ((c : Thread nD τ).loc main_arg1))
    ∗ (((c : Thread nD τ).loc main_v1) ↦{fullShare} m ((c : Thread nD τ).loc main_v1)))

def start (c : Dev nD) : sProp 𝕄 :=
  iprop((∃ K, ghost m K c) ∗ cred (tallyAt (barCell c) () 7)
    ∗ (bigSep Finset.univ fun q : Fin 7 => cred (tallyAt (recvCell c q) () N))
    ∗ levAts L lv ∗ locSems c ∗ arrs m c)

abbrev osem : Fin 18 → SemLoc sig := fun k => .dma ⟨1 + k.val, by have := k.isLt; show 1 + k.val < 19; omega⟩

def Φ₀ (c : Dev nD) : sProp 𝕄 := iprop(start m c ∗ Pipeline.scopedRest cfg0.spec c)

def Φ₁ (c : Dev nD) : sProp 𝕄 :=
  iprop((((c : Thread nD τ).loc main_arg1) ↦{fullShare} m ((c : Thread nD τ).loc main_arg1))
    ∗ (((c : Thread nD τ).loc main_v1) ↦{fullShare} (outFinal m c : Buf (Elt F) ((c : Thread nD τ).loc main_v1)))
    ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => xOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.Kernel.A2A

end
-- ==== Proof.Bits.Tables.lean ====
import proofs.«900798_g7700000000000799_dist_gemm_a2a_m8192_k8192_n4096_f32_relu_v7x_i8_1_alg».proof.Proof.Bits.Proto

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem slotOf_send (q : Fin 7) : slotOf (.dma (sendSem q) : SemLoc sig) = some (false, q) := by revert q; decide
omit [FloatOps F] in
theorem slotOf_recv (q : Fin 7) : slotOf (.dma (recvSem q) : SemLoc sig) = some (true, q) := by revert q; decide
omit [FloatOps F] in
theorem send_ne_bar (q : Fin 7) : (SemLoc.dma (sendSem q) : SemLoc sig) ≠ .reg barS := fun h => by cases h
omit [FloatOps F] in
theorem recv_ne_bar (q : Fin 7) : (SemLoc.dma (recvSem q) : SemLoc sig) ≠ .reg barS := fun h => by cases h

section Sched
variable (c : Dev nD) (q : Fin 7) (d : Fin 7)

theorem duties_bar : (sched (F := F) m).duties (barCell c) 0 = Finset.univ := by
  dsimp only [sched]; exact if_pos ⟨rfl, rfl, rfl⟩
theorem duties_send : (sched (F := F) m).duties (sendCell c q) 0 = {0} := by
  dsimp only [sched]; rw [if_neg (fun h => send_ne_bar q h.2.2)]
  exact if_pos ⟨rfl, rfl, by rw [slotOf_send]; rfl⟩
theorem duties_recv : (sched (F := F) m).duties (recvCell c q) 0 = {0} := by
  dsimp only [sched]; rw [if_neg (fun h => recv_ne_bar q h.2.2)]
  exact if_pos ⟨rfl, rfl, by rw [slotOf_recv]; rfl⟩
theorem duties_later (g : GSem nD τ sig) : ∀ r, 1 ≤ r → (sched (F := F) m).duties g r = ∅ :=
  fun r hr => by dsimp only [sched]; rw [if_neg fun h => by omega, if_neg fun h => by omega]

theorem amount_bar : (sched (F := F) m).amount (barCell c) 0 d = 1 := by dsimp only [sched]; exact if_pos rfl
theorem amount_send : (sched (F := F) m).amount (sendCell c q) 0 d = N := by dsimp only [sched]; exact if_neg (send_ne_bar q)
theorem amount_recv : (sched (F := F) m).amount (recvCell c q) 0 d = N := by dsimp only [sched]; exact if_neg (recv_ne_bar q)

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c q) 0 = N := by
  unfold Schedule.expect Schedule.amountOf; rw [duties_send, Finset.sum_singleton, amount_send]
theorem expect_recv : (sched (F := F) m).expect (recvCell c q) 0 = N := by
  unfold Schedule.expect Schedule.amountOf; rw [duties_recv, Finset.sum_singleton, amount_recv]

theorem payload_bar : (sched (F := F) m).payload (barCell c) 0 d = barPay c d := by dsimp only [sched]; rw [if_pos rfl]
theorem payload_send : (sched (F := F) m).payload (sendCell c q) 0 d = sendPay m c q := by
  dsimp only [sched]; rw [if_neg (send_ne_bar q), slotOf_send]
theorem payload_recv : (sched (F := F) m).payload (recvCell c q) 0 d = recvPay m c q := by
  dsimp only [sched]; rw [if_neg (recv_ne_bar q), slotOf_recv]

end Sched

theorem payload_bar_peer (c : Dev nD) (p : Fin 7) :
    (sched (F := F) m).payload (barCell (peer c p)) 0 (rev p)
      = iprop((∃ f, rPts c (rev p) f) ∗ reached ER (recvCell c (rev p)) 0) := by
  rw [payload_bar]; unfold barPay
  have h := peer_peer_rev c p
  generalize peer (peer c p) (rev p) = d at h ⊢
  subst h; rfl

theorem payload_recv_peer (c : Dev nD) (q : Fin 7) (d : Fin 7) :
    (sched (F := F) m).payload (recvCell (peer c q) q) 0 d
      = iprop(∃ f, rPts (peer c q) q f ∗ ⌜(rSlot q).view.read (Elt F) f = sentV m c q⌝) := by
  rw [payload_recv]; unfold recvPay; rw [src_peer]

theorem ownSems0_cells (c : Dev nD) : (Pipeline.ownSems0 (Ix := Unit) (Name := ℕ) (U := UU) (Lvl := ℕ) (Val := Elt F) (τ := τ) osem c : sProp 𝕄)
    = iprop(semVal ((c : Thread nD τ), SemLoc.dma (1 : DmaSem sig)) 0
      ∗ semVal ((c : Thread nD τ), SemLoc.dma (2 : DmaSem sig)) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (recvCell c 0) 0
      ∗ semVal (recvCell c 1) 0
      ∗ semVal (recvCell c 2) 0
      ∗ semVal (recvCell c 3) 0
      ∗ semVal (recvCell c 4) 0
      ∗ semVal (recvCell c 5) 0
      ∗ semVal (recvCell c 6) 0
      ∗ semVal ((c : Thread nD τ), SemLoc.dma (17 : DmaSem sig)) 0
      ∗ semVal ((c : Thread nD τ), SemLoc.dma (18 : DmaSem sig)) 0) := by
  rw [Pipeline.ownSems0_eq_of_list c osem [0, 1, 2, 3, 4, 5, 6, 7, 8, 9, 10, 11, 12, 13, 14, 15, 16, 17] (by decide) (by decide)]; rfl

end Cert.Kernel.A2A

end
-- ==== Proof.Bits.Launch.lean ====
import proofs.«900798_g7700000000000799_dist_gemm_a2a_m8192_k8192_n4096_f32_relu_v7x_i8_1_alg».proof.Proof.Bits.Tables

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

namespace AtLaunch

set_option maxRecDepth 8000 in
theorem csem_injective : Function.Injective (csem : Fin 15 → SemLoc sig) := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def xCells : Finset (GSem nD τ sig) := Finset.univ.map ⟨kcell, kcell_injective⟩

abbrev tsem (jq : Fin 3 × Fin 7) : SemLoc sig × Fin 7 := match jq.1 with
  | 0 => (.reg barS, jq.2) | 1 => (.dma (sendSem jq.2), 0) | 2 => (.dma (recvSem jq.2), 0)

set_option maxRecDepth 8000 in
theorem tsem_injective : Function.Injective tsem := by decide

abbrev tokOf (cj : Dev nD × Fin 3 × Fin 7) : GSem nD τ sig × ℕ × Fin 7 := (((cj.1 : Thread nD τ), (tsem cj.2).1), 0, (tsem cj.2).2)

theorem tokOf_injective : Function.Injective (tokOf : Dev nD × Fin 3 × Fin 7 → GSem nD τ sig × ℕ × Fin 7) := by
  rintro ⟨c, jq⟩ ⟨c', jq'⟩ h
  have h1 : c = c' := by have := congrArg (fun x : GSem nD τ sig × ℕ × Fin 7 => x.1.1.1) h; exact this
  subst h1
  have h2 : tsem jq = tsem jq' :=
    Prod.ext (congrArg (fun x : GSem nD τ sig × ℕ × Fin 7 => x.1.2) h) (congrArg (fun x : GSem nD τ sig × ℕ × Fin 7 => x.2.2) h)
  rw [tsem_injective h2]

def xToks : Finset (GSem nD τ sig × ℕ × Fin 7) := Finset.univ.map ⟨tokOf, tokOf_injective⟩

def u₀ : UU :=
  (initOf (Pipeline.cells cfgs cellOf_inj) (Pipeline.launchToks cfgs cellOf_inj), (initOf xCells xToks, 1))

def toks (c : Dev nD) : sProp 𝕄 :=
  iprop((bigSep Finset.univ fun q : Fin 7 => dutyTok ER (barCell c) 0 q)
    ∗ (bigSep Finset.univ fun q : Fin 7 => dutyTok ER (sendCell c q) 0 (0 : Fin 7))
    ∗ (bigSep Finset.univ fun q : Fin 7 => dutyTok ER (recvCell c q) 0 (0 : Fin 7)))

def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

def G' (c : Dev nD) : sProp 𝕄 := iprop((∃ K, ghost m K c) ∗ locSems c)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund_ring : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 15 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_prod, bigSep_fin3]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells15_eq (c : Dev nD) : (bigSep Finset.univ fun k : Fin 15 => semVal (kcell (c, k)) 0 : sProp 𝕄)
    = iprop(semVal (barCell c) 0
      ∗ semVal (sendCell c 0) 0
      ∗ semVal (sendCell c 1) 0
      ∗ semVal (sendCell c 2) 0
      ∗ semVal (sendCell c 3) 0
      ∗ semVal (sendCell c 4) 0
      ∗ semVal (sendCell c 5) 0
      ∗ semVal (sendCell c 6) 0
      ∗ semVal (recvCell c 0) 0
      ∗ semVal (recvCell c 1) 0
      ∗ semVal (recvCell c 2) 0
      ∗ semVal (recvCell c 3) 0
      ∗ semVal (recvCell c 4) 0
      ∗ semVal (recvCell c 5) 0
      ∗ semVal (recvCell c 6) 0) := by
  rw [bigSep_univ_eq_bigSepL ([0, 1, 2, 3, 4, 5, 6, 7, 8, 9, 10, 11, 12, 13, 14] : List (Fin 15)) (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ locSems c) : sProp 𝕄) := by
  rw [ownSems0_cells, unscopedSems0_eq, cells15_eq]
  unfold locSems
  iintro ⟨⟨H0, H1, H2, H3, H4, H5, H6, H7, H8, H9, H10, H11, H12, H13, H14, H15, H16, H17⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c ∗ locSems c) := by
  unfold G
  iintro ⟨Hos, Hus, Hst, Hat, Htok⟩
  ihave Hv := (sems0_eq (F := F) c) $$ [Hos Hus]
  · isplitl [Hos] <;> iassumption
  icases Hv with ⟨Hv, Hls⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  iframe

theorem kS_injective : Function.Injective kS := fun a b h => Fin.ext (by have := congrArg Fin.val h; simp only [kS] at this; omega)
theorem kR_injective : Function.Injective kR := fun a b h => Fin.ext (by have := congrArg Fin.val h; simp only [kR] at this; omega)

theorem bigSep_fin15 (Φ : Fin 15 → sProp 𝕄) :
    bigSep Finset.univ Φ = iprop(Φ 0 ∗ (bigSep Finset.univ fun q : Fin 7 => Φ (kS q)) ∗ (bigSep Finset.univ fun q : Fin 7 => Φ (kR q))) := by
  have h : (Finset.univ : Finset (Fin 15)) = insert 0 ((Finset.univ.map ⟨kS, kS_injective⟩) ∪ (Finset.univ.map ⟨kR, kR_injective⟩)) := by decide
  rw [h, bigSep_insert (by decide), bigSep_union (by decide), bigSep_map, bigSep_map]; rfl

theorem kcell_S (c : Dev nD) (q : Fin 7) : kcell (c, kS q) = sendCell c q := by
  show ((c : Thread nD τ), csem (kS q)) = ((c : Thread nD τ), SemLoc.dma (sendSem q))
  congr 1
  show (if h : (kS q).val = 0 then _ else _) = _
  rw [dif_neg (by show ¬ (1 + q.val = 0); omega)]
  exact congrArg SemLoc.dma (Fin.ext (by show 2 + (1 + q.val) = 3 + q.val; omega))
theorem kcell_R (c : Dev nD) (q : Fin 7) : kcell (c, kR q) = recvCell c q := by
  show ((c : Thread nD τ), csem (kR q)) = ((c : Thread nD τ), SemLoc.dma (recvSem q))
  congr 1
  show (if h : (kR q).val = 0 then _ else _) = _
  rw [dif_neg (by show ¬ (8 + q.val = 0); omega)]
  exact congrArg SemLoc.dma (Fin.ext (by show 2 + (8 + q.val) = 10 + q.val; omega))

def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_bar (K : Dev nD × Fin 15 → ℕ) (d : Dev nD) :
    (bigSep Finset.univ fun ck : Dev nD × Fin 15 => (cellInv ER (sched m) (K ck) (kcell ck) : sProp 𝕄)) ⊢ cellInv ER (sched m) (K (d, 0)) (barCell d) :=
  bigSep_elim (Finset.mem_univ (d, 0))
theorem inv_send (K : Dev nD × Fin 15 → ℕ) (d : Dev nD) (q : Fin 7) :
    (bigSep Finset.univ fun ck : Dev nD × Fin 15 => (cellInv ER (sched m) (K ck) (kcell ck) : sProp 𝕄)) ⊢ cellInv ER (sched m) (K (d, kS q)) (sendCell d q) := by
  rw [← kcell_S]; exact bigSep_elim (Finset.mem_univ (d, kS q))
theorem inv_recv (K : Dev nD × Fin 15 → ℕ) (d : Dev nD) (q : Fin 7) :
    (bigSep Finset.univ fun ck : Dev nD × Fin 15 => (cellInv ER (sched m) (K ck) (kcell ck) : sProp 𝕄)) ⊢ cellInv ER (sched m) (K (d, kR q)) (recvCell d q) := by
  rw [← kcell_R]; exact bigSep_elim (Finset.mem_univ (d, kR q))

theorem reached_bar (d : Dev nD) :
    (bigSep Finset.univ fun ck : Dev nD × Fin 15 => (reached ER (kcell ck) 0 : sProp 𝕄)) ⊢ reached ER (barCell d) 0 :=
  bigSep_elim (Finset.mem_univ (d, 0))
theorem reached_send (d : Dev nD) (q : Fin 7) :
    (bigSep Finset.univ fun ck : Dev nD × Fin 15 => (reached ER (kcell ck) 0 : sProp 𝕄)) ⊢ reached ER (sendCell d q) 0 := by
  rw [← kcell_S]; exact bigSep_elim (Finset.mem_univ (d, kS q))
theorem reached_recv (d : Dev nD) (q : Fin 7) :
    (bigSep Finset.univ fun ck : Dev nD × Fin 15 => (reached ER (kcell ck) 0 : sProp 𝕄)) ⊢ reached ER (recvCell d q) 0 := by
  rw [← kcell_R]; exact bigSep_elim (Finset.mem_univ (d, kR q))

theorem posns_eq (c : Dev nD) : (bigSep Finset.univ fun k : Fin 15 => (atPos ER (kcell (c, k)) 0 ∅ 0 : sProp 𝕄)) = posns c := by
  rw [bigSep_fin15]; simp only [kcell_S, kcell_R]; rfl

def linear (c : Dev nD) : sProp 𝕄 :=
  iprop((bigSep Finset.univ fun k : Fin 15 => atPos ER (kcell (c, k)) 0 ∅ 0) ∗ payToks c ∗ locSems c)

theorem ghost_intro (K : Dev nD × Fin 15 → ℕ) (c : Dev nD) : iprop(records m K ∗ linear c) ⊢ G' m c := by
  unfold records linear G' ghost
  rw [posns_eq]
  iintro ⟨⟨#HI, #HR⟩, Hat, Htk, Hls⟩
  isplitr [Hls]
  · iexists K
    isplitr
    · unfold invs
      isplitr; · iapply (inv_bar m K c); iexact HI
      isplitr; · iapply (bigSep_intro_persistent fun q _ => inv_send m K c q); iexact HI
      isplitr; · iapply (bigSep_intro_persistent fun q _ => inv_recv m K c q); iexact HI
      isplitr; · iapply (bigSep_intro_persistent fun q _ => inv_bar m K (peer c q)); iexact HI
      iapply (bigSep_intro_persistent fun q _ => inv_recv m K (peer c q) q); iexact HI
    isplitl [Hat]; · iexact Hat
    isplitr
    · unfold marks
      isplitr; · iapply (bigSep_intro_persistent fun q _ => reached_bar (F := F) (peer c q)); iexact HR
      isplitr; · iapply (bigSep_intro_persistent fun q _ => reached_recv (F := F) (peer c q) q); iexact HR
      isplitr; · iapply (bigSep_intro_persistent fun q _ => reached_send (F := F) c q); iexact HR
      iapply (bigSep_intro_persistent fun q _ => reached_recv (F := F) c q); iexact HR
    iexact Htk
  · iexact Hls

def barSwap : Dev nD × Fin 7 ≃ Dev nD × Fin 7 where
  toFun cp := (peer cp.1 cp.2, rev cp.2)
  invFun cp := (peer cp.1 cp.2, rev cp.2)
  left_inv := by rintro ⟨c, p⟩; show (peer (peer c p) (rev p), rev (rev p)) = (c, p); rw [peer_peer_rev, rev_rev]
  right_inv := by rintro ⟨c, p⟩; show (peer (peer c p) (rev p), rev (rev p)) = (c, p); rw [peer_peer_rev, rev_rev]

def recvSwap : Dev nD × Fin 7 ≃ Dev nD × Fin 7 where
  toFun cq := (peer cq.1 cq.2, cq.2)
  invFun cq := (src cq.1 cq.2, cq.2)
  left_inv := by rintro ⟨c, q⟩; show (src (peer c q) q, q) = (c, q); rw [src_peer]
  right_inv := by rintro ⟨c, q⟩; show (peer (src c q) q, q) = (c, q); rw [peer_src]

theorem toks_around : (bigSep Finset.univ fun c : Dev nD => (toks c : sProp 𝕄)) ⊢ bigSep Finset.univ fun c : Dev nD => payToks c := by
  have hB : (bigSep Finset.univ fun c : Dev nD => bigSep Finset.univ fun q : Fin 7 => (dutyTok ER (barCell c) 0 q : sProp 𝕄))
      = bigSep Finset.univ fun c : Dev nD => bigSep Finset.univ fun p : Fin 7 => dutyTok ER (barCell (peer c p)) 0 (rev p) :=
    calc _ = bigSep Finset.univ (fun cq : Dev nD × Fin 7 => (dutyTok ER (barCell cq.1) 0 cq.2 : sProp 𝕄)) :=
          (bigSep_univ_prod (fun cq : Dev nD × Fin 7 => (dutyTok ER (barCell cq.1) 0 cq.2 : sProp 𝕄))).symm
      _ = bigSep Finset.univ (fun cq : Dev nD × Fin 7 => (dutyTok ER (barCell (barSwap cq).1) 0 (barSwap cq).2 : sProp 𝕄)) :=
          bigSep_univ_equiv barSwap (fun cq : Dev nD × Fin 7 => (dutyTok ER (barCell cq.1) 0 cq.2 : sProp 𝕄))
      _ = _ := bigSep_univ_prod (fun cq : Dev nD × Fin 7 => (dutyTok ER (barCell (barSwap cq).1) 0 (barSwap cq).2 : sProp 𝕄))
  have hR : (bigSep Finset.univ fun c : Dev nD => bigSep Finset.univ fun q : Fin 7 => (dutyTok ER (recvCell c q) 0 (0 : Fin 7) : sProp 𝕄))
      = bigSep Finset.univ fun c : Dev nD => bigSep Finset.univ fun q : Fin 7 => dutyTok ER (recvCell (peer c q) q) 0 (0 : Fin 7) :=
    calc _ = bigSep Finset.univ (fun cq : Dev nD × Fin 7 => (dutyTok ER (recvCell cq.1 cq.2) 0 (0 : Fin 7) : sProp 𝕄)) :=
          (bigSep_univ_prod (fun cq : Dev nD × Fin 7 => (dutyTok ER (recvCell cq.1 cq.2) 0 (0 : Fin 7) : sProp 𝕄))).symm
      _ = bigSep Finset.univ (fun cq : Dev nD × Fin 7 => (dutyTok ER (recvCell (recvSwap cq).1 (recvSwap cq).2) 0 (0 : Fin 7) : sProp 𝕄)) :=
          bigSep_univ_equiv recvSwap (fun cq : Dev nD × Fin 7 => (dutyTok ER (recvCell cq.1 cq.2) 0 (0 : Fin 7) : sProp 𝕄))
      _ = _ := bigSep_univ_prod (fun cq : Dev nD × Fin 7 => (dutyTok ER (recvCell (recvSwap cq).1 (recvSwap cq).2) 0 (0 : Fin 7) : sProp 𝕄))
  unfold toks payToks
  rw [bigSep_sep', bigSep_sep', bigSep_sep', bigSep_sep', hB, hR]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 15 => iprop(atPos ER (kcell (c, k)) 0 ∅ 0 ∗ reached ER (kcell (c, k)) 0)) ∗ toks c ∗ locSems c) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hls⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : Fin 15 => (atPos ER (kcell (c, k)) 0 ∅ 0 : sProp 𝕄))
        (fun c : Dev nD => iprop(payToks c ∗ locSems c))).symm)).trans
      (bigSep_mono fun c _ => show _ ⊢ linear c from Entails.of_eq (by unfold linear; rfl)))
    isplitl [Hat]; · iexact Hat
    rw [bigSep_sep']
    isplitl [Htk]; · iexact Htk
    iexact Hls

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem lc_bar (c : Dev nD) (p : Fin 7) : (Pipeline.launchCred (fun d => tB d p) c : sProp 𝕄) ⊢ cred (tallyAt (barCell c) () 1) :=
  Pipeline.launchCred_tallyAt (.reg barS) (fun d => peer d p) (fun d => src d p) (fun d => peer_src d p) (fun d => src_peer d p) () 1 c

theorem lc_recv (c : Dev nD) (q : Fin 7) : (Pipeline.launchCred (fun d => tR d q) c : sProp 𝕄) ⊢ cred (tallyAt (recvCell c q) () N) :=
  Pipeline.launchCred_tallyAt (.dma (recvSem q)) (fun d => peer d q) (fun d => src d q) (fun d => peer_src d q) (fun d => src_peer d q) () N c

theorem cred_succ (g : GSem nD τ sig) (n : ℕ) :
    iprop(cred (tallyAt g () n) ∗ cred (tallyAt g () 1)) ⊢ (cred (tallyAt g () (n + 1)) : sProp 𝕄) := by
  rw [← tallyAt_add]; exact (cred_add _ _).2

theorem creds (c : Dev nD) :
    (Pipeline.launchCred O₀ c : sProp 𝕄) ⊢ iprop(cred (tallyAt (barCell c) () 7) ∗ bigSep Finset.univ fun q : Fin 7 => cred (tallyAt (recvCell c q) () N)) := by
  show (Pipeline.launchCred (fun d => tR d 6 + tR d 5 + tR d 4 + tR d 3 + tR d 2 + tR d 1 + tR d 0
      + tB d 6 + tB d 5 + tB d 4 + tB d 3 + tB d 2 + tB d 1 + tB d 0) c : sProp 𝕄) ⊢ _
  rw [Pipeline.launchCred_add, Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add, Pipeline.launchCred_add,
    Pipeline.launchCred_add, bigSep_fin7]
  iintro ⟨⟨⟨⟨⟨⟨⟨⟨⟨⟨⟨⟨⟨R6, R5⟩, R4⟩, R3⟩, R2⟩, R1⟩, R0⟩, B6⟩, B5⟩, B4⟩, B3⟩, B2⟩, B1⟩, B0⟩
  ihave C0 := (lc_bar (F := F) c 0) $$ B0
  ihave C1 := (lc_bar (F := F) c 1) $$ B1
  ihave C2 := (lc_bar (F := F) c 2) $$ B2
  ihave C3 := (lc_bar (F := F) c 3) $$ B3
  ihave C4 := (lc_bar (F := F) c 4) $$ B4
  ihave C5 := (lc_bar (F := F) c 5) $$ B5
  ihave C6 := (lc_bar (F := F) c 6) $$ B6
  ihave C := (cred_succ (F := F) (barCell c) 1) $$ [C0 C1]
  · isplitl [C0] <;> iassumption
  ihave C := (cred_succ (F := F) (barCell c) 2) $$ [C C2]
  · isplitl [C] <;> iassumption
  ihave C := (cred_succ (F := F) (barCell c) 3) $$ [C C3]
  · isplitl [C] <;> iassumption
  ihave C := (cred_succ (F := F) (barCell c) 4) $$ [C C4]
  · isplitl [C] <;> iassumption
  ihave C := (cred_succ (F := F) (barCell c) 5) $$ [C C5]
  · isplitl [C] <;> iassumption
  ihave C := (cred_succ (F := F) (barCell c) 6) $$ [C C6]
  · isplitl [C] <;> iassumption
  isplitl [C]; · iexact C
  isplitl [R0]; · iapply (lc_recv (F := F) c 0); iexact R0
  isplitl [R1]; · iapply (lc_recv (F := F) c 1); iexact R1
  isplitl [R2]; · iapply (lc_recv (F := F) c 2); iexact R2
  isplitl [R3]; · iapply (lc_recv (F := F) c 3); iexact R3
  isplitl [R4]; · iapply (lc_recv (F := F) c 4); iexact R4
  isplitl [R5]; · iapply (lc_recv (F := F) c 5); iexact R5
  iapply (lc_recv (F := F) c 6); iexact R6

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := if_pos rfl
theorem lv_recv (d : Dev nD) (q : Fin 7) : lv (recvCell d q) () = 2 := by
  unfold lv; rw [if_neg (recv_ne_bar q), slotOf_recv]

theorem O₀_pos {c : Dev nD} {g : GSem nD τ sig} {u : Unit} (h : 0 < O₀ c g u) :
    (∃ p, g = barCell (peer c p)) ∨ (∃ q, g = recvCell (peer c q) q) := by
  unfold O₀ OR at h
  repeat' (rcases Pipeline.add_pos_cases h with h | h)
  all_goals first
    | exact Or.inl ⟨_, (Pipeline.tallyAt_pos h).1⟩
    | exact Or.inr ⟨_, (Pipeline.tallyAt_pos h).1⟩

theorem lv_stage : ∀ (c : Dev nD) (w : Fin cfg0.W) (s : Fin (cfg0.win w).nbuf), lv ((c : Thread nD τ), .dma ((cfg0.win w).sem s)) () = 0 := by
  intro c w s; fin_cases w; fin_cases s; rfl

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine Pipeline.mayWait_of_levAts (by rw [L_tc]; exact Finset.mem_singleton_self _) fun g i hg => ?_
      rw [lv_stage c w s]
      rcases O₀_pos hg with ⟨p, rfl⟩ | ⟨q, rfl⟩
      · exact ⟨by rw [L_tc]; exact Finset.mem_singleton_self _, by rw [lv_bar]; decide⟩
      · exact ⟨by rw [L_tc]; exact Finset.mem_singleton_self _, by rw [lv_recv]; decide⟩
    · show _ ⊢ MayWait _ _ _ 0
      rw [MayWait_zero]; iintro -; iempintro

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hw, Hv⟩, Hlev, Hcr, -, ⟨HG, Hls⟩⟩
  ihave Hc := (creds (F := F) c) $$ Hcr
  icases Hc with ⟨H1, HN⟩
  imodintro
  unfold start arrs
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

def finalArrs (c : Dev nD) : sProp 𝕄 :=
  iprop((((c : Thread nD τ).loc main_arg1) ↦{fullShare} m ((c : Thread nD τ).loc main_arg1))
    ∗ (((c : Thread nD τ).loc main_v1) ↦{fullShare} (outFinal m c : Buf (Elt F) ((c : Thread nD τ).loc main_v1))))

theorem phi1_exit (c : Dev nD) :
    (dats m 0 c).Φ (Fin.last cfg0.N) ⊢ iprop(finalArrs m c ∗ Pipeline.ownSems0 osem c ∗ Pipeline.scopedRest cfg0.spec c) := by
  rw [show (dats m 0 c).Φ (Fin.last cfg0.N) = Φ₁ m c from rfl]
  unfold Φ₁ finalArrs
  iintro ⟨Hw, Hv, Hs, Hr⟩
  isplitl [Hw Hv]
  · isplitl [Hw] <;> iassumption
  isplitl [Hs] <;> iassumption

end AtLaunch

open AtLaunch

theorem ownSemFacts : Pipeline.OwnSemFacts cfg0.spec osem := by decide

set_option maxRecDepth 40000 in
theorem run_main (ρ : Dev nD → PrngReg)
    (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c : Thread nD τ).loc main_v1) = (outFinal m c : Buf (Elt F) ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_ring m) $$ HX with HG
      imodintro
      isplitl [HP] <;> iassumption)
    (hglob := glob m)
    (hA := fun _ _ => rfl) (hpf := fun _ k => k.elim0)
    (X := start m) (Y := finalArrs m) (Z := fun _ => iprop(emp))
    (hX := start_intro m ρ) (hin := phi0_intro m) (hout := phi1_exit m)
    (QY := fun c s => s.mem ((c : Thread nD τ).loc main_v1) = (outFinal m c : Buf (Elt F) ((c : Thread nD τ).loc main_v1))
      ∧ s.mem ((c : Thread nD τ).loc main_arg1) = m ((c : Thread nD τ).loc main_arg1))
    (hY := fun c s' => by
      unfold finalArrs
      iintro ⟨⟨Hw, Hv⟩, -, HSI⟩
      icombine HSI Hw gives %hw
      icombine HSI Hv gives %hv
      imodintro
      isplitr; · ipureintro; exact ⟨Buf.eq_of_forall_mem_univ hv, Buf.eq_of_forall_mem_univ hw⟩
      iexact HSI)
    (hQ := fun s h c => ⟨(h c).2.2.1, ((h c).1 0).trans ((dats m 0 c).arrAt_in 0 rfl _), (h c).2.2.2⟩)

end Cert.Kernel.A2A

end
-- ==== Proof.Bits.Levels.lean ====
import proofs.«900798_g7700000000000799_dist_gemm_a2a_m8192_k8192_n4096_f32_relu_v7x_i8_1_alg».proof.Proof.Bits.Proto

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def OnRecv (O : CellTallies nD τ sig Unit) : Prop := ∀ (g : GSem nD τ sig) (i : Unit), 0 < O g i → g.1.2 = .tc ∧ lv g i = 2

omit [FloatOps F] in
theorem OnRecv.zero : OnRecv 0 := fun g i h => absurd h (by rw [Pi.zero_apply, Finsupp.zero_apply]; exact Nat.lt_irrefl 0)

omit [FloatOps F] in
theorem lv_recv (c : Dev nD) (q : Fin 7) (i : Unit) : lv (recvCell c q) i = 2 := by revert q; intro q; dsimp only [lv]; rw [if_neg (fun h => by cases h)]; revert q; decide

omit [FloatOps F] in
theorem OnRecv.tR (c : Dev nD) (q : Fin 7) : OnRecv (tR c q) := fun g i h => by
  rw [tallyAt_apply] at h
  by_cases hg : g = recvCell (peer c q) q ∧ i = ()
  · rw [hg.1]; exact ⟨rfl, lv_recv _ _ _⟩
  · rw [if_neg hg] at h; exact absurd h (Nat.lt_irrefl 0)

omit [FloatOps F] in
theorem OnRecv.add {A B : CellTallies nD τ sig Unit} (hA : OnRecv A) (hB : OnRecv B) : OnRecv (A + B) := fun g i h => by
  rcases Pipeline.add_pos_cases h with h | h
  · exact hA g i h
  · exact hB g i h

omit [FloatOps F] in
theorem L_tc (c : Dev nD) (sm : SemLoc sig) : L ((c : Thread nD τ), sm) = {()} := if_pos rfl

omit [FloatOps F] in
theorem mayWait_low (c : Dev nD) (s : SemLoc sig) (hs : lv ((c : Thread nD τ), s) () < 2) {O : CellTallies nD τ sig Unit} (hO : OnRecv O) :
    (levAts L lv : sProp 𝕄) ⊢ MayWait (c : Thread nD τ) s () O :=
  Pipeline.mayWait_of_levAts (by rw [L_tc]; exact Finset.mem_singleton_self _)
    (fun g i hg => ⟨by rw [L, if_pos (hO g i hg).1]; exact Finset.mem_singleton_self _, by rw [(hO g i hg).2]; exact hs⟩)

omit [FloatOps F] in
theorem lv_low (c : Dev nD) (k : DmaSem sig) (h : slotOf (SemLoc.dma k : SemLoc sig) = none) : lv ((c : Thread nD τ), SemLoc.dma k) () < 2 := by
  dsimp only [lv]; rw [if_neg (fun h => by cases h), h]; exact Nat.zero_lt_two

end Cert.Kernel.A2A

end
-- ==== Proof.Bits.Slots.lean ====
import proofs.«900798_g7700000000000799_dist_gemm_a2a_m8192_k8192_n4096_f32_relu_v7x_i8_1_alg».proof.Proof.Bits.Proto
import Idealize.ShloMosaic.Rules.PointsTo

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Parts
variable {ℓ : Loc nD τ sig} {T : Type} [Fintype T] [DecidableEq T] (S : T → Finset (Idx ℓ)) (key : Idx ℓ → T)
  (hS : ∀ t i, i ∈ S t ↔ key i = t)
include hS

-- Element sets that are the fibres of a key are pairwise disjoint and together everything; so a buffer held whole is its
-- parts held, and parts held at several contents glue to the whole at contents that agree with each on its part.
theorem parts_disjoint : ∀ t ∈ (Finset.univ : Finset T), ∀ t' ∈ (Finset.univ : Finset T), t ≠ t' → Disjoint (S t) (S t') :=
  fun t _ t' _ hne => Finset.disjoint_left.mpr fun i hi hi' => hne (((hS t i).mp hi).symm.trans ((hS t' i).mp hi'))

theorem parts_cover : (Finset.univ : Finset T).biUnion S = Finset.univ := by
  ext i
  simp only [Finset.mem_biUnion, Finset.mem_univ, true_and, iff_true]
  exact ⟨key i, (hS _ i).mpr rfl⟩

theorem parts_split (f : Buf (Elt F) ℓ) :
    (ℓ ↦{fullShare} f : sProp 𝕄) = bigSep Finset.univ fun t => ℓ ↦[S t]{fullShare} f := by
  rw [← pointsTo_biUnion _ _ (parts_disjoint S key hS), parts_cover S key hS]

theorem parts_join (fs : T → Buf (Elt F) ℓ) (f₀ : Buf (Elt F) ℓ) :
    (bigSep Finset.univ fun t => ℓ ↦[S t]{fullShare} fs t : sProp 𝕄)
      ⊢ iprop(∃ g, (ℓ ↦{fullShare} g) ∗ ⌜∀ t, ∀ i ∈ S t, g i = fs t i⌝) := by
  refine (pointsTo_biUnion_join (q := fullShare) Finset.univ S fs f₀ (parts_disjoint S key hS)).trans ?_
  rw [parts_cover S key hS]
  iintro ⟨%g, %hg, HS⟩
  iexists g
  isplitl [HS]; · iexact HS
  ipureintro; exact fun t => hg t (Finset.mem_univ t)

theorem parts_glue (fs : T → Buf (Elt F) ℓ) (f₀ : Buf (Elt F) ℓ) :
    (bigSep Finset.univ fun t => ℓ ↦[S t]{fullShare} fs t : sProp 𝕄) ⊢ iprop(∃ g, ℓ ↦{fullShare} g) := by
  refine (parts_join S key hS fs f₀).trans ?_
  iintro ⟨%g, Hg, -⟩
  iexists g; iexact Hg

end Parts

-- In a buffer of shape `n × R × C` the rectangle `1 × R × C` at `(k, 0, 0)` is the elements whose first coordinate is `k`.
theorem mem_firstSlot {n R C : ℕ} (k : Fin n)
    (inb : ∀ a, (![k.val, 0, 0] : Fin 3 → ℕ) a + (![1, R, C] : Fin 3 → ℕ) a ≤ (⟨3, ![n, R, C]⟩ : Shape).size a)
    (i : (⟨3, ![n, R, C]⟩ : Shape).Idx) :
    i ∈ (Rect.unit (s := ⟨3, ![n, R, C]⟩) ![k.val, 0, 0] ![1, R, C] inb).set ↔ (⟨(i 0).val, (i 0).isLt⟩ : Fin n) = k := by
  rw [Rect.mem_set_unit, Fin.ext_iff]
  constructor
  · intro h
    have h0 : k.val ≤ (i 0).val ∧ (i 0).val < k.val + 1 := h 0
    show (i 0).val = k.val
    omega
  · intro h a
    have h : (i 0).val = k.val := h
    match a with
    | ⟨0, _⟩ =>
      show k.val ≤ (i 0).val ∧ (i 0).val < k.val + 1
      omega
    | ⟨1, _⟩ => exact ⟨Nat.zero_le _, (Nat.zero_add _).symm ▸ (i 1).isLt⟩
    | ⟨2, _⟩ => exact ⟨Nat.zero_le _, (Nat.zero_add _).symm ▸ (i 2).isLt⟩

def slotSet (q : Fin 7) : Finset S7x1024x512.Idx :=
  (Rect.unit (s := S7x1024x512) ![q.val, 0, 0] S1x1024x512.size (slot_inb q)).set

theorem mem_slotSet (q : Fin 7) (i : S7x1024x512.Idx) : i ∈ slotSet q ↔ (⟨(i 0).val, (i 0).isLt⟩ : Fin 7) = q :=
  mem_firstSlot q (slot_inb q) i

theorem rSlot_set (q : Fin 7) : (rSlot q).view.set = slotSet q := by
  show (((View.whole cc0_scratch3).slice _).reshape _ _).set = _
  rw [View.set_reshape, View.set_slice_whole]; rfl
theorem ySlot_set (q : Fin 7) : (ySlot q).view.set = slotSet q := by
  show (((View.whole cc0_scratch2).slice _).reshape _ _).set = _
  rw [View.set_reshape, View.set_slice_whole]; rfl

theorem rPts_eq (c : Dev nD) (q : Fin 7) (f : Buf (Elt F) ((c : Thread nD τ).loc cc0_scratch3)) :
    rPts (F := F) c q f = (((c : Thread nD τ).loc cc0_scratch3) ↦[slotSet q]{fullShare} f : sProp 𝕄) := by
  unfold rPts
  rw [rSlot_set]
theorem yPts_eq (c : Dev nD) (q : Fin 7) (f : Buf (Elt F) ((c : Thread nD τ).loc cc0_scratch2)) :
    yPts (F := F) c q f = (((c : Thread nD τ).loc cc0_scratch2) ↦[slotSet q]{fullShare} f : sProp 𝕄) := by
  unfold yPts
  rw [ySlot_set]

theorem rbuf_split (c : Dev nD) (f : Buf (Elt F) ((c : Thread nD τ).loc cc0_scratch3)) :
    (((c : Thread nD τ).loc cc0_scratch3) ↦{fullShare} f : sProp 𝕄)
      ⊣⊢ iprop(rPts c 0 f ∗ rPts c 1 f ∗ rPts c 2 f ∗ rPts c 3 f ∗ rPts c 4 f ∗ rPts c 5 f ∗ rPts c 6 f) := by
  simp only [rPts_eq]
  rw [parts_split slotSet _ mem_slotSet f, bigSep_fin7]

theorem rbuf_join (c : Dev nD) (f0 f1 f2 f3 f4 f5 f6 : Buf (Elt F) ((c : Thread nD τ).loc cc0_scratch3)) :
    (iprop(rPts c 0 f0 ∗ rPts c 1 f1 ∗ rPts c 2 f2 ∗ rPts c 3 f3 ∗ rPts c 4 f4 ∗ rPts c 5 f5 ∗ rPts c 6 f6) : sProp 𝕄)
      ⊢ iprop(∃ g, ((c : Thread nD τ).loc cc0_scratch3) ↦{fullShare} g) := by
  have h := parts_glue (F := F) (ℓ := (c : Thread nD τ).loc cc0_scratch3) slotSet _ mem_slotSet ![f0, f1, f2, f3, f4, f5, f6] f0
  rw [bigSep_fin7] at h
  simp only [rPts_eq]
  exact h

theorem ybuf_split (c : Dev nD) (f : Buf (Elt F) ((c : Thread nD τ).loc cc0_scratch2)) :
    (((c : Thread nD τ).loc cc0_scratch2) ↦{fullShare} f : sProp 𝕄)
      ⊣⊢ iprop(yPts c 0 f ∗ yPts c 1 f ∗ yPts c 2 f ∗ yPts c 3 f ∗ yPts c 4 f ∗ yPts c 5 f ∗ yPts c 6 f) := by
  simp only [yPts_eq]
  rw [parts_split slotSet _ mem_slotSet f, bigSep_fin7]

theorem ybuf_join (c : Dev nD) (f0 f1 f2 f3 f4 f5 f6 : Buf (Elt F) ((c : Thread nD τ).loc cc0_scratch2)) :
    (iprop(yPts c 0 f0 ∗ yPts c 1 f1 ∗ yPts c 2 f2 ∗ yPts c 3 f3 ∗ yPts c 4 f4 ∗ yPts c 5 f5 ∗ yPts c 6 f6) : sProp 𝕄)
      ⊢ iprop(∃ g, ((c : Thread nD τ).loc cc0_scratch2) ↦{fullShare} g) := by
  have h := parts_glue (F := F) (ℓ := (c : Thread nD τ).loc cc0_scratch2) slotSet _ mem_slotSet ![f0, f1, f2, f3, f4, f5, f6] f0
  rw [bigSep_fin7] at h
  simp only [yPts_eq]
  exact h

end Cert.Kernel.A2A

end
-- ==== Proof.Bits.Remote.lean ====
import proofs.«900798_g7700000000000799_dist_gemm_a2a_m8192_k8192_n4096_f32_relu_v7x_i8_1_alg».proof.Proof.Bits.Proto
import proofs.«900798_g7700000000000799_dist_gemm_a2a_m8192_k8192_n4096_f32_relu_v7x_i8_1_alg».proof.Proof.Bits.Tables
import proofs.«900798_g7700000000000799_dist_gemm_a2a_m8192_k8192_n4096_f32_relu_v7x_i8_1_alg».proof.Proof.Bits.Levels
import proofs.«900798_g7700000000000799_dist_gemm_a2a_m8192_k8192_n4096_f32_relu_v7x_i8_1_alg».proof.Proof.Bits.Slots

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem rSlot_credit (q : Fin 7) : (rSlot q).view.amount (.dma (recvSem q)) = N := rfl
theorem wp_send_slot (K : Dev nD × Fin 15 → ℕ) (c n : Dev nD) (q : Fin 7) (hn : n = peer c q)
    {hsc : (rSlot q : Memref sig (Dev.tc n : Thread nD τ).2.kind .vmem S1024x512 .bf16).view.ref.isScScratch = false}
    {hsrc : (ySlot q : Memref sig .tc .vmem S1024x512 .bf16).view.WordExact} {hdst : (rSlot q : Memref sig .tc .vmem S1024x512 .bf16).view.WordExact}
    {hsem : DmaTarget.Typed .vmem (.dma (recvSem q)) (.remote (Dev.tc n : Thread nD τ) (rSlot q : Memref sig .tc .vmem S1024x512 .bf16) (.dma (sendSem q)) hsc)}
    {α : Type} {Q : α → sProp 𝕄} {k : PUnit → Prog (TpuEff nD τ sig (Elt F) Λ₀ .tc) α}
    (fs : Buf (Elt F) ((ySlot q).view.loc (c : Thread nD τ))) (hfs : (ySlot q).view.read (Elt F) fs = sentV m c q)
    (fd : Buf (Elt F) ((rSlot q).view.loc (peer c q : Thread nD τ)))
    (O : CellTallies nD τ sig Unit) (W : Waits sig Unit) :
    iprop(cellInv ER (sched m) (K (c, kS q)) (sendCell c q) ∗ cellInv ER (sched m) (K (peer c q, kR q)) (recvCell (peer c q) q)
        ∗ yPts c q fs ∗ rPts (peer c q) q fd
        ∗ owes (c : Thread nD τ) (O + tR c q) W
        ∗ dutyTok ER (sendCell c q) 0 (0 : Fin 7) ∗ reached ER (sendCell c q) 0
        ∗ dutyTok ER (recvCell (peer c q) q) 0 (0 : Fin 7) ∗ reached ER (recvCell (peer c q) q) 0)
      ⊢ iprop(((cred (tallyAt (sendCell c q) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ySlot q) (.remote (Dev.tc n : Thread nD τ) (rSlot q) (.dma (sendSem q)) hsc) (.dma (recvSem q)) hsrc hdst hsem) k) Q) := by
  subst hn
  unfold yPts rPts
  exact Rounds.wp_send_pointsTo 𝒱₀ ER (sched m) (c : Thread nD τ) none (κ₁ := K (c, kS q)) (κ₂ := K (peer c q, kR q))
    (r₁ := 0) (r₂ := 0) (d₁ := (0 : Fin 7)) (d₂ := (0 : Fin 7)) (fs := fs) (fd := fd)
    (by rw [duties_send]; exact Finset.mem_singleton_self _) (by rw [duties_recv]; exact Finset.mem_singleton_self _)
    () () N (rSlot_credit q) (amount_send m c q 0) (amount_recv m (peer c q) q 0) O rfl (W := W)
    (by
      rw [payload_send]; unfold sendPay yPts
      iintro H
      iexists fs
      isplitl [H]; · iexact H
      ipureintro; exact hfs)
    (by
      rw [payload_recv_peer]; unfold rPts
      iintro H
      iexists _
      isplitl [H]; · iexact H
      ipureintro
      rw [View.read_write_univ]; exact hfs)

theorem wp_send_slot' (K : Dev nD × Fin 15 → ℕ) (c n : Dev nD) (q : Fin 7) (hn : n = peer c q)
    {hsc : (rSlot q : Memref sig (Dev.tc n : Thread nD τ).2.kind .vmem S1024x512 .bf16).view.ref.isScScratch = false}
    {hsrc : (ySlot q : Memref sig .tc .vmem S1024x512 .bf16).view.WordExact} {hdst : (rSlot q : Memref sig .tc .vmem S1024x512 .bf16).view.WordExact}
    {hsem : DmaTarget.Typed .vmem (.dma (recvSem q)) (.remote (Dev.tc n : Thread nD τ) (rSlot q : Memref sig .tc .vmem S1024x512 .bf16) (.dma (sendSem q)) hsc)}
    {α : Type} {Q : α → sProp 𝕄} {k : PUnit → Prog (TpuEff nD τ sig (Elt F) Λ₀ .tc) α}
    (fs : Buf (Elt F) ((ySlot q).view.loc (c : Thread nD τ))) (hfs : (ySlot q).view.read (Elt F) fs = sentV m c q)
    (fd : Buf (Elt F) ((rSlot q).view.loc (peer c q : Thread nD τ)))
    (O : CellTallies nD τ sig Unit) (W : Waits sig Unit) :
    ⊢ (iprop(cellInv ER (sched m) (K (c, kS q)) (sendCell c q) -∗ cellInv ER (sched m) (K (peer c q, kR q)) (recvCell (peer c q) q)
        -∗ yPts c q fs -∗ rPts (peer c q) q fd
        -∗ owes (c : Thread nD τ) (O + tR c q) W
        -∗ dutyTok ER (sendCell c q) 0 (0 : Fin 7) -∗ reached ER (sendCell c q) 0
        -∗ dutyTok ER (recvCell (peer c q) q) 0 (0 : Fin 7) -∗ reached ER (recvCell (peer c q) q) 0
        -∗ ((cred (tallyAt (sendCell c q) () N) ∗ owes (c : Thread nD τ) O W) -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma (ySlot q) (.remote (Dev.tc n : Thread nD τ) (rSlot q) (.dma (sendSem q)) hsc) (.dma (recvSem q)) hsrc hdst hsem) k) Q) : sProp 𝕄) := by
  iintro #HI1 #HI2 Hy Hr HO Ht1 #Hr1 Ht2 #Hr2 Hk
  iapply (wp_send_slot m K c n q hn fs hfs fd O W) $$ [Hy Hr HO Ht1 Ht2] Hk
  isplitr; · iexact HI1
  isplitr; · iexact HI2
  isplitl [Hy]; · iexact Hy
  isplitl [Hr]; · iexact Hr
  isplitl [HO]; · iexact HO
  isplitl [Ht1]; · iexact Ht1
  isplitr; · iexact Hr1
  isplitl [Ht2]; · iexact Ht2
  iexact Hr2

theorem rest_bar (c : Dev nD) :
    bigSep ((sched (F := F) m).duties (barCell c) 0 \ ∅) (fun d => (sched (F := F) m).payload (barCell c) 0 d)
      = iprop(barPay (F := F) c 0 ∗ barPay c 1 ∗ barPay c 2 ∗ barPay c 3 ∗ barPay c 4 ∗ barPay c 5 ∗ barPay c 6) := by
  rw [duties_bar, Finset.sdiff_empty, bigSep_fin7]
  simp only [payload_bar]

theorem close_cell (κ : ℕ) (g : GSem nD τ sig) :
    ⊢ (iprop(cellInv ER (sched m) κ g -∗ atPos ER g 1 ∅ 0 -∗ |={Set.univ}=> semVal g 0) : sProp 𝕄) := by
  iintro #HI Hat
  iapply (Rounds.cell_close ER (sched m) (Set.mem_univ κ) (fun h => h) (R := 0 + 1) (duties_later m g))
  isplitr; · iexact HI
  iexact Hat

end Cert.Kernel.A2A

end
-- ==== Proof.Bits.SlotOps.lean ====
import proofs.«900798_g7700000000000799_dist_gemm_a2a_m8192_k8192_n4096_f32_relu_v7x_i8_1_alg».proof.Proof.Bits.Proto
import proofs.«900798_g7700000000000799_dist_gemm_a2a_m8192_k8192_n4096_f32_relu_v7x_i8_1_alg».proof.Proof.Bits.Slots
import Idealize.ShloMosaic.Rules.Step
import Idealize.ShloMosaic.Lib.Pipeline.Value

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev slotRect (q : Fin 7) : Rect S7x1024x512 := Rect.unit (s := S7x1024x512) ![q.val, 0, 0] S1x1024x512.size (slot_inb q)

omit [FloatOps F] in
theorem access_set_y (q : Fin 7) : ((Memref.whole cc0_scratch2).access (slotRect q) : View sig .tc _ _ _).set = slotSet q :=
  View.set_slice_whole _ _
omit [FloatOps F] in
theorem access_set_r (q : Fin 7) : ((Memref.whole cc0_scratch3).access (slotRect q) : View sig .tc _ _ _).set = slotSet q :=
  View.set_slice_whole _ _

def yLoaded (c : Dev nD) (q : Fin 7) (f : Buf (Elt F) ((ySlot q).view.loc (c : Thread nD τ))) : FVec F S1x1024x512 .bf16 :=
  ((Memref.whole cc0_scratch2).access (slotRect q) : View sig .tc _ _ _).read (Elt F) f

theorem wp_load_yslot (c : Dev nD) (q : Fin 7) (f : Buf (Elt F) ((ySlot q).view.loc (c : Thread nD τ)))
    {hl : (Memref.whole cc0_scratch2 : Memref sig .tc .vmem S7x1024x512 .bf16).view.LoadsAt (slotRect q).toLoadRect}
    {α : Type} {Q : α → sProp 𝕄} {k : FVec F S1x1024x512 .bf16 → Prog (TpuEff nD τ sig (Elt F) Λ₀ .tc) α} :
    ⊢ (iprop(yPts c q f -∗ (yPts c q f -∗ wp frame (wpE (defs₀ (F := F)) 𝒱₀ (c : Thread nD τ) none) Set.univ (k (yLoaded c q f)) Q)
        -∗ wp frame (wpE (defs₀ (F := F)) 𝒱₀ (c : Thread nD τ) none) Set.univ (.op (.load (Memref.whole cc0_scratch2) (slotRect q).toLoadRect hl) k) Q) : sProp 𝕄) :=
  entails_wand (by
    rw [yPts_eq]
    exact wp_load_rect 𝒱₀ (c : Thread nD τ) none Set.univ (m := Memref.whole cc0_scratch2) (r := slotRect q)
      (by rw [access_set_y]))

def stored (c : Dev nD) (q : Fin 7) (f : Buf (Elt F) ((ySlot q).view.loc (c : Thread nD τ))) (v : FVec F S1x1024x512 .bf16) :
    Buf (Elt F) ((ySlot q).view.loc (c : Thread nD τ)) :=
  ((Memref.whole cc0_scratch2).access (slotRect q) : View sig .tc _ _ _).write (Elt F) f v Finset.univ

theorem wp_store_yslot (c : Dev nD) (q : Fin 7) (f : Buf (Elt F) ((ySlot q).view.loc (c : Thread nD τ))) (v : FVec F S1x1024x512 .bf16)
    {hst : ((Memref.whole cc0_scratch2 : Memref sig .tc .vmem S7x1024x512 .bf16).access (slotRect q)).Stores Finset.univ}
    {hm : (Finset.univ : Finset (slotRect q).shape.Idx) = Finset.univ ∨ ∀ a, (slotRect q).stride a = 1}
    {α : Type} {Q : α → sProp 𝕄} {k : PUnit → Prog (TpuEff nD τ sig (Elt F) Λ₀ .tc) α} :
    ⊢ (iprop(yPts c q f -∗ (yPts c q (stored c q f v) -∗ wp frame (wpE (defs₀ (F := F)) 𝒱₀ (c : Thread nD τ) none) Set.univ (k ⟨⟩) Q)
        -∗ wp frame (wpE (defs₀ (F := F)) 𝒱₀ (c : Thread nD τ) none) Set.univ (.op (.store (Memref.whole cc0_scratch2) (slotRect q) v Finset.univ hst hm) k) Q) : sProp 𝕄) :=
  entails_wand (by
    rw [yPts_eq, yPts_eq]
    exact wp_store 𝒱₀ (c : Thread nD τ) none Set.univ (m := Memref.whole cc0_scratch2) (r := slotRect q)
      (by rw [View.setOn_univ, access_set_y]))

theorem read_stored (c : Dev nD) (q : Fin 7) (f : Buf (Elt F) ((ySlot q).view.loc (c : Thread nD τ))) (w : FVec F S1024x512 .bf16) :
    (ySlot q).view.read (Elt F) (stored c q f (shapeCast S1x1024x512 w Gen.shapeCasts_S1024x512_S1x1024x512)) = w := by
  show shapeCast S1024x512 (((Memref.whole cc0_scratch2).access (slotRect q) : View sig .tc _ _ _).read (Elt F)
      (stored c q f (shapeCast S1x1024x512 w Gen.shapeCasts_S1024x512_S1x1024x512))) Gen.shapeCasts_S1x1024x512_S1024x512 = w
  unfold stored
  rw [View.read_write_univ]
  exact shapeCast_shapeCast w _ _

def rLoaded (c : Dev nD) (q : Fin 7) (g : Buf (Elt F) ((rSlot q).view.loc (c : Thread nD τ))) : FVec F S1x1024x512 .bf16 :=
  ((Memref.whole cc0_scratch3).access (slotRect q) : View sig .tc _ _ _).read (Elt F) g

theorem wp_load_rslot (c : Dev nD) (q : Fin 7) (g : Buf (Elt F) ((rSlot q).view.loc (c : Thread nD τ)))
    {hl : (Memref.whole cc0_scratch3 : Memref sig .tc .vmem S7x1024x512 .bf16).view.LoadsAt (slotRect q).toLoadRect}
    {α : Type} {Q : α → sProp 𝕄} {k : FVec F S1x1024x512 .bf16 → Prog (TpuEff nD τ sig (Elt F) Λ₀ .tc) α} :
    ⊢ (iprop(rPts c q g -∗ (rPts c q g -∗ wp frame (wpE (defs₀ (F := F)) 𝒱₀ (c : Thread nD τ) none) Set.univ (k (rLoaded c q g)) Q)
        -∗ wp frame (wpE (defs₀ (F := F)) 𝒱₀ (c : Thread nD τ) none) Set.univ (.op (.load (Memref.whole cc0_scratch3) (slotRect q).toLoadRect hl) k) Q) : sProp 𝕄) :=
  entails_wand (by
    rw [rPts_eq]
    exact wp_load_rect 𝒱₀ (c : Thread nD τ) none Set.univ (m := Memref.whole cc0_scratch3) (r := slotRect q)
      (by rw [access_set_r]))

theorem loaded_rslot (c : Dev nD) (q : Fin 7) (g : Buf (Elt F) ((rSlot q).view.loc (c : Thread nD τ))) :
    shapeCast S1024x512 (rLoaded c q g) Gen.shapeCasts_S1x1024x512_S1024x512 = (rSlot q).view.read (Elt F) g := rfl

end Cert.Kernel.A2A

end
-- ==== Proof.Bits.WTiles.lean ====
import proofs.«900798_g7700000000000799_dist_gemm_a2a_m8192_k8192_n4096_f32_relu_v7x_i8_1_alg».proof.Proof.Bits.Proto
import proofs.«900798_g7700000000000799_dist_gemm_a2a_m8192_k8192_n4096_f32_relu_v7x_i8_1_alg».proof.Proof.Bits.Tables
import proofs.«900798_g7700000000000799_dist_gemm_a2a_m8192_k8192_n4096_f32_relu_v7x_i8_1_alg».proof.Proof.Bits.Levels
import proofs.«900798_g7700000000000799_dist_gemm_a2a_m8192_k8192_n4096_f32_relu_v7x_i8_1_alg».proof.Proof.Bits.Slots
import proofs.«900798_g7700000000000799_dist_gemm_a2a_m8192_k8192_n4096_f32_relu_v7x_i8_1_alg».proof.Proof.Bits.Arith
import proofs.«900798_g7700000000000799_dist_gemm_a2a_m8192_k8192_n4096_f32_relu_v7x_i8_1_alg».proof.Proof.Bits.Spec
import Idealize.ShloMosaic.Rules.Step
import Idealize.ShloMosaic.Rules.PointsTo
import Idealize.ShloMosaic.Lib.Transfers
import Idealize.ShloMosaic.Lib.Pipeline.Value

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem wslot_inb : ∀ (k : Fin 2) (a : Fin 3), (![k.val, 0, 0] : Fin 3 → Nat) a + S1x2048x512.size a ≤ S2x2048x512.size a := by decide

abbrev wslotRect (k : Fin 2) : Rect S2x2048x512 := Rect.unit (s := S2x2048x512) ![k.val, 0, 0] S1x2048x512.size (wslot_inb k)
abbrev wSlot (k : Fin 2) : Memref sig .tc .vmem S2048x512 .f32 :=
  ((Memref.whole cc0_scratch0).slice (wslotRect k) (fun _ => rfl)).squeeze S2048x512 Gen.squeezes_S1x2048x512_S2048x512
abbrev wSem (k : Fin 2) : DmaSem sig := ⟨1 + k.val, by have := k.isLt; show 1 + k.val < 19; omega⟩

def wslotSet (k : Fin 2) : Finset S2x2048x512.Idx := (wslotRect k).set

theorem mem_wslotSet (k : Fin 2) (i : S2x2048x512.Idx) : i ∈ wslotSet k ↔ (⟨(i 0).val, (i 0).isLt⟩ : Fin 2) = k :=
  mem_firstSlot k (wslot_inb k) i

omit [FloatOps F] in
theorem wSlot_set (k : Fin 2) : (wSlot k).view.set = wslotSet k := by
  show (((View.whole cc0_scratch0).slice _).reshape _ _).set = _
  rw [View.set_reshape, View.set_slice_whole]; rfl

omit [FloatOps F] in
theorem waccess_set (k : Fin 2) : ((Memref.whole cc0_scratch0).access (wslotRect k) : View sig .tc _ _ _).set = wslotSet k :=
  View.set_slice_whole _ _

def wPts (c : Dev nD) (k : Fin 2) (f : Buf (Elt F) ((wSlot k).view.loc (c : Thread nD τ))) : sProp 𝕄 :=
  (wSlot k).view.loc (c : Thread nD τ) ↦[(wSlot k).view.set]{fullShare} f

theorem wPts_eq (c : Dev nD) (k : Fin 2) (f : Buf (Elt F) ((c : Thread nD τ).loc cc0_scratch0)) :
    wPts (F := F) c k f = (((c : Thread nD τ).loc cc0_scratch0) ↦[wslotSet k]{fullShare} f : sProp 𝕄) := by
  unfold wPts
  rw [wSlot_set]

theorem wbuf_split (c : Dev nD) (f : Buf (Elt F) ((c : Thread nD τ).loc cc0_scratch0)) :
    (((c : Thread nD τ).loc cc0_scratch0) ↦{fullShare} f : sProp 𝕄) ⊣⊢ iprop(wPts c 0 f ∗ wPts c 1 f) := by
  rw [wPts_eq, wPts_eq, parts_split wslotSet _ mem_wslotSet f, bigSep_fin_two]
  exact ⟨.refl, .refl⟩

theorem wbuf_join (c : Dev nD) (f0 f1 : Buf (Elt F) ((c : Thread nD τ).loc cc0_scratch0)) :
    (iprop(wPts c 0 f0 ∗ wPts c 1 f1) : sProp 𝕄) ⊢ iprop(∃ g, ((c : Thread nD τ).loc cc0_scratch0) ↦{fullShare} g) := by
  have h := parts_glue (F := F) (ℓ := (c : Thread nD τ).loc cc0_scratch0) wslotSet _ mem_wslotSet ![f0, f1] f0
  rw [bigSep_fin_two] at h
  rw [wPts_eq, wPts_eq]
  exact h

abbrev half (h : Bool) : PosShare TreeShare := cond h fullShare.right fullShare.left

def aPts (c : Dev nD) (h : Bool) : sProp 𝕄 :=
  ((c : Thread nD τ).loc main_arg1) ↦{half h} m ((c : Thread nD τ).loc main_arg1)

theorem arg1_split (c : Dev nD) :
    ((((c : Thread nD τ).loc main_arg1) ↦{fullShare} m ((c : Thread nD τ).loc main_arg1)) : sProp 𝕄)
      ⊣⊢ iprop(aPts m c false ∗ aPts m c true) :=
  pointsTo_share (PosShare.mem_left_op_right fullShare)

abbrev wSrc (off : Fin 2 → Nat) (inb : ∀ a, off a + S2048x512.size a ≤ S8192x4096.size a) : Memref sig .tc .hbm S2048x512 .f32 :=
  (Memref.whole main_arg1).slice (Rect.unit (s := S8192x4096) off S2048x512.size inb) (fun _ => rfl)

abbrev Nw : ℕ := (wSlot 0).view.dmaCredit
omit [FloatOps F] in
theorem wSlot_dmaCredit (k : Fin 2) : (wSlot k).view.dmaCredit = Nw := rfl
omit [FloatOps F] in
theorem Nw_pos : 0 < Nw := View.dmaCredit_pos _ (by decide)

omit [FloatOps F] in
theorem slotOf_wSem (k : Fin 2) : slotOf (SemLoc.dma (wSem k) : SemLoc sig) = none := by revert k; decide

def wLanded (c : Dev nD) (k : Fin 2) (off : Fin 2 → Nat) (inb : ∀ a, off a + S2048x512.size a ≤ S8192x4096.size a)
    (fd : Buf (Elt F) ((wSlot k).view.loc (c : Thread nD τ))) : Buf (Elt F) ((wSlot k).view.loc (c : Thread nD τ)) :=
  (wSlot k).view.write (Elt F) fd ((wSrc off inb).view.read (Elt F) (m ((c : Thread nD τ).loc main_arg1))) Finset.univ

def wFlight (c : Dev nD) (k : Fin 2) (h : Bool) (off : Fin 2 → Nat) (inb : ∀ a, off a + S2048x512.size a ≤ S8192x4096.size a)
    (fd : Buf (Elt F) ((wSlot k).view.loc (c : Thread nD τ))) : sProp 𝕄 :=
  iprop(Transfers.Flight countersEmb (c : Thread nD τ) (.dma (wSem k)) () Nw
      iprop(((wSlot k).view.loc (c : Thread nD τ) ↦[(wSlot k).view.set]{fullShare} wLanded m c k off inb fd)
        ∗ ((wSrc off inb).view.loc (c : Thread nD τ) ↦[(wSrc off inb).view.set]{half h} m ((c : Thread nD τ).loc main_arg1)))
    ∗ (((c : Thread nD τ).loc main_arg1) ↦[Finset.univ \ (wSrc off inb).view.set]{half h} m ((c : Thread nD τ).loc main_arg1)))

theorem wp_wtile_start (c : Dev nD) (k : Fin 2) (sm : DmaSem sig) (hsm : sm = wSem k) (h : Bool) (off : Fin 2 → Nat)
    (inb : ∀ a, off a + S2048x512.size a ≤ S8192x4096.size a) (fd : Buf (Elt F) ((wSlot k).view.loc (c : Thread nD τ)))
    {hs : (wSrc off inb).view.WordExact} {hd : (wSlot k : Memref sig .tc .vmem S2048x512 .f32).view.WordExact}
    {hsem : DmaTarget.Typed (nD := nD) (τ := τ) (p := .tc) .hbm (.dma sm) (.here (wSlot k))}
    {α : Type} {Q : α → sProp 𝕄} {k' : PUnit → Prog (TpuEff nD τ sig (Elt F) Λ₀ .tc) α} :
    ⊢ (iprop(wPts c k fd -∗ aPts m c h -∗ semVal ((c : Thread nD τ), SemLoc.dma sm) 0
        -∗ (wFlight m c k h off inb fd -∗ wp frame (wpE (defs₀ (F := F)) 𝒱₀ (c : Thread nD τ) none) Set.univ (k' ⟨⟩) Q)
        -∗ wp frame (wpE (defs₀ (F := F)) 𝒱₀ (c : Thread nD τ) none) Set.univ (.op (.enqueueDma (wSrc off inb) (.here (wSlot k)) (.dma sm) hs hd hsem) k') Q) : sProp 𝕄) := by
  subst hsm
  unfold wPts aPts wFlight
  iintro Hd Ha Hv Hk
  ihave Ha2 := (pointsTo_split_subset (Finset.subset_univ ((wSrc off inb).view.set))).1 $$ Ha
  icases Ha2 with ⟨Hs, Hrest⟩
  iapply (Transfers.wp_dmaLocal countersEmb 𝒱₀ (c : Thread nD τ) none (src := wSrc off inb) (dst := wSlot k) (via := .same)
      (fs := m ((c : Thread nD τ).loc main_arg1)) (fd := fd) (Sd := (wSlot k).view.set) (q := half h)
      () Nw rfl Nw_pos subset_rfl) $$ [Hs Hd Hv]
  · isplitl [Hs]; · iexact Hs
    isplitl [Hd]; · iexact Hd
    iexact Hv
  iintro HF
  iapply Hk
  isplitl [HF]; · iexact HF
  iexact Hrest

theorem wp_wtile_wait (c : Dev nD) (k : Fin 2) (sm : DmaSem sig) (hsm : sm = wSem k) (h : Bool) (off : Fin 2 → Nat)
    (inb : ∀ a, off a + S2048x512.size a ≤ S8192x4096.size a)
    (fd : Buf (Elt F) ((wSlot k).view.loc (c : Thread nD τ))) (O : CellTallies nD τ sig Unit) (hO : OnRecv O) (W : Waits sig Unit)
    {sp' : Space} {s' : Shape} {e' : EltTy} {srcw : Memref sig .tc sp' s' e'}
    {hsrc : srcw.view.WordExact} {hdst : (wSlot k : Memref sig .tc .vmem S2048x512 .f32).view.WordExact}
    {α : Type} {Q : α → sProp 𝕄} {k' : PUnit → Prog (TpuEff nD τ sig (Elt F) Λ₀ .tc) α} :
    ⊢ (iprop(wFlight m c k h off inb fd -∗ owes (c : Thread nD τ) O W -∗ levAts L lv
        -∗ ((wPts c k (wLanded m c k off inb fd) ∗ aPts m c h ∗ semVal ((c : Thread nD τ), SemLoc.dma sm) 0
              ∗ owes (c : Thread nD τ) O (insert (SemLoc.dma sm, ()) W))
            -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sm srcw (wSlot k) hsrc hdst) k') Q) : sProp 𝕄) := by
  subst hsm
  unfold wFlight wPts aPts
  iintro ⟨HF, Hrest⟩ HO #Hlev Hk
  iapply (Transfers.wp_waitLocalO countersEmb 𝒱₀ (c : Thread nD τ) none () (wSlot_dmaCredit k)) $$ [HF HO]
  · isplitl [HF]; · iexact HF
    isplitl [HO]; · iexact HO
    iapply (mayWait_low c (.dma (wSem k)) (lv_low c (wSem k) (slotOf_wSem k)) hO); iexact Hlev
  iintro ⟨⟨Hd, Hs⟩, Hv, HO⟩
  iapply Hk
  isplitl [Hd]; · iexact Hd
  isplitl [Hs Hrest]
  · iapply (pointsTo_split_subset (Finset.subset_univ ((wSrc off inb).view.set))).2
    isplitl [Hs]; · iexact Hs
    iexact Hrest
  isplitl [Hv]; · iexact Hv
  iexact HO

def wLoaded (c : Dev nD) (k : Fin 2) (f : Buf (Elt F) ((wSlot k).view.loc (c : Thread nD τ))) : FVec F S1x2048x512 .f32 :=
  ((Memref.whole cc0_scratch0).access (wslotRect k) : View sig .tc _ _ _).read (Elt F) f

theorem wp_load_wslot (c : Dev nD) (k : Fin 2) (f : Buf (Elt F) ((wSlot k).view.loc (c : Thread nD τ)))
    {hl : (Memref.whole cc0_scratch0 : Memref sig .tc .vmem S2x2048x512 .f32).view.LoadsAt (wslotRect k).toLoadRect}
    {α : Type} {Q : α → sProp 𝕄} {k' : FVec F S1x2048x512 .f32 → Prog (TpuEff nD τ sig (Elt F) Λ₀ .tc) α} :
    ⊢ (iprop(wPts c k f -∗ (wPts c k f -∗ wp frame (wpE (defs₀ (F := F)) 𝒱₀ (c : Thread nD τ) none) Set.univ (k' (wLoaded c k f)) Q)
        -∗ wp frame (wpE (defs₀ (F := F)) 𝒱₀ (c : Thread nD τ) none) Set.univ (.op (.load (Memref.whole cc0_scratch0) (wslotRect k).toLoadRect hl) k') Q) : sProp 𝕄) :=
  entails_wand (by
    rw [wPts_eq]
    exact wp_load_rect 𝒱₀ (c : Thread nD τ) none Set.univ (m := Memref.whole cc0_scratch0) (r := wslotRect k)
      (by rw [waccess_set]))

theorem wSlot_read_loaded (c : Dev nD) (k : Fin 2) (g : Buf (Elt F) ((wSlot k).view.loc (c : Thread nD τ))) :
    shapeCast S2048x512 (wLoaded c k g) Gen.shapeCasts_S1x2048x512_S2048x512 = (wSlot k).view.read (Elt F) g := rfl

theorem wtile_value (c : Dev nD) (k : Fin 2) (t : Fin 4) (j : Fin 8) (off : Fin 2 → Nat)
    (inb : ∀ a, off a + S2048x512.size a ≤ S8192x4096.size a) (h0 : off 0 = t.val * 2048) (h1 : off 1 = j.val * 512)
    (fd : Buf (Elt F) ((wSlot k).view.loc (c : Thread nD τ))) :
    shapeCast S2048x512 (wLoaded c k (wLanded m c k off inb fd)) Gen.shapeCasts_S1x2048x512_S2048x512
      = Spec.wTile (wOf m c) t j := by
  rw [wSlot_read_loaded]
  unfold wLanded
  rw [View.read_write_univ]
  funext i
  unfold Spec.wTile wOf
  show m ((c : Thread nD τ).loc main_arg1) ((Rect.unit (s := S8192x4096) off S2048x512.size inb).emb i) = _
  refine congrArg (m ((c : Thread nD τ).loc main_arg1)) (funext fun a => Fin.ext ?_)
  match a with
  | ⟨0, _⟩ =>
    show off 0 + 1 * (i 0).val = t.val * 2048 + (i 0).val
    rw [h0, Nat.one_mul]
  | ⟨1, _⟩ =>
    show off 1 + 1 * (i 1).val = j.val * 512 + (i 1).val
    rw [h1, Nat.one_mul]

theorem wtile_value1 (c : Dev nD) (k : Fin 2) (r : Fin 8) (w : BitVec 32) (hw : w = BitVec.ofNat 32 r.val)
    (inb : ∀ a, (k0_off1 c w) a + S2048x512.size a ≤ S8192x4096.size a) (fd : Buf (Elt F) ((wSlot k).view.loc (c : Thread nD τ))) :
    shapeCast S2048x512 (wLoaded c k (wLanded m c k (k0_off1 c w) inb fd)) Gen.shapeCasts_S1x2048x512_S2048x512
      = Spec.wTile (wOf m c) 0 ⟨(c.val + r.val) % 8, Nat.mod_lt _ (by decide)⟩ := by
  subst hw
  exact wtile_value m c k 0 _ _ inb (by rw [k0_off1_eq]; rfl) (by rw [k0_off1_eq]; rfl) fd
theorem wtile_value2 (c : Dev nD) (k : Fin 2) (r : Fin 8) (w : BitVec 32) (hw : w = BitVec.ofNat 32 r.val)
    (inb : ∀ a, (k0_off2 c w) a + S2048x512.size a ≤ S8192x4096.size a) (fd : Buf (Elt F) ((wSlot k).view.loc (c : Thread nD τ))) :
    shapeCast S2048x512 (wLoaded c k (wLanded m c k (k0_off2 c w) inb fd)) Gen.shapeCasts_S1x2048x512_S2048x512
      = Spec.wTile (wOf m c) 1 ⟨(c.val + r.val) % 8, Nat.mod_lt _ (by decide)⟩ := by
  subst hw
  exact wtile_value m c k 1 _ _ inb (by rw [k0_off2_eq]; rfl) (by rw [k0_off2_eq]; rfl) fd
theorem wtile_value3 (c : Dev nD) (k : Fin 2) (r : Fin 8) (w : BitVec 32) (hw : w = BitVec.ofNat 32 r.val)
    (inb : ∀ a, (k0_off3 c w) a + S2048x512.size a ≤ S8192x4096.size a) (fd : Buf (Elt F) ((wSlot k).view.loc (c : Thread nD τ))) :
    shapeCast S2048x512 (wLoaded c k (wLanded m c k (k0_off3 c w) inb fd)) Gen.shapeCasts_S1x2048x512_S2048x512
      = Spec.wTile (wOf m c) 2 ⟨(c.val + r.val) % 8, Nat.mod_lt _ (by decide)⟩ := by
  subst hw
  exact wtile_value m c k 2 _ _ inb (by rw [k0_off3_eq]; rfl) (by rw [k0_off3_eq]; rfl) fd
theorem wtile_value4 (c : Dev nD) (k : Fin 2) (r : Fin 8) (w : BitVec 32) (hw : w = BitVec.ofNat 32 r.val)
    (inb : ∀ a, (k0_off4 c w) a + S2048x512.size a ≤ S8192x4096.size a) (fd : Buf (Elt F) ((wSlot k).view.loc (c : Thread nD τ))) :
    shapeCast S2048x512 (wLoaded c k (wLanded m c k (k0_off4 c w) inb fd)) Gen.shapeCasts_S1x2048x512_S2048x512
      = Spec.wTile (wOf m c) 3 ⟨(c.val + r.val) % 8, Nat.mod_lt _ (by decide)⟩ := by
  subst hw
  exact wtile_value m c k 3 _ _ inb (by rw [k0_off4_eq]; rfl) (by rw [k0_off4_eq]; rfl) fd

end Cert.Kernel.A2A

end
-- ==== Proof.Bits.OutPath.lean ====
import proofs.«900798_g7700000000000799_dist_gemm_a2a_m8192_k8192_n4096_f32_relu_v7x_i8_1_alg».proof.Proof.Bits.Proto
import proofs.«900798_g7700000000000799_dist_gemm_a2a_m8192_k8192_n4096_f32_relu_v7x_i8_1_alg».proof.Proof.Bits.Tables
import proofs.«900798_g7700000000000799_dist_gemm_a2a_m8192_k8192_n4096_f32_relu_v7x_i8_1_alg».proof.Proof.Bits.Levels
import proofs.«900798_g7700000000000799_dist_gemm_a2a_m8192_k8192_n4096_f32_relu_v7x_i8_1_alg».proof.Proof.Bits.Slots
import proofs.«900798_g7700000000000799_dist_gemm_a2a_m8192_k8192_n4096_f32_relu_v7x_i8_1_alg».proof.Proof.Bits.Arith
import proofs.«900798_g7700000000000799_dist_gemm_a2a_m8192_k8192_n4096_f32_relu_v7x_i8_1_alg».proof.Proof.Bits.Spec
import Idealize.ShloMosaic.Rules.PointsTo
import Idealize.ShloMosaic.Rules.Step
import Idealize.ShloMosaic.Lib.Pipeline.Value
import Idealize.ShloMosaic.Lib.Transfers

noncomputable section

namespace Cert.Kernel.A2A

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem sslot_inb : ∀ (k : Fin 2) (a : Fin 3), (![k.val, 0, 0] : Fin 3 → Nat) a + S1x1024x512.size a ≤ S2x1024x512.size a := by decide

abbrev sRect (k : Fin 2) : Rect S2x1024x512 := Rect.unit (s := S2x1024x512) ![k.val, 0, 0] S1x1024x512.size (sslot_inb k)
abbrev sSlot (k : Fin 2) : Memref sig .tc .vmem S1024x512 .f32 :=
  ((Memref.whole cc0_scratch4).slice (sRect k) (fun _ => rfl)).squeeze S1024x512 Gen.squeezes_S1x1024x512_S1024x512

def sPts (c : Dev nD) (k : Fin 2) (f : Buf (Elt F) ((sSlot k).view.loc (c : Thread nD τ))) : sProp 𝕄 :=
  (sSlot k).view.loc (c : Thread nD τ) ↦[(sSlot k).view.set]{fullShare} f

def stageSet (k : Fin 2) : Finset S2x1024x512.Idx := (sRect k).set

theorem mem_stageSet (k : Fin 2) (i : S2x1024x512.Idx) : i ∈ stageSet k ↔ (⟨(i 0).val, (i 0).isLt⟩ : Fin 2) = k :=
  mem_firstSlot k (sslot_inb k) i

theorem sSlot_set (k : Fin 2) : (sSlot k).view.set = stageSet k := by
  show (((View.whole cc0_scratch4).slice _).reshape _ _).set = _
  rw [View.set_reshape, View.set_slice_whole]; rfl

theorem sPts_eq (c : Dev nD) (k : Fin 2) (f : Buf (Elt F) ((c : Thread nD τ).loc cc0_scratch4)) :
    sPts (F := F) c k f = (((c : Thread nD τ).loc cc0_scratch4) ↦[stageSet k]{fullShare} f : sProp 𝕄) := by
  unfold sPts
  rw [sSlot_set]

theorem sbuf_split (c : Dev nD) (f : Buf (Elt F) ((c : Thread nD τ).loc cc0_scratch4)) :
    (((c : Thread nD τ).loc cc0_scratch4) ↦{fullShare} f : sProp 𝕄) ⊣⊢ iprop(sPts c 0 f ∗ sPts c 1 f) := by
  rw [sPts_eq, sPts_eq, parts_split stageSet _ mem_stageSet f, bigSep_univ_two]

theorem sbuf_join (c : Dev nD) (f0 f1 : Buf (Elt F) ((c : Thread nD τ).loc cc0_scratch4)) :
    (iprop(sPts c 0 f0 ∗ sPts c 1 f1) : sProp 𝕄) ⊢ iprop(∃ g, ((c : Thread nD τ).loc cc0_scratch4) ↦{fullShare} g) := by
  have h := parts_glue (F := F) (ℓ := (c : Thread nD τ).loc cc0_scratch4) stageSet _ mem_stageSet ![f0, f1] f0
  rw [bigSep_univ_two] at h
  rw [sPts_eq, sPts_eq]
  exact h

theorem oblk_inb : ∀ (b : Fin 8) (a : Fin 2), (![b.val * 1024, 0] : Fin 2 → Nat) a + S1024x512.size a ≤ S8192x512.size a := by decide

abbrev oRect (b : Fin 8) : Rect S8192x512 := Rect.unit (s := S8192x512) ![b.val * 1024, 0] S1024x512.size (oblk_inb b)
abbrev oBlk (b : Fin 8) : Memref sig .tc .hbm S1024x512 .f32 := (Memref.whole main_v1).slice (oRect b) (fun _ => rfl)

def oPts (c : Dev nD) (b : Fin 8) (f : Buf (Elt F) ((oBlk b).view.loc (c : Thread nD τ))) : sProp 𝕄 :=
  (oBlk b).view.loc (c : Thread nD τ) ↦[(oBlk b).view.set]{fullShare} f

def oSet (b : Fin 8) : Finset S8192x512.Idx := (oRect b).set

theorem mem_oSet {b : Fin 8} {i : S8192x512.Idx} : i ∈ oSet b ↔ (i 0).val / 1024 = b.val := by
  unfold oSet
  rw [Rect.mem_set_unit]
  constructor
  · intro h
    have h0 := h 0
    have e0 : (![b.val * 1024, 0] : Fin 2 → Nat) 0 = b.val * 1024 := rfl
    have e1 : S1024x512.size 0 = 1024 := rfl
    rw [e0, e1] at h0
    omega
  · intro h a
    match a with
    | ⟨0, _⟩ =>
      show b.val * 1024 ≤ (i 0).val ∧ (i 0).val < b.val * 1024 + 1024
      omega
    | ⟨1, _⟩ => exact ⟨Nat.zero_le _, (Nat.zero_add _).symm ▸ (i 1).isLt⟩

theorem oBlk_set (b : Fin 8) : (oBlk b).view.set = oSet b := View.set_slice_whole _ _

theorem oPts_eq (c : Dev nD) (b : Fin 8) (f : Buf (Elt F) ((c : Thread nD τ).loc main_v1)) :
    oPts (F := F) c b f = (((c : Thread nD τ).loc main_v1) ↦[oSet b]{fullShare} f : sProp 𝕄) := by
  unfold oPts
  rw [oBlk_set]

theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem access_set_s (k : Fin 2) : ((Memref.whole cc0_scratch4).access (sRect k) : View sig .tc _ _ _).set = stageSet k :=
  View.set_slice_whole _ _

def sLoaded (c : Dev nD) (k : Fin 2) (f : Buf (Elt F) ((sSlot k).view.loc (c : Thread nD τ))) : FVec F S1x1024x512 .f32 :=
  ((Memref.whole cc0_scratch4).access (sRect k) : View sig .tc _ _ _).read (Elt F) f

theorem wp_load_sslot (c : Dev nD) (k : Fin 2) (f : Buf (Elt F) ((sSlot k).view.loc (c : Thread nD τ)))
    {hl : (Memref.whole cc0_scratch4 : Memref sig .tc .vmem S2x1024x512 .f32).view.LoadsAt (sRect k).toLoadRect}
    {α : Type} {Q : α → sProp 𝕄} {k' : FVec F S1x1024x512 .f32 → Prog (TpuEff nD τ sig (Elt F) Λ₀ .tc) α} :
    ⊢ (iprop(sPts c k f -∗ (sPts c k f -∗ wp frame (wpE (defs₀ (F := F)) 𝒱₀ (c : Thread nD τ) none) Set.univ (k' (sLoaded c k f)) Q)
        -∗ wp frame (wpE (defs₀ (F := F)) 𝒱₀ (c : Thread nD τ) none) Set.univ (.op (.load (Memref.whole cc0_scratch4) (sRect k).toLoadRect hl) k') Q) : sProp 𝕄) :=
  entails_wand (by
    rw [sPts_eq]
    exact wp_load_rect 𝒱₀ (c : Thread nD τ) none Set.univ (m := Memref.whole cc0_scratch4) (r := sRect k)
      (by rw [access_set_s]))

def stored' (c : Dev nD) (k : Fin 2) (f : Buf (Elt F) ((sSlot k).view.loc (c : Thread nD τ))) (v : FVec F S1x1024x512 .f32) :
    Buf (Elt F) ((sSlot k).view.loc (c : Thread nD τ)) :=
  ((Memref.whole cc0_scratch4).access (sRect k) : View sig .tc _ _ _).write (Elt F) f v Finset.univ

theorem wp_store_sslot (c : Dev nD) (k : Fin 2) (f : Buf (Elt F) ((sSlot k).view.loc (c : Thread nD τ))) (v : FVec F S1x1024x512 .f32)
    {hst : ((Memref.whole cc0_scratch4 : Memref sig .tc .vmem S2x1024x512 .f32).access (sRect k)).Stores Finset.univ}
    {hm : (Finset.univ : Finset (sRect k).shape.Idx) = Finset.univ ∨ ∀ a, (sRect k).stride a = 1}
    {α : Type} {Q : α → sProp 𝕄} {k' : PUnit → Prog (TpuEff nD τ sig (Elt F) Λ₀ .tc) α} :
    ⊢ (iprop(sPts c k f -∗ (sPts c k (stored' c k f v) -∗ wp frame (wpE (defs₀ (F := F)) 𝒱₀ (c : Thread nD τ) none) Set.univ (k' ⟨⟩) Q)
        -∗ wp frame (wpE (defs₀ (F := F)) 𝒱₀ (c : Thread nD τ) none) Set.univ (.op (.store (Memref.whole cc0_scratch4) (sRect k) v Finset.univ hst hm) k') Q) : sProp 𝕄) :=
  entails_wand (by
    rw [sPts_eq, sPts_eq]
    exact wp_store 𝒱₀ (c : Thread nD τ) none Set.univ (m := Memref.whole cc0_scratch4) (r := sRect k)
      (by rw [View.setOn_univ, access_set_s]))

theorem read_stored' (c : Dev nD) (k : Fin 2) (f : Buf (Elt F) ((sSlot k).view.loc (c : Thread nD τ))) (y : FVec F S1024x512 .f32) :
    (sSlot k).view.read (Elt F) (stored' c k f (shapeCast S1x1024x512 y Gen.shapeCasts_S1024x512_S1x1024x512)) = y := by
  show shapeCast S1024x512 (((Memref.whole cc0_scratch4).access (sRect k) : View sig .tc _ _ _).read (Elt F)
      (stored' c k f (shapeCast S1x1024x512 y Gen.shapeCasts_S1024x512_S1x1024x512))) Gen.shapeCasts_S1x1024x512_S1024x512 = y
  unfold stored'
  rw [View.read_write_univ]
  exact shapeCast_shapeCast y _ _

abbrev outSem (k : Fin 2) : DmaSem sig := ⟨17 + k.val, by have := k.isLt; show 17 + k.val < 19; omega⟩

abbrev NO : ℕ := (oBlk 0).view.dmaCredit

theorem oBlk_amount (k : Fin 2) (b : Fin 8) : (oBlk b).view.amount (.dma (outSem k)) = NO := rfl
theorem oBlk_dmaCredit (b : Fin 8) : (oBlk b).view.dmaCredit = NO := rfl
theorem NO_pos : 0 < NO := View.dmaCredit_pos _ (by decide)

theorem slotOf_out (k : Fin 2) : slotOf (SemLoc.dma (outSem k) : SemLoc sig) = none := by revert k; decide

def oLanded (c : Dev nD) (k : Fin 2) (b : Fin 8) (fs : Buf (Elt F) ((sSlot k).view.loc (c : Thread nD τ)))
    (fd : Buf (Elt F) ((oBlk b).view.loc (c : Thread nD τ))) : Buf (Elt F) ((oBlk b).view.loc (c : Thread nD τ)) :=
  (oBlk b).view.write (Elt F) fd ((sSlot k).view.read (Elt F) fs) Finset.univ

theorem read_landed (c : Dev nD) (k : Fin 2) (b : Fin 8) (fs : Buf (Elt F) ((sSlot k).view.loc (c : Thread nD τ)))
    (fd : Buf (Elt F) ((oBlk b).view.loc (c : Thread nD τ))) :
    (oBlk b).view.read (Elt F) (oLanded c k b fs fd) = (sSlot k).view.read (Elt F) fs := by
  unfold oLanded; exact View.read_write_univ _ _

def oFlight (c : Dev nD) (k : Fin 2) (b : Fin 8) (fs : Buf (Elt F) ((sSlot k).view.loc (c : Thread nD τ)))
    (fd : Buf (Elt F) ((oBlk b).view.loc (c : Thread nD τ))) : sProp 𝕄 :=
  Transfers.Flight countersEmb (c : Thread nD τ) (SemLoc.dma (outSem k)) () NO iprop(oPts c b (oLanded c k b fs fd) ∗ sPts c k fs)

theorem wp_out_start (c : Dev nD) (k : Fin 2) (b : Fin 8) (tgt : Memref sig .tc .hbm S1024x512 .f32) (ht : tgt = oBlk b)
    (sm : DmaSem sig) (hsm : outSem k = sm)
    (fs : Buf (Elt F) ((sSlot k).view.loc (c : Thread nD τ))) (fd : Buf (Elt F) ((oBlk b).view.loc (c : Thread nD τ)))
    {hs : (sSlot k : Memref sig .tc .vmem S1024x512 .f32).view.WordExact} {hd : tgt.view.WordExact}
    {hsem : DmaTarget.Typed (nD := nD) .vmem (SemLoc.dma sm) (DmaTarget.here tgt : DmaTarget nD τ sig (c : Thread nD τ).2 .hbm S1024x512 .f32)}
    {α : Type} {Q : α → sProp 𝕄} {k' : PUnit → Prog (TpuEff nD τ sig (Elt F) Λ₀ .tc) α} :
    ⊢ (iprop(sPts c k fs -∗ oPts c b fd -∗ semVal ((c : Thread nD τ), SemLoc.dma sm) 0
        -∗ (oFlight c k b fs fd -∗ wp frame (wpE (defs₀ (F := F)) 𝒱₀ (c : Thread nD τ) none) Set.univ (k' ⟨⟩) Q)
        -∗ wp frame (wpE (defs₀ (F := F)) 𝒱₀ (c : Thread nD τ) none) Set.univ
            (.op (.enqueueDma (sSlot k) (.here tgt) (.dma sm) hs hd hsem) k') Q) : sProp 𝕄) := by
  subst ht; subst hsm
  unfold oFlight sPts oPts oLanded
  iintro Hs Ho Hv Hk
  iapply (Transfers.wp_dmaLocal countersEmb 𝒱₀ (c : Thread nD τ) none (src := sSlot k) (via := .same) (dst := oBlk b) (sm := .dma (outSem k))
    (q := fullShare) (fs := fs) (Sd := (oBlk b).view.set) (fd := fd) () NO (oBlk_amount k b) NO_pos (Finset.Subset.refl _)) $$ [Hs Ho Hv]
  · isplitl [Hs]; · iexact Hs
    isplitl [Ho]; · iexact Ho
    iexact Hv
  iexact Hk

theorem wp_out_wait (c : Dev nD) (k : Fin 2) (b : Fin 8) (tgt : Memref sig .tc .hbm S1024x512 .f32) (ht : tgt = oBlk b)
    (sm : DmaSem sig) (hsm : outSem k = sm)
    (fs : Buf (Elt F) ((sSlot k).view.loc (c : Thread nD τ)))
    (fd : Buf (Elt F) ((oBlk b).view.loc (c : Thread nD τ))) (O : CellTallies nD τ sig Unit) (hO : OnRecv O) (W : Waits sig Unit)
    {sp' : Space} {s' : Shape} {e' : EltTy} {src : Memref sig .tc sp' s' e'}
    {hsrc : src.view.WordExact} {hdst : tgt.view.WordExact}
    {α : Type} {Q : α → sProp 𝕄} {k' : PUnit → Prog (TpuEff nD τ sig (Elt F) Λ₀ .tc) α} :
    ⊢ (iprop(oFlight c k b fs fd -∗ owes (c : Thread nD τ) O W -∗ levAts L lv
        -∗ ((sPts c k fs ∗ oPts c b (oLanded c k b fs fd) ∗ semVal ((c : Thread nD τ), SemLoc.dma sm) 0
              ∗ owes (c : Thread nD τ) O (insert (SemLoc.dma sm, ()) W))
            -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 sm src tgt hsrc hdst) k') Q) : sProp 𝕄) := by
  subst ht; subst hsm
  unfold oFlight
  iintro Hf HO #Hlev Hk
  iapply (Transfers.wp_waitLocalO countersEmb 𝒱₀ (c : Thread nD τ) none (sem := outSem k) (srcw := src) (dstw := oBlk b) ()
      (oBlk_dmaCredit b) (O := O) (W := W)) $$ [Hf HO]
  · isplitl [Hf]; · iexact Hf
    isplitl [HO]; · iexact HO
    iapply (mayWait_low c (.dma (outSem k)) (lv_low c (outSem k) (slotOf_out k)) hO); iexact Hlev
  iintro ⟨⟨Ho, Hs⟩, Hv, HO⟩
  iapply Hk
  isplitl [Hs]; · iexact Hs
  isplitl [Ho]; · iexact Ho
  isplitl [Hv]; · iexact Hv
  iexact HO

theorem off5_eq (c : Dev nD) : k0_off5 c = ![c.val * 1024, 0] := (Gen.k0_off5_eq c).trans (by rw [Nat.mul_comm])
theorem off6_eq (c : Dev nD) (r : Fin 7) : k0_off6 c (BitVec.ofNat 32 (1 + r.val)) = ![(src c r).val * 1024, 0] := k0_off6_eq c r

theorem oBlk_own (c : Dev nD) :
    (Memref.whole main_v1 : Memref sig .tc .hbm S8192x512 .f32).slice (Rect.unit (s := S8192x512) (k0_off5 c) S1024x512.size (Gen.k0_off5_inb c)) (fun _ => rfl) = oBlk c :=
  Memref.slice_unit_congr _ (off5_eq c) _ _ _ _
theorem oBlk_from (c : Dev nD) (r : Fin 7) :
    (Memref.whole main_v1 : Memref sig .tc .hbm S8192x512 .f32).slice (Rect.unit (s := S8192x512) (k0_off6 c (BitVec.ofNat 32 (1 + r.val))) S1024x512.size (Gen.k0_off6_inb c r)) (fun _ => rfl)
      = oBlk (src c r) :=
  Memref.slice_unit_congr _ (off6_eq c r) _ _ _ _

end Cert.Kernel.A2A

end
-- ==== Proof.Bits.Closing.lean ====
import proofs.«900798_g7700000000000799_dist_gemm_a2a_m8192_k8192_n4096_f32_relu_v7x_i8_1_alg».proof.Proof.Bits.Proto
import proofs.«900798_g7700000000000799_dist_gemm_a2a_m8192_k8192_n4096_f32_relu_v7x_i8_1_alg».proof.Proof.Bits.OutPath
import proofs.«900798_g7700000000000799_dist_gemm_a2a_m8192_k8192_n4096_f32_relu_v7x_i8_1_alg».proof.Proof.Bits.Spec

noncomputable section

namespace Cert.Kernel.A2A

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem ownSems0_intro (c : Dev nD) :
    (iprop(semVal ((c : Thread nD τ), SemLoc.dma (1 : DmaSem sig)) 0 ∗ semVal ((c : Thread nD τ), SemLoc.dma (2 : DmaSem sig)) 0
        ∗ semVal ((c : Thread nD τ), SemLoc.dma (17 : DmaSem sig)) 0 ∗ semVal ((c : Thread nD τ), SemLoc.dma (18 : DmaSem sig)) 0
        ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0)
        ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0)) : sProp 𝕄)
      ⊢ (Pipeline.ownSems0 osem c : sProp 𝕄) := by
  rw [ownSems0_cells]
  iintro ⟨H1, H2, H17, H18, ⟨S0, S1, S2, S3, S4, S5, S6⟩, ⟨R0, R1, R2, R3, R4, R5, R6⟩⟩
  iframe

theorem oBlk_read_apply (c : Dev nD) (b : Fin 8) (g : Buf (Elt F) ((c : Thread nD τ).loc main_v1)) (x : S1024x512.Idx) :
    (oBlk b).view.read (Elt F) g x = g ((oRect b).emb x) := rfl

theorem exists_row (i : S8192x512.Idx) : ∃ (s : Fin 8) (r : Fin 1024) (n : Fin 512), (oRect s).emb (ix2 r n) = i := by
  have hi : (i 0).val < 8192 := (i 0).isLt
  refine ⟨⟨(i 0).val / 1024, by omega⟩, ⟨(i 0).val % 1024, Nat.mod_lt _ (by decide)⟩, ⟨(i 1).val, (i 1).isLt⟩, ?_⟩
  funext a
  apply Fin.ext
  rw [Rect.emb_apply]
  match a with
  | ⟨0, _⟩ => show (i 0).val / 1024 * 1024 + 1 * ((i 0).val % 1024) = (i 0).val; omega
  | ⟨1, _⟩ => show 0 + 1 * (i 1).val = (i 1).val; omega

theorem outSpec_at (xs : Fin 8 → FVec F S1024x8192 .f32) (ws : Fin 8 → FVec F S8192x4096 .f32) (c s : Fin 8) (r : Fin 1024) (n : Fin 512) :
    Spec.outSpec xs ws c ((oRect s).emb (ix2 r n))
      = if s = c then Spec.yBlk (xs c) (ws c) c (ix2 r n) else Spec.sent (xs s) (ws s) c (ix2 r n) := by
  have h0 : (((oRect s).emb (ix2 r n)) 0).val = s.val * 1024 + r.val := by
    rw [Rect.emb_apply]; show s.val * 1024 + 1 * r.val = _; omega
  have h1 : (((oRect s).emb (ix2 r n)) 1).val = n.val := by
    rw [Rect.emb_apply]; show 0 + 1 * n.val = _; omega
  have key : ∀ (S : Fin 8) (R : Fin 1024) (N : Fin 512), S = s → R = r → N = n →
      (if S = c then Spec.yBlk (xs c) (ws c) c (ix2 R N) else Spec.sent (xs S) (ws S) c (ix2 R N))
        = (if s = c then Spec.yBlk (xs c) (ws c) c (ix2 r n) else Spec.sent (xs s) (ws s) c (ix2 r n)) := by
    rintro _ _ _ rfl rfl rfl; rfl
  have hr := r.isLt
  unfold Spec.outSpec
  exact key _ _ _ (Fin.ext (by show _ / 1024 = s.val; rw [h0]; omega)) (Fin.ext (by show _ % 1024 = r.val; rw [h0]; omega)) (Fin.ext h1)

theorem exists_src : ∀ c s : Dev nD, s ≠ c → ∃ q : Fin 7, s = src c q := by decide

theorem outFinal_of_blocks (c : Dev nD) (g : Buf (Elt F) ((c : Thread nD τ).loc main_v1))
    (hown : (oBlk c).view.read (Elt F) g = ownV m c)
    (hrecv : ∀ q : Fin 7, (oBlk (src c q)).view.read (Elt F) g = extf .f32 (sentV m (src c q) q) Gen.bitsLt_bf16_f32) :
    g = (outFinal m c : Buf (Elt F) ((c : Thread nD τ).loc main_v1)) := by
  funext i
  obtain ⟨s, r, n, rfl⟩ := exists_row i
  show g ((oRect s).emb (ix2 r n)) = Spec.outSpec (fun d => xOf m d) (fun d => wOf m d) c ((oRect s).emb (ix2 r n))
  rw [outSpec_at, ← oBlk_read_apply c s g (ix2 r n)]
  by_cases hs : s = c
  · subst hs
    rw [if_pos rfl, hown]; rfl
  · obtain ⟨q, rfl⟩ := exists_src c s hs
    rw [if_neg hs, hrecv q]
    unfold sentV yOf Spec.sent
    rw [peer_src]

abbrev rowOf (c : Dev nD) : Fin 8 → Fin 8 := ![c, src c 0, src c 1, src c 2, src c 3, src c 4, src c 5, src c 6]

-- Row block `(c − t) mod 8` is the `t`-th a device meets, and that map is its own inverse.
theorem row_parts (c : Dev nD) (t : Fin 8) (i : S8192x512.Idx) :
    i ∈ oSet (rowOf c t) ↔ (⟨(c.val + 8 - (i 0).val / 1024) % 8, Nat.mod_lt _ (by decide)⟩ : Fin 8) = t := by
  have hi : (i 0).val < 8192 := (i 0).isLt
  have key : ∀ (c t b : Fin 8), b.val = (rowOf c t).val ↔ (⟨(c.val + 8 - b.val) % 8, Nat.mod_lt _ (by decide)⟩ : Fin 8) = t := by decide
  rw [mem_oSet]
  exact key c t ⟨(i 0).val / 1024, by omega⟩

theorem obuf_split_perm (c : Dev nD) (f : Buf (Elt F) ((c : Thread nD τ).loc main_v1)) :
    ((((c : Thread nD τ).loc main_v1)) ↦{fullShare} f : sProp 𝕄)
      ⊣⊢ iprop(oPts c c f ∗ oPts c (src c 0) f ∗ oPts c (src c 1) f ∗ oPts c (src c 2) f ∗ oPts c (src c 3) f ∗ oPts c (src c 4) f ∗ oPts c (src c 5) f ∗ oPts c (src c 6) f) := by
  simp only [oPts_eq]
  rw [parts_split (ℓ := (c : Thread nD τ).loc main_v1) (fun t => oSet (rowOf c t)) _ (row_parts c) f, bigSep_fin8]
  exact ⟨.refl, .refl⟩

theorem obuf_join_perm (c : Dev nD) (fc f0 f1 f2 f3 f4 f5 f6 : Buf (Elt F) ((c : Thread nD τ).loc main_v1)) :
    (iprop(oPts c c fc ∗ oPts c (src c 0) f0 ∗ oPts c (src c 1) f1 ∗ oPts c (src c 2) f2 ∗ oPts c (src c 3) f3 ∗ oPts c (src c 4) f4 ∗ oPts c (src c 5) f5 ∗ oPts c (src c 6) f6) : sProp 𝕄)
      ⊢ iprop(∃ g : Buf (Elt F) ((c : Thread nD τ).loc main_v1), ((((c : Thread nD τ).loc main_v1)) ↦{fullShare} g)
          ∗ ⌜(oBlk c).view.read (Elt F) g = (oBlk c).view.read (Elt F) fc
            ∧ (oBlk (src c 0)).view.read (Elt F) g = (oBlk (src c 0)).view.read (Elt F) f0
            ∧ (oBlk (src c 1)).view.read (Elt F) g = (oBlk (src c 1)).view.read (Elt F) f1
            ∧ (oBlk (src c 2)).view.read (Elt F) g = (oBlk (src c 2)).view.read (Elt F) f2
            ∧ (oBlk (src c 3)).view.read (Elt F) g = (oBlk (src c 3)).view.read (Elt F) f3
            ∧ (oBlk (src c 4)).view.read (Elt F) g = (oBlk (src c 4)).view.read (Elt F) f4
            ∧ (oBlk (src c 5)).view.read (Elt F) g = (oBlk (src c 5)).view.read (Elt F) f5
            ∧ (oBlk (src c 6)).view.read (Elt F) g = (oBlk (src c 6)).view.read (Elt F) f6⌝) := by
  have h := parts_join (F := F) (ℓ := (c : Thread nD τ).loc main_v1) (fun t => oSet (rowOf c t)) _ (row_parts c) ![fc, f0, f1, f2, f3, f4, f5, f6] fc
  rw [bigSep_fin8] at h
  simp only [oPts_eq]
  refine h.trans ?_
  iintro ⟨%g, HS, %hg⟩
  iexists g
  isplitl [HS]; · iexact HS
  ipureintro
  have rd : ∀ t : Fin 8, (oBlk (rowOf c t)).view.read (Elt F) g = (oBlk (rowOf c t)).view.read (Elt F) (![fc, f0, f1, f2, f3, f4, f5, f6] t) :=
    fun t => View.read_congr (fun i hi => hg t i (by rw [← oBlk_set]; exact hi))
  exact ⟨rd 0, rd 1, rd 2, rd 3, rd 4, rd 5, rd 6, rd 7⟩

theorem final_out (c : Dev nD) (fc f0 f1 f2 f3 f4 f5 f6 : Buf (Elt F) ((c : Thread nD τ).loc main_v1))
    (hown : (oBlk c).view.read (Elt F) fc = ownV m c)
    (h0 : (oBlk (src c 0)).view.read (Elt F) f0 = extf .f32 (sentV m (src c 0) 0) Gen.bitsLt_bf16_f32)
    (h1 : (oBlk (src c 1)).view.read (Elt F) f1 = extf .f32 (sentV m (src c 1) 1) Gen.bitsLt_bf16_f32)
    (h2 : (oBlk (src c 2)).view.read (Elt F) f2 = extf .f32 (sentV m (src c 2) 2) Gen.bitsLt_bf16_f32)
    (h3 : (oBlk (src c 3)).view.read (Elt F) f3 = extf .f32 (sentV m (src c 3) 3) Gen.bitsLt_bf16_f32)
    (h4 : (oBlk (src c 4)).view.read (Elt F) f4 = extf .f32 (sentV m (src c 4) 4) Gen.bitsLt_bf16_f32)
    (h5 : (oBlk (src c 5)).view.read (Elt F) f5 = extf .f32 (sentV m (src c 5) 5) Gen.bitsLt_bf16_f32)
    (h6 : (oBlk (src c 6)).view.read (Elt F) f6 = extf .f32 (sentV m (src c 6) 6) Gen.bitsLt_bf16_f32) :
    (iprop(oPts c c fc ∗ oPts c (src c 0) f0 ∗ oPts c (src c 1) f1 ∗ oPts c (src c 2) f2 ∗ oPts c (src c 3) f3 ∗ oPts c (src c 4) f4 ∗ oPts c (src c 5) f5 ∗ oPts c (src c 6) f6) : sProp 𝕄)
      ⊢ ((((c : Thread nD τ).loc main_v1)) ↦{fullShare} (outFinal m c : Buf (Elt F) ((c : Thread nD τ).loc main_v1)) : sProp 𝕄) := by
  refine (obuf_join_perm c fc f0 f1 f2 f3 f4 f5 f6).trans ?_
  iintro H
  icases H with ⟨%g, Hg, %hg⟩
  obtain ⟨e, e0, e1, e2, e3, e4, e5, e6⟩ := hg
  have hgo : g = (outFinal m c : Buf (Elt F) ((c : Thread nD τ).loc main_v1)) :=
    outFinal_of_blocks m c g (e.trans hown) (fun q => by
      fin_cases q
      · exact e0.trans h0
      · exact e1.trans h1
      · exact e2.trans h2
      · exact e3.trans h3
      · exact e4.trans h4
      · exact e5.trans h5
      · exact e6.trans h6)
  subst hgo
  iexact Hg

end Cert.Kernel.A2A

end
-- ==== Proof.Bits.Vals.lean ====
import proofs.«900798_g7700000000000799_dist_gemm_a2a_m8192_k8192_n4096_f32_relu_v7x_i8_1_alg».proof.Proof.Bits.Proto
import proofs.«900798_g7700000000000799_dist_gemm_a2a_m8192_k8192_n4096_f32_relu_v7x_i8_1_alg».proof.Proof.Bits.Spec
import proofs.«900798_g7700000000000799_dist_gemm_a2a_m8192_k8192_n4096_f32_relu_v7x_i8_1_alg».proof.Proof.Bits.WTiles

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem xinb : ∀ (t : Fin 4) (a : Fin 2), (![0, t.val * 2048] : Fin 2 → Nat) a + S1024x2048.size a ≤ S1024x8192.size a := by decide

theorem xtile_value (g : (cc0_stg0_0 : Ref sig .tc).ty.Contents (Elt F)) (t : Fin 4) :
    shapeCast S1024x2048 ((Memref.whole cc0_stg0_0).view.readAt (Elt F)
        (Rect.unit (s := S1024x8192) ![0, t.val * 2048] S1024x2048.size (xinb t)).toLoadRect g) Gen.shapeCasts_S1024x2048_S1024x2048
      = Spec.xTile g t := by
  refine (shapeCast_self (s := S1024x2048) _ _).trans ?_
  funext i
  unfold Spec.xTile
  show g ((Rect.unit (s := S1024x8192) ![0, t.val * 2048] S1024x2048.size (xinb t)).emb i) = _
  refine congrArg g (funext fun a => Fin.ext ?_)
  match a with
  | ⟨0, _⟩ =>
    show 0 + 1 * (i 0).val = (i 0).val
    omega
  | ⟨1, _⟩ =>
    show t.val * 2048 + 1 * (i 1).val = t.val * 2048 + (i 1).val
    omega

theorem xtile_value0 (g : (cc0_stg0_0 : Ref sig .tc).ty.Contents (Elt F)) :
    shapeCast S1024x2048 ((Memref.whole cc0_stg0_0).view.readAt (Elt F)
        (Rect.unit (s := S1024x8192) ![0, 0] S1024x2048.size Gen.inb_S1024x8192_S1024x2048_0_0).toLoadRect g) Gen.shapeCasts_S1024x2048_S1024x2048
      = Spec.xTile g 0 := xtile_value g 0
theorem xtile_value1 (g : (cc0_stg0_0 : Ref sig .tc).ty.Contents (Elt F)) :
    shapeCast S1024x2048 ((Memref.whole cc0_stg0_0).view.readAt (Elt F)
        (Rect.unit (s := S1024x8192) ![0, 2048] S1024x2048.size Gen.inb_S1024x8192_S1024x2048_0_2048).toLoadRect g) Gen.shapeCasts_S1024x2048_S1024x2048
      = Spec.xTile g 1 := xtile_value g 1
theorem xtile_value2 (g : (cc0_stg0_0 : Ref sig .tc).ty.Contents (Elt F)) :
    shapeCast S1024x2048 ((Memref.whole cc0_stg0_0).view.readAt (Elt F)
        (Rect.unit (s := S1024x8192) ![0, 4096] S1024x2048.size Gen.inb_S1024x8192_S1024x2048_0_4096).toLoadRect g) Gen.shapeCasts_S1024x2048_S1024x2048
      = Spec.xTile g 2 := xtile_value g 2
theorem xtile_value3 (g : (cc0_stg0_0 : Ref sig .tc).ty.Contents (Elt F)) :
    shapeCast S1024x2048 ((Memref.whole cc0_stg0_0).view.readAt (Elt F)
        (Rect.unit (s := S1024x8192) ![0, 6144] S1024x2048.size Gen.inb_S1024x8192_S1024x2048_0_6144).toLoadRect g) Gen.shapeCasts_S1024x2048_S1024x2048
      = Spec.xTile g 3 := xtile_value g 3

theorem g0_eq (c : Dev nD) (g0 : (cc0_stg0_0 : Ref sig .tc).ty.Contents (Elt F)) (d0 : (cfg0.win 0).block.Idx → Elt F (cfg0.win 0).elt)
    (hg0 : View.read (Elt F) (Memref.whole cc0_stg0_0).view g0 = (dats m 0 c).before 0 Gen.t0_0 d0) : g0 = xOf m c := by
  have h : g0 = (dats m 0 c).before 0 Gen.t0_0 d0 := hg0
  rw [h]; unfold Dat.before; rw [if_pos (Gen.fetch0_0 Gen.t0_0)]; rfl

theorem blk_value (x : FVec F S1024x8192 .f32) (w : FVec F S8192x4096 .f32) (j : Fin 8)
    (a0 a1 a2 a3 : FVec F S1024x2048 .f32) (b0 b1 b2 b3 : FVec F S2048x512 .f32)
    (ha0 : a0 = Spec.xTile x 0) (ha1 : a1 = Spec.xTile x 1) (ha2 : a2 = Spec.xTile x 2) (ha3 : a3 = Spec.xTile x 3)
    (hb0 : b0 = Spec.wTile w 0 j) (hb1 : b1 = Spec.wTile w 1 j) (hb2 : b2 = Spec.wTile w 2 j) (hb3 : b3 = Spec.wTile w 3 j) :
    maximumf (addf (addf (addf (matmul dot_S1024x2048_S2048x512_S1024x512_1_0_0_1_n_n none a0 b0 (constant S1024x512 .f32 0x00000000#32))
        (matmul dot_S1024x2048_S2048x512_S1024x512_1_0_0_1_n_n none a1 b1 (constant S1024x512 .f32 0x00000000#32)))
        (matmul dot_S1024x2048_S2048x512_S1024x512_1_0_0_1_n_n none a2 b2 (constant S1024x512 .f32 0x00000000#32)))
        (matmul dot_S1024x2048_S2048x512_S1024x512_1_0_0_1_n_n none a3 b3 (constant S1024x512 .f32 0x00000000#32)))
      (broadcast S1024x512 (Scalar.ofBits .f32 0x00000000#32)) = Spec.yBlk x w j := by
  subst ha0 ha1 ha2 ha3 hb0 hb1 hb2 hb3
  rfl

theorem own_value (c : Dev nD) : Spec.yBlk (xOf m c) (wOf m c) c = ownV m c := rfl

omit [FloatOps F] in
theorem peer_as_mod (c : Dev nD) (q : Fin 7) :
    (⟨(c.val + (q.val + 1)) % 8, Nat.mod_lt _ (by decide)⟩ : Fin 8) = peer c q :=
  Fin.ext (by show (c.val + (q.val + 1)) % 8 = (c.val + q.val + 1) % 8; rw [Nat.add_assoc])

omit [FloatOps F] in
theorem self_as_mod (c : Dev nD) : (⟨(c.val + 0) % 8, Nat.mod_lt _ (by decide)⟩ : Fin 8) = c :=
  Fin.ext (by show (c.val + 0) % 8 = c.val; rw [Nat.add_zero]; exact Nat.mod_eq_of_lt c.isLt)

theorem acc_value (c : Dev nD) (r : Fin 8) (w : BitVec 32) (hw : w = BitVec.ofNat 32 r.val) (j : Fin 8)
    (hj : (⟨(c.val + r.val) % 8, Nat.mod_lt _ (by decide)⟩ : Fin 8) = j)
    (g0 : (cc0_stg0_0 : Ref sig .tc).ty.Contents (Elt F)) (hg : g0 = xOf m c)
    (inb1 : ∀ a, (k0_off1 c w) a + S2048x512.size a ≤ S8192x4096.size a) (inb2 : ∀ a, (k0_off2 c w) a + S2048x512.size a ≤ S8192x4096.size a)
    (inb3 : ∀ a, (k0_off3 c w) a + S2048x512.size a ≤ S8192x4096.size a) (inb4 : ∀ a, (k0_off4 c w) a + S2048x512.size a ≤ S8192x4096.size a)
    (fd1 : Buf (Elt F) ((wSlot 0).view.loc (c : Thread nD τ))) (fd2 : Buf (Elt F) ((wSlot 1).view.loc (c : Thread nD τ)))
    (fd3 : Buf (Elt F) ((wSlot 0).view.loc (c : Thread nD τ))) (fd4 : Buf (Elt F) ((wSlot 1).view.loc (c : Thread nD τ))) :
    maximumf (addf (addf (addf
        (matmul dot_S1024x2048_S2048x512_S1024x512_1_0_0_1_n_n none ((Memref.whole cc0_stg0_0).view.readAt (Elt F) (Rect.unit (s := S1024x8192) ![0, 0] S1024x2048.size Gen.inb_S1024x8192_S1024x2048_0_0).toLoadRect g0) (shapeCast S2048x512 (wLoaded c 0 (wLanded m c 0 (k0_off1 c w) inb1 fd1)) Gen.shapeCasts_S1x2048x512_S2048x512) (constant S1024x512 .f32 0x00000000#32))
        (matmul dot_S1024x2048_S2048x512_S1024x512_1_0_0_1_n_n none ((Memref.whole cc0_stg0_0).view.readAt (Elt F) (Rect.unit (s := S1024x8192) ![0, 2048] S1024x2048.size Gen.inb_S1024x8192_S1024x2048_0_2048).toLoadRect g0) (shapeCast S2048x512 (wLoaded c 1 (wLanded m c 1 (k0_off2 c w) inb2 fd2)) Gen.shapeCasts_S1x2048x512_S2048x512) (constant S1024x512 .f32 0x00000000#32)))
        (matmul dot_S1024x2048_S2048x512_S1024x512_1_0_0_1_n_n none ((Memref.whole cc0_stg0_0).view.readAt (Elt F) (Rect.unit (s := S1024x8192) ![0, 4096] S1024x2048.size Gen.inb_S1024x8192_S1024x2048_0_4096).toLoadRect g0) (shapeCast S2048x512 (wLoaded c 0 (wLanded m c 0 (k0_off3 c w) inb3 fd3)) Gen.shapeCasts_S1x2048x512_S2048x512) (constant S1024x512 .f32 0x00000000#32)))
        (matmul dot_S1024x2048_S2048x512_S1024x512_1_0_0_1_n_n none ((Memref.whole cc0_stg0_0).view.readAt (Elt F) (Rect.unit (s := S1024x8192) ![0, 6144] S1024x2048.size Gen.inb_S1024x8192_S1024x2048_0_6144).toLoadRect g0) (shapeCast S2048x512 (wLoaded c 1 (wLanded m c 1 (k0_off4 c w) inb4 fd4)) Gen.shapeCasts_S1x2048x512_S2048x512) (constant S1024x512 .f32 0x00000000#32)))
      (broadcast S1024x512 (Scalar.ofBits .f32 0x00000000#32)) = Spec.yBlk (xOf m c) (wOf m c) j := by
  subst hj
  refine (blk_value (x := g0) (wOf m c) _ _ _ _ _ _ _ _ _
    ((shapeCast_self _ _).symm.trans (xtile_value0 g0)) ((shapeCast_self _ _).symm.trans (xtile_value1 g0))
    ((shapeCast_self _ _).symm.trans (xtile_value2 g0)) ((shapeCast_self _ _).symm.trans (xtile_value3 g0))
    (wtile_value1 m c 0 r w hw inb1 fd1) (wtile_value2 m c 1 r w hw inb2 fd2)
    (wtile_value3 m c 0 r w hw inb3 fd3) (wtile_value4 m c 1 r w hw inb4 fd4)).trans ?_
  rw [hg]

end Cert.Kernel.A2A

end
-- ==== Proof.Bits.Finish.lean ====
import proofs.«900798_g7700000000000799_dist_gemm_a2a_m8192_k8192_n4096_f32_relu_v7x_i8_1_alg».proof.Proof.Bits.Proto
import proofs.«900798_g7700000000000799_dist_gemm_a2a_m8192_k8192_n4096_f32_relu_v7x_i8_1_alg».proof.Proof.Bits.Tables
import proofs.«900798_g7700000000000799_dist_gemm_a2a_m8192_k8192_n4096_f32_relu_v7x_i8_1_alg».proof.Proof.Bits.Remote
import proofs.«900798_g7700000000000799_dist_gemm_a2a_m8192_k8192_n4096_f32_relu_v7x_i8_1_alg».proof.Proof.Bits.Slots
import proofs.«900798_g7700000000000799_dist_gemm_a2a_m8192_k8192_n4096_f32_relu_v7x_i8_1_alg».proof.Proof.Bits.SlotOps
import proofs.«900798_g7700000000000799_dist_gemm_a2a_m8192_k8192_n4096_f32_relu_v7x_i8_1_alg».proof.Proof.Bits.WTiles
import proofs.«900798_g7700000000000799_dist_gemm_a2a_m8192_k8192_n4096_f32_relu_v7x_i8_1_alg».proof.Proof.Bits.OutPath
import proofs.«900798_g7700000000000799_dist_gemm_a2a_m8192_k8192_n4096_f32_relu_v7x_i8_1_alg».proof.Proof.Bits.Closing

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem acc_whole (c : Dev nD) (f : Buf (Elt F) ((Memref.whole cc0_scratch1 : Memref sig .tc .vmem S1024x512 .f32).view.loc (c : Thread nD τ))) :
    (((Memref.whole cc0_scratch1 : Memref sig .tc .vmem S1024x512 .f32).view.loc (c : Thread nD τ) ↦[(Memref.whole cc0_scratch1 : Memref sig .tc .vmem S1024x512 .f32).view.set]{fullShare} f) : sProp 𝕄)
      = (((c : Thread nD τ).loc cc0_scratch1) ↦{fullShare} f) := by
  simp only [Memref.view_whole, View.set_whole]

theorem body_finish (K : Dev nD × Fin 15 → ℕ) (c : Dev nD)
    (fw0 fw1 : Buf (Elt F) ((c : Thread nD τ).loc cc0_scratch0))
    (facc : Buf (Elt F) ((Memref.whole cc0_scratch1 : Memref sig .tc .vmem S1024x512 .f32).view.loc (c : Thread nD τ)))
    (fy0 fy1 fy2 fy3 fy4 fy5 fy6 : Buf (Elt F) ((c : Thread nD τ).loc cc0_scratch2))
    (fr0 fr1 fr2 fr3 fr4 fr5 fr6 : Buf (Elt F) ((c : Thread nD τ).loc cc0_scratch3))
    (fs0 fs1 : Buf (Elt F) ((c : Thread nD τ).loc cc0_scratch4))
    (fc fo0 fo1 fo2 fo3 fo4 fo5 fo6 : Buf (Elt F) ((c : Thread nD τ).loc main_v1))
    (hown : (oBlk c).view.read (Elt F) fc = ownV m c)
    (h0 : (oBlk (src c 0)).view.read (Elt F) fo0 = extf .f32 (sentV m (src c 0) 0) Gen.bitsLt_bf16_f32)
    (h1 : (oBlk (src c 1)).view.read (Elt F) fo1 = extf .f32 (sentV m (src c 1) 1) Gen.bitsLt_bf16_f32)
    (h2 : (oBlk (src c 2)).view.read (Elt F) fo2 = extf .f32 (sentV m (src c 2) 2) Gen.bitsLt_bf16_f32)
    (h3 : (oBlk (src c 3)).view.read (Elt F) fo3 = extf .f32 (sentV m (src c 3) 3) Gen.bitsLt_bf16_f32)
    (h4 : (oBlk (src c 4)).view.read (Elt F) fo4 = extf .f32 (sentV m (src c 4) 4) Gen.bitsLt_bf16_f32)
    (h5 : (oBlk (src c 5)).view.read (Elt F) fo5 = extf .f32 (sentV m (src c 5) 5) Gen.bitsLt_bf16_f32)
    (h6 : (oBlk (src c 6)).view.read (Elt F) fo6 = extf .f32 (sentV m (src c 6) 6) Gen.bitsLt_bf16_f32) :
    ⊢ (iprop(cellInv ER (sched m) (K (c, kS 0)) (sendCell c 0)
        -∗ cellInv ER (sched m) (K (c, kS 1)) (sendCell c 1)
        -∗ cellInv ER (sched m) (K (c, kS 2)) (sendCell c 2)
        -∗ cellInv ER (sched m) (K (c, kS 3)) (sendCell c 3)
        -∗ cellInv ER (sched m) (K (c, kS 4)) (sendCell c 4)
        -∗ cellInv ER (sched m) (K (c, kS 5)) (sendCell c 5)
        -∗ cellInv ER (sched m) (K (c, kS 6)) (sendCell c 6)
        -∗ cellInv ER (sched m) (K (c, kR 0)) (recvCell c 0)
        -∗ cellInv ER (sched m) (K (c, kR 1)) (recvCell c 1)
        -∗ cellInv ER (sched m) (K (c, kR 2)) (recvCell c 2)
        -∗ cellInv ER (sched m) (K (c, kR 3)) (recvCell c 3)
        -∗ cellInv ER (sched m) (K (c, kR 4)) (recvCell c 4)
        -∗ cellInv ER (sched m) (K (c, kR 5)) (recvCell c 5)
        -∗ cellInv ER (sched m) (K (c, kR 6)) (recvCell c 6)
        -∗ atPos ER (sendCell c 0) 1 ∅ 0
        -∗ atPos ER (sendCell c 1) 1 ∅ 0
        -∗ atPos ER (sendCell c 2) 1 ∅ 0
        -∗ atPos ER (sendCell c 3) 1 ∅ 0
        -∗ atPos ER (sendCell c 4) 1 ∅ 0
        -∗ atPos ER (sendCell c 5) 1 ∅ 0
        -∗ atPos ER (sendCell c 6) 1 ∅ 0
        -∗ atPos ER (recvCell c 0) 1 ∅ 0
        -∗ atPos ER (recvCell c 1) 1 ∅ 0
        -∗ atPos ER (recvCell c 2) 1 ∅ 0
        -∗ atPos ER (recvCell c 3) 1 ∅ 0
        -∗ atPos ER (recvCell c 4) 1 ∅ 0
        -∗ atPos ER (recvCell c 5) 1 ∅ 0
        -∗ atPos ER (recvCell c 6) 1 ∅ 0
        -∗ semVal ((c : Thread nD τ), SemLoc.dma (1 : DmaSem sig)) 0
        -∗ semVal ((c : Thread nD τ), SemLoc.dma (2 : DmaSem sig)) 0
        -∗ semVal ((c : Thread nD τ), SemLoc.dma (17 : DmaSem sig)) 0
        -∗ semVal ((c : Thread nD τ), SemLoc.dma (18 : DmaSem sig)) 0
        -∗ aPts m c false
        -∗ aPts m c true
        -∗ wPts c 0 fw0
        -∗ wPts c 1 fw1
        -∗ ((Memref.whole cc0_scratch1 : Memref sig .tc .vmem S1024x512 .f32).view.loc (c : Thread nD τ) ↦[(Memref.whole cc0_scratch1 : Memref sig .tc .vmem S1024x512 .f32).view.set]{fullShare} facc)
        -∗ yPts c 0 fy0
        -∗ yPts c 1 fy1
        -∗ yPts c 2 fy2
        -∗ yPts c 3 fy3
        -∗ yPts c 4 fy4
        -∗ yPts c 5 fy5
        -∗ yPts c 6 fy6
        -∗ rPts c 0 fr0
        -∗ rPts c 1 fr1
        -∗ rPts c 2 fr2
        -∗ rPts c 3 fr3
        -∗ rPts c 4 fr4
        -∗ rPts c 5 fr5
        -∗ rPts c 6 fr6
        -∗ sPts c 0 fs0
        -∗ sPts c 1 fs1
        -∗ oPts c c fc
        -∗ oPts c (src c 0) fo0
        -∗ oPts c (src c 1) fo1
        -∗ oPts c (src c 2) fo2
        -∗ oPts c (src c 3) fo3
        -∗ oPts c (src c 4) fo4
        -∗ oPts c (src c 5) fo5
        -∗ oPts c (src c 6) fo6
        -∗ |={Set.univ}=> Φ₁ m c) : sProp 𝕄) := by
  iintro #IS0 #IS1 #IS2 #IS3 #IS4 #IS5 #IS6 #IR0 #IR1 #IR2 #IR3 #IR4 #IR5 #IR6 AS0 AS1 AS2 AS3 AS4 AS5 AS6 AR0 AR1 AR2 AR3 AR4 AR5 AR6 V1 V2 V17 V18 Af At W0 W1 Acc Y0 Y1 Y2 Y3 Y4 Y5 Y6 R0 R1 R2 R3 R4 R5 R6 S0 S1 Oc O0 O1 O2 O3 O4 O5 O6
  imod (close_cell m _ _) $$ IS0 AS0 with ZS0
  imod (close_cell m _ _) $$ IS1 AS1 with ZS1
  imod (close_cell m _ _) $$ IS2 AS2 with ZS2
  imod (close_cell m _ _) $$ IS3 AS3 with ZS3
  imod (close_cell m _ _) $$ IS4 AS4 with ZS4
  imod (close_cell m _ _) $$ IS5 AS5 with ZS5
  imod (close_cell m _ _) $$ IS6 AS6 with ZS6
  imod (close_cell m _ _) $$ IR0 AR0 with ZR0
  imod (close_cell m _ _) $$ IR1 AR1 with ZR1
  imod (close_cell m _ _) $$ IR2 AR2 with ZR2
  imod (close_cell m _ _) $$ IR3 AR3 with ZR3
  imod (close_cell m _ _) $$ IR4 AR4 with ZR4
  imod (close_cell m _ _) $$ IR5 AR5 with ZR5
  imod (close_cell m _ _) $$ IR6 AR6 with ZR6
  ihave Hsem := (ownSems0_intro (F := F) c) $$ [V1 V2 V17 V18 ZS0 ZS1 ZS2 ZS3 ZS4 ZS5 ZS6 ZR0 ZR1 ZR2 ZR3 ZR4 ZR5 ZR6]
  · iframe
  ihave Ha := (arg1_split m c).2 $$ [Af At]
  · iframe
  ihave Hw := (wbuf_join (F := F) c fw0 fw1) $$ [W0 W1]
  · iframe
  ihave Hacc := (Entails.of_eq (acc_whole (F := F) c facc)) $$ Acc
  ihave Hy := (ybuf_join (F := F) c fy0 fy1 fy2 fy3 fy4 fy5 fy6) $$ [Y0 Y1 Y2 Y3 Y4 Y5 Y6]
  · iframe
  ihave Hr := (rbuf_join (F := F) c fr0 fr1 fr2 fr3 fr4 fr5 fr6) $$ [R0 R1 R2 R3 R4 R5 R6]
  · iframe
  ihave Hs := (sbuf_join (F := F) c fs0 fs1) $$ [S0 S1]
  · iframe
  ihave Ho := (final_out m c fc fo0 fo1 fo2 fo3 fo4 fo5 fo6 hown h0 h1 h2 h3 h4 h5 h6) $$ [Oc O0 O1 O2 O3 O4 O5 O6]
  · iframe
  imodintro
  unfold Φ₁
  rw [scopedRest0_eq]
  iframe Ha Ho Hsem Hw Hy Hr Hs
  iexists facc; iexact Hacc

end Cert.Kernel.A2A

end
-- ==== Proof.Bits.Body.lean ====
import proofs.«900798_g7700000000000799_dist_gemm_a2a_m8192_k8192_n4096_f32_relu_v7x_i8_1_alg».proof.Proof.Bits.Proto
import proofs.«900798_g7700000000000799_dist_gemm_a2a_m8192_k8192_n4096_f32_relu_v7x_i8_1_alg».proof.Proof.Bits.Tables
import proofs.«900798_g7700000000000799_dist_gemm_a2a_m8192_k8192_n4096_f32_relu_v7x_i8_1_alg».proof.Proof.Bits.Levels
import proofs.«900798_g7700000000000799_dist_gemm_a2a_m8192_k8192_n4096_f32_relu_v7x_i8_1_alg».proof.Proof.Bits.Slots
import proofs.«900798_g7700000000000799_dist_gemm_a2a_m8192_k8192_n4096_f32_relu_v7x_i8_1_alg».proof.Proof.Bits.Remote
import proofs.«900798_g7700000000000799_dist_gemm_a2a_m8192_k8192_n4096_f32_relu_v7x_i8_1_alg».proof.Proof.Bits.SlotOps
import proofs.«900798_g7700000000000799_dist_gemm_a2a_m8192_k8192_n4096_f32_relu_v7x_i8_1_alg».proof.Proof.Bits.WTiles
import proofs.«900798_g7700000000000799_dist_gemm_a2a_m8192_k8192_n4096_f32_relu_v7x_i8_1_alg».proof.Proof.Bits.OutPath
import proofs.«900798_g7700000000000799_dist_gemm_a2a_m8192_k8192_n4096_f32_relu_v7x_i8_1_alg».proof.Proof.Bits.Closing
import proofs.«900798_g7700000000000799_dist_gemm_a2a_m8192_k8192_n4096_f32_relu_v7x_i8_1_alg».proof.Proof.Bits.Vals
import proofs.«900798_g7700000000000799_dist_gemm_a2a_m8192_k8192_n4096_f32_relu_v7x_i8_1_alg».proof.Proof.Bits.Finish

set_option maxRecDepth 16384

noncomputable section

namespace Cert.Kernel.A2A

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem pt_whole (c : Dev nD) (b : Ref sig .tc) (f : Buf (Elt F) ((c : Thread nD τ).loc b)) :
    ((((c : Thread nD τ).loc b) ↦{fullShare} f : sProp 𝕄))
      = ((Memref.whole b).view.loc (c : Thread nD τ) ↦[(Memref.whole b).view.set]{fullShare} f) := by
  rw [View.set_whole]

theorem prog_ret_bind {E : Type → Type} {α β : Type} (a : α) (k : α → Prog E β) : (Prog.ret a).bind k = k a := rfl

theorem sent_fact (c : Dev nD) (q : Fin 7) (f : Buf (Elt F) ((ySlot q).view.loc (c : Thread nD τ))) (pay : FVec F S1x1024x512 .bf16)
    (h : ∃ v : FVec F S1024x512 .f32, pay = shapeCast S1x1024x512 (truncf .bf16 v Gen.bitsLt_bf16_f32) Gen.shapeCasts_S1024x512_S1x1024x512 ∧ v = yOf m c q) :
    (ySlot q).view.read (Elt F) (stored c q f pay) = sentV m c q := by
  obtain ⟨v, rfl, rfl⟩ := h
  rw [read_stored]; rfl

theorem pay_recv_all (c : Dev nD) (q : Fin 7) :
    bigSep ((sched (F := F) m).duties (recvCell c q) 0) (fun d => (sched (F := F) m).payload (recvCell c q) 0 d) = recvPay m c q := by
  rw [duties_recv, bigSep_singleton, payload_recv]
theorem pay_send_all (c : Dev nD) (q : Fin 7) :
    bigSep ((sched (F := F) m).duties (sendCell c q) 0) (fun d => (sched (F := F) m).payload (sendCell c q) 0 d) = sendPay m c q := by
  rw [duties_send, bigSep_singleton, payload_send]

theorem wp_sig (K : Dev nD × Fin 15 → ℕ) (c : Dev nD) (p q : Fin 7) (hq : rev p = q) (f : Buf (Elt F) ((rSlot q).view.loc (c : Thread nD τ)))
    (O : CellTallies nD τ sig Unit) (W : Waits sig Unit) {α : Type} {k : PUnit → Prog (TpuEff nD τ sig (Elt F) Λ₀ .tc) α} {Q : α → sProp 𝕄} :
    ⊢ (iprop(cellInv ER (sched m) (K (peer c p, 0)) (barCell (peer c p)) -∗ owes (c : Thread nD τ) (O + tB c p) W
        -∗ dutyTok ER (barCell (peer c p)) 0 (rev p) -∗ rPts c q f
        -∗ reached ER (recvCell c q) 0 -∗ reached ER (barCell (peer c p)) 0
        -∗ (owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (peer c p : Thread nD τ) barS 1) k) Q) : sProp 𝕄) := by
  subst hq
  iintro #HI HO Ht Hr #Hrc #Hrb
  iapply (Rounds.wp_signal 𝒱₀ ER (sched m) (c : Thread nD τ) none (dst := (peer c p : Thread nD τ)) (κ := K (peer c p, 0)) (d := rev p)
      (by rw [duties_bar]; exact Finset.mem_univ _) (amount_bar m (peer c p) (rev p)) () O rfl) $$ [HO Ht Hr]
  isplitr; · iexact HI
  isplitl [HO]; · iexact HO
  isplitl [Ht]; · iexact Ht
  isplitl [Hr]
  · rw [payload_bar_peer]
    isplitl [Hr]; · iexists f; iexact Hr
    iexact Hrc
  · iexact Hrb

local macro "go" : tactic => `(tactic| first | sl_exec_parts (disch := first | decide | (repeat (first | exact OnRecv.zero | exact OnRecv.tR _ _ | apply OnRecv.add))) | skip)

local macro "go'" : tactic => `(tactic| (rw [prog_ret_bind]; sl_exec_parts (disch := first | decide | (repeat (first | exact OnRecv.zero | exact OnRecv.tR _ _ | apply OnRecv.add)))))

local macro "open_vals" : tactic => `(tactic| (
  sl_unfold_run_names
  simp only [View.readCov_cons_toLoadRect, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, shapeCast_self]))

set_option hygiene false in
local macro "tile_block " R:num ", " R':num ", " H:ident : tactic => `(tactic| (
  iapply (wp_wtile_start m c 1 2 rfl true (k0_off2 c (BitVec.ofNat 32 $R)) (k0_off2_inb c $R) _) $$ Hwv1 HaT Hs2; iintro Hfl1; go
  iapply (wp_wtile_wait m c 0 1 rfl false (k0_off1 c (BitVec.ofNat 32 $R)) (k0_off1_inb c $R) _ _ $H _) $$ Hfl0 HO Hlev; iintro ⟨Hwv0, HaF, Hs1, HO⟩; go
  iapply (wp_load_wslot c 0 _) $$ Hwv0; iintro Hwv0; go
  iapply (wp_wtile_start m c 0 1 rfl false (k0_off3 c (BitVec.ofNat 32 $R)) (k0_off3_inb c $R) _) $$ Hwv0 HaF Hs1; iintro Hfl0; go
  iapply (wp_wtile_wait m c 1 2 rfl true (k0_off2 c (BitVec.ofNat 32 $R)) (k0_off2_inb c $R) _ _ $H _) $$ Hfl1 HO Hlev; iintro ⟨Hwv1, HaT, Hs2, HO⟩; go
  iapply (wp_load_wslot c 1 _) $$ Hwv1; iintro Hwv1; go
  iapply (wp_wtile_start m c 1 2 rfl true (k0_off4 c (BitVec.ofNat 32 $R)) (k0_off4_inb c $R) _) $$ Hwv1 HaT Hs2; iintro Hfl1; go
  iapply (wp_wtile_wait m c 0 1 rfl false (k0_off3 c (BitVec.ofNat 32 $R)) (k0_off3_inb c $R) _ _ $H _) $$ Hfl0 HO Hlev; iintro ⟨Hwv0, HaF, Hs1, HO⟩; go
  iapply (wp_load_wslot c 0 _) $$ Hwv0; iintro Hwv0; go
  iapply (wp_wtile_start m c 0 1 rfl false (k0_off1 c (BitVec.ofNat 32 $R')) (k0_off1_inb c $R') _) $$ Hwv0 HaF Hs1; iintro Hfl0; go
  iapply (wp_wtile_wait m c 1 2 rfl true (k0_off4 c (BitVec.ofNat 32 $R)) (k0_off4_inb c $R) _ _ $H _) $$ Hfl1 HO Hlev; iintro ⟨Hwv1, HaT, Hs2, HO⟩; go
  iapply (wp_load_wslot c 1 _) $$ Hwv1; iintro Hwv1; go))

set_option hygiene false in
local macro "tile_block_last " H:ident : tactic => `(tactic| (
  iapply (wp_wtile_start m c 1 2 rfl true (k0_off2 c (BitVec.ofNat 32 0)) (k0_off2_inb c 0) _) $$ Hwv1 HaT Hs2; iintro Hfl1; go
  iapply (wp_wtile_wait m c 0 1 rfl false (k0_off1 c (BitVec.ofNat 32 0)) (k0_off1_inb c 0) _ _ $H _) $$ Hfl0 HO Hlev; iintro ⟨Hwv0, HaF, Hs1, HO⟩; go
  iapply (wp_load_wslot c 0 _) $$ Hwv0; iintro Hwv0; go
  iapply (wp_wtile_start m c 0 1 rfl false (k0_off3 c (BitVec.ofNat 32 0)) (k0_off3_inb c 0) _) $$ Hwv0 HaF Hs1; iintro Hfl0; go
  iapply (wp_wtile_wait m c 1 2 rfl true (k0_off2 c (BitVec.ofNat 32 0)) (k0_off2_inb c 0) _ _ $H _) $$ Hfl1 HO Hlev; iintro ⟨Hwv1, HaT, Hs2, HO⟩; go
  iapply (wp_load_wslot c 1 _) $$ Hwv1; iintro Hwv1; go
  iapply (wp_wtile_start m c 1 2 rfl true (k0_off4 c (BitVec.ofNat 32 0)) (k0_off4_inb c 0) _) $$ Hwv1 HaT Hs2; iintro Hfl1; go
  iapply (wp_wtile_wait m c 0 1 rfl false (k0_off3 c (BitVec.ofNat 32 0)) (k0_off3_inb c 0) _ _ $H _) $$ Hfl0 HO Hlev; iintro ⟨Hwv0, HaF, Hs1, HO⟩; go
  iapply (wp_load_wslot c 0 _) $$ Hwv0; iintro Hwv0; go
  iapply (wp_wtile_wait m c 1 2 rfl true (k0_off4 c (BitVec.ofNat 32 0)) (k0_off4_inb c 0) _ _ $H _) $$ Hfl1 HO Hlev; iintro ⟨Hwv1, HaT, Hs2, HO⟩; go
  iapply (wp_load_wslot c 1 _) $$ Hwv1; iintro Hwv1; go))

attribute [local sl_canon] dev1_eq dev2_eq dev3_eq dev4_eq dev5_eq dev6_eq dev7_eq dev8_eq dev9_eq dev10_eq dev11_eq dev12_eq dev13_eq dev14_eq

set_option maxHeartbeats 16000000 in
set_option sl_exec.dmaWindow true in
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc
        ∗ ∃ d, owns (c : Thread nD τ) (Memref.whole cc0_stg0_0) fullShare ((dats m 0 c).before 0 t0_0 d))
     ⊢ wp frame (wpE (defs₀ (F := F)) 𝒱₀ c none) Set.univ (bodyAt0 (F := F) t0_0)
        (fun _ => iprop(Φ₁ m c ∗ (dats m 0 c).owesAt () t0_0.succ
          ∗ owns (c : Thread nD τ) (Memref.whole cc0_stg0_0) fullShare (xOf m c)))
  unfold Φ₀ start ghost invs posns marks payToks locSems arrs
  simp only [bigSep_fin7]
  rw [scopedRest0_eq]
  unfold owns
  iintro ⟨⟨⟨⟨%K, ⟨#HIb, ⟨#HIs0, #HIs1, #HIs2, #HIs3, #HIs4, #HIs5, #HIs6⟩, ⟨#HIr0, #HIr1, #HIr2, #HIr3, #HIr4, #HIr5, #HIr6⟩, ⟨#HIpb0, #HIpb1, #HIpb2, #HIpb3, #HIpb4, #HIpb5, #HIpb6⟩, #HIpr0, #HIpr1, #HIpr2, #HIpr3, #HIpr4, #HIpr5, #HIpr6⟩,
      ⟨HaB, ⟨HaS0, HaS1, HaS2, HaS3, HaS4, HaS5, HaS6⟩, HaR0, HaR1, HaR2, HaR3, HaR4, HaR5, HaR6⟩,
      ⟨⟨#HrPB0, #HrPB1, #HrPB2, #HrPB3, #HrPB4, #HrPB5, #HrPB6⟩, ⟨#HrPR0, #HrPR1, #HrPR2, #HrPR3, #HrPR4, #HrPR5, #HrPR6⟩, ⟨#HrS0, #HrS1, #HrS2, #HrS3, #HrS4, #HrS5, #HrS6⟩, #HrR0, #HrR1, #HrR2, #HrR3, #HrR4, #HrR5, #HrR6⟩,
      ⟨HtB0, HtB1, HtB2, HtB3, HtB4, HtB5, HtB6⟩, ⟨HtR0, HtR1, HtR2, HtR3, HtR4, HtR5, HtR6⟩, HtS0, HtS1, HtS2, HtS3, HtS4, HtS5, HtS6⟩,
      HcB, ⟨HcR0, HcR1, HcR2, HcR3, HcR4, HcR5, HcR6⟩, #Hlev, ⟨Hs1, Hs2, Hs17, Hs18⟩, Hw, Hout⟩,
      ⟨%f0, Hb0⟩, ⟨%f1, Hb1⟩, ⟨%f2, Hb2⟩, ⟨%f3, Hb3⟩, ⟨%f4, Hb4⟩⟩, Ho, ⟨%d0, %g0, %hg0, Hx⟩⟩
  unfold Dat.owesAt Pipeline.owesWithin
  icases Ho with ⟨%W, %hW, HO⟩
  rw [show (dats m 0 c).owed t0_0.castSucc = O₀ c from rfl]
  unfold O₀ OR
  ihave Hr := (rbuf_split c f3).1 $$ Hb3
  icases Hr with ⟨Hr0, Hr1, Hr2, Hr3, Hr4, Hr5, Hr6⟩
  ihave Hy := (ybuf_split c f2).1 $$ Hb2
  icases Hy with ⟨Hy0, Hy1, Hy2, Hy3, Hy4, Hy5, Hy6⟩
  sl_exec_parts
  iapply (wp_sig m K c 0 6 rfl f3 _ W) $$ HIpb0 HO HtB0 Hr6 HrR6 HrPB0; iintro HO; sl_exec_parts
  iapply (wp_sig m K c 1 5 rfl f3 _ W) $$ HIpb1 HO HtB1 Hr5 HrR5 HrPB1; iintro HO; sl_exec_parts
  iapply (wp_sig m K c 2 4 rfl f3 _ W) $$ HIpb2 HO HtB2 Hr4 HrR4 HrPB2; iintro HO; sl_exec_parts
  iapply (wp_sig m K c 3 3 rfl f3 _ W) $$ HIpb3 HO HtB3 Hr3 HrR3 HrPB3; iintro HO; sl_exec_parts
  iapply (wp_sig m K c 4 2 rfl f3 _ W) $$ HIpb4 HO HtB4 Hr2 HrR2 HrPB4; iintro HO; sl_exec_parts
  iapply (wp_sig m K c 5 1 rfl f3 _ W) $$ HIpb5 HO HtB5 Hr1 HrR1 HrPB5; iintro HO; sl_exec_parts
  iapply (wp_sig m K c 6 0 rfl f3 _ W) $$ HIpb6 HO HtB6 Hr0 HrR0 HrPB6; iintro HO; sl_exec_parts
  have hOR : OnRecv (tR c 6 + tR c 5 + tR c 4 + tR c 3 + tR c 2 + tR c 1 + tR c 0) :=
    ((((((OnRecv.tR c 6).add (OnRecv.tR c 5)).add (OnRecv.tR c 4)).add (OnRecv.tR c 3)).add (OnRecv.tR c 2)).add (OnRecv.tR c 1)).add (OnRecv.tR c 0)
  iapply (Rounds.wp_wait_rest_token 𝒱₀ ER (sched m) (c : Thread nD τ) none (κ := K (c, 0))
      (wpE_semWait_eq 𝒱₀ (c : Thread nD τ) none Set.univ) (Set.mem_univ _) () (O := _) (W := W) (R := 0) (m := 0) (T := ∅)
      (by rw [expect_bar]; decide)) $$ [HcB HO HaB]
  · isplitr; · iexact HIb
    isplitl [HcB]; · iexact HcB
    isplitl [HO]; · iexact HO
    isplitr; · iapply (mayWait_low c (.reg barS) (by dsimp only [lv]; rw [if_pos rfl]; decide) hOR); iexact Hlev
    iexact HaB
  iintro ⟨HO, HaB, -, Hpay⟩
  ihave Hp := (Entails.of_eq (rest_bar m c)) $$ Hpay
  unfold barPay
  icases Hp with ⟨⟨⟨%g0', Hp0⟩, #Hq0⟩, ⟨⟨%g1', Hp1⟩, #Hq1⟩, ⟨⟨%g2', Hp2⟩, #Hq2⟩, ⟨⟨%g3', Hp3⟩, #Hq3⟩, ⟨⟨%g4', Hp4⟩, #Hq4⟩, ⟨⟨%g5', Hp5⟩, #Hq5⟩, ⟨⟨%g6', Hp6⟩, #Hq6⟩⟩
  ihave Hb1 := (Entails.of_eq (pt_whole c cc0_scratch1 _)) $$ Hb1
  ihave Hwv := (wbuf_split c f0).1 $$ Hb0
  icases Hwv with ⟨Hwv0, Hwv1⟩
  ihave Ha := (arg1_split m c).1 $$ Hw
  icases Ha with ⟨HaF, HaT⟩
  ihave Hst := (sbuf_split c f4).1 $$ Hb4
  icases Hst with ⟨Hst0, Hst1⟩
  ihave Hob := (obuf_split_perm c _).1 $$ Hout
  icases Hob with ⟨Hoc, Ho0, Ho1, Ho2, Ho3, Ho4, Ho5, Ho6⟩
  have hOR6 : OnRecv (tR c 6 + tR c 5 + tR c 4 + tR c 3 + tR c 2 + tR c 1) :=
    (((((OnRecv.tR c 6).add (OnRecv.tR c 5)).add (OnRecv.tR c 4)).add (OnRecv.tR c 3)).add (OnRecv.tR c 2)).add (OnRecv.tR c 1)
  have hOR5 : OnRecv (tR c 6 + tR c 5 + tR c 4 + tR c 3 + tR c 2) :=
    ((((OnRecv.tR c 6).add (OnRecv.tR c 5)).add (OnRecv.tR c 4)).add (OnRecv.tR c 3)).add (OnRecv.tR c 2)
  have hOR4 : OnRecv (tR c 6 + tR c 5 + tR c 4 + tR c 3) := (((OnRecv.tR c 6).add (OnRecv.tR c 5)).add (OnRecv.tR c 4)).add (OnRecv.tR c 3)
  have hOR3 : OnRecv (tR c 6 + tR c 5 + tR c 4) := ((OnRecv.tR c 6).add (OnRecv.tR c 5)).add (OnRecv.tR c 4)
  have hOR2 : OnRecv (tR c 6 + tR c 5) := (OnRecv.tR c 6).add (OnRecv.tR c 5)
  have hOR1 : OnRecv (tR c 6) := OnRecv.tR c 6
  have hOR0 : OnRecv (0 : CellTallies nD τ sig Unit) := OnRecv.zero
  go
  iapply (wp_wtile_start m c 0 1 rfl false (k0_off1 c (BitVec.ofNat 32 1)) (k0_off1_inb c 1) _) $$ Hwv0 HaF Hs1; iintro Hfl0; go
  tile_block 1, 2, hOR
  iapply (wp_load_yslot c 0 _) $$ Hy0; iintro Hy0
  iapply (wp_store_yslot c 0 _ _) $$ Hy0; iintro Hy0; go'
  iapply (wp_send_slot' m K c ⟨k0_dev8 c, k0_dev8_lt c⟩ 0 (dev8_eq c) _ (sent_fact m c 0 _ _ ?_) _ _ _) $$ HIs0 HIpr0 Hy0 Hp0 HO HtS0 HrS0 HtR0 HrPR0
  · refine ⟨_, rfl, ?_⟩
    open_vals
    exact acc_value m c 1 (BitVec.ofNat 32 1) rfl (peer c 0) (peer_as_mod c 0) g0 (g0_eq m c g0 d0 hg0) _ _ _ _ _ _ _ _
  iintro ⟨HcS0, HO⟩; go
  tile_block 2, 3, hOR6
  iapply (wp_load_yslot c 1 _) $$ Hy1; iintro Hy1
  iapply (wp_store_yslot c 1 _ _) $$ Hy1; iintro Hy1; go'
  iapply (wp_send_slot' m K c ⟨k0_dev9 c, k0_dev9_lt c⟩ 1 (dev9_eq c) _ (sent_fact m c 1 _ _ ?_) _ _ _) $$ HIs1 HIpr1 Hy1 Hp1 HO HtS1 HrS1 HtR1 HrPR1
  · refine ⟨_, rfl, ?_⟩
    open_vals
    exact acc_value m c 2 (BitVec.ofNat 32 2) rfl (peer c 1) (peer_as_mod c 1) g0 (g0_eq m c g0 d0 hg0) _ _ _ _ _ _ _ _
  iintro ⟨HcS1, HO⟩; go
  tile_block 3, 4, hOR5
  iapply (wp_load_yslot c 2 _) $$ Hy2; iintro Hy2
  iapply (wp_store_yslot c 2 _ _) $$ Hy2; iintro Hy2; go'
  iapply (wp_send_slot' m K c ⟨k0_dev10 c, k0_dev10_lt c⟩ 2 (dev10_eq c) _ (sent_fact m c 2 _ _ ?_) _ _ _) $$ HIs2 HIpr2 Hy2 Hp2 HO HtS2 HrS2 HtR2 HrPR2
  · refine ⟨_, rfl, ?_⟩
    open_vals
    exact acc_value m c 3 (BitVec.ofNat 32 3) rfl (peer c 2) (peer_as_mod c 2) g0 (g0_eq m c g0 d0 hg0) _ _ _ _ _ _ _ _
  iintro ⟨HcS2, HO⟩; go
  tile_block 4, 5, hOR4
  iapply (wp_load_yslot c 3 _) $$ Hy3; iintro Hy3
  iapply (wp_store_yslot c 3 _ _) $$ Hy3; iintro Hy3; go'
  iapply (wp_send_slot' m K c ⟨k0_dev11 c, k0_dev11_lt c⟩ 3 (dev11_eq c) _ (sent_fact m c 3 _ _ ?_) _ _ _) $$ HIs3 HIpr3 Hy3 Hp3 HO HtS3 HrS3 HtR3 HrPR3
  · refine ⟨_, rfl, ?_⟩
    open_vals
    exact acc_value m c 4 (BitVec.ofNat 32 4) rfl (peer c 3) (peer_as_mod c 3) g0 (g0_eq m c g0 d0 hg0) _ _ _ _ _ _ _ _
  iintro ⟨HcS3, HO⟩; go
  tile_block 5, 6, hOR3
  iapply (wp_load_yslot c 4 _) $$ Hy4; iintro Hy4
  iapply (wp_store_yslot c 4 _ _) $$ Hy4; iintro Hy4; go'
  iapply (wp_send_slot' m K c ⟨k0_dev12 c, k0_dev12_lt c⟩ 4 (dev12_eq c) _ (sent_fact m c 4 _ _ ?_) _ _ _) $$ HIs4 HIpr4 Hy4 Hp4 HO HtS4 HrS4 HtR4 HrPR4
  · refine ⟨_, rfl, ?_⟩
    open_vals
    exact acc_value m c 5 (BitVec.ofNat 32 5) rfl (peer c 4) (peer_as_mod c 4) g0 (g0_eq m c g0 d0 hg0) _ _ _ _ _ _ _ _
  iintro ⟨HcS4, HO⟩; go
  tile_block 6, 7, hOR2
  iapply (wp_load_yslot c 5 _) $$ Hy5; iintro Hy5
  iapply (wp_store_yslot c 5 _ _) $$ Hy5; iintro Hy5; go'
  iapply (wp_send_slot' m K c ⟨k0_dev13 c, k0_dev13_lt c⟩ 5 (dev13_eq c) _ (sent_fact m c 5 _ _ ?_) _ _ _) $$ HIs5 HIpr5 Hy5 Hp5 HO HtS5 HrS5 HtR5 HrPR5
  · refine ⟨_, rfl, ?_⟩
    open_vals
    exact acc_value m c 6 (BitVec.ofNat 32 6) rfl (peer c 5) (peer_as_mod c 5) g0 (g0_eq m c g0 d0 hg0) _ _ _ _ _ _ _ _
  iintro ⟨HcS5, HO⟩; go
  tile_block 7, 0, hOR1
  rw [show tR c 6 = 0 + tR c 6 from (zero_add _).symm]
  iapply (wp_load_yslot c 6 _) $$ Hy6; iintro Hy6
  iapply (wp_store_yslot c 6 _ _) $$ Hy6; iintro Hy6; go'
  iapply (wp_send_slot' m K c ⟨k0_dev14 c, k0_dev14_lt c⟩ 6 (dev14_eq c) _ (sent_fact m c 6 _ _ ?_) _ _ _) $$ HIs6 HIpr6 Hy6 Hp6 HO HtS6 HrS6 HtR6 HrPR6
  · refine ⟨_, rfl, ?_⟩
    open_vals
    exact acc_value m c 7 (BitVec.ofNat 32 7) rfl (peer c 6) (peer_as_mod c 6) g0 (g0_eq m c g0 d0 hg0) _ _ _ _ _ _ _ _
  iintro ⟨HcS6, HO⟩; go
  tile_block_last hOR0

  iapply (wp_load_sslot c 0 _) $$ Hst0; iintro Hst0
  iapply (wp_store_sslot c 0 _ _) $$ Hst0; iintro Hst0; go'
  iapply (wp_out_start c 0 c _ (oBlk_own c) 17 rfl _ _) $$ Hst0 Hoc Hs17; iintro Hfo0; go

  ihave Hpay := (Entails.of_eq (pay_recv_all m c 0)) $$ HaR0_pay1
  unfold recvPay; icases Hpay with ⟨%gr0, Hr0, %hgr0⟩
  iapply (wp_load_rslot c 0 _) $$ Hr0; iintro Hr0; go
  iapply (wp_load_sslot c 1 _) $$ Hst1; iintro Hst1
  iapply (wp_store_sslot c 1 _ _) $$ Hst1; iintro Hst1; go'
  iapply (wp_out_start c 1 (src c 0) _ (oBlk_from c 0) 18 rfl _ _) $$ Hst1 Ho0 Hs18; iintro Hfo1; go

  iapply (wp_out_wait c 0 c _ (oBlk_own c) 17 rfl _ _ _ hOR0 _) $$ Hfo0 HO Hlev; iintro ⟨Hst0, Hoc, Hs17, HO⟩; go
  ihave Hpay := (Entails.of_eq (pay_recv_all m c 1)) $$ HaR1_pay1
  unfold recvPay; icases Hpay with ⟨%gr1, Hr1, %hgr1⟩
  iapply (wp_load_rslot c 1 _) $$ Hr1; iintro Hr1; go
  iapply (wp_load_sslot c 0 _) $$ Hst0; iintro Hst0
  iapply (wp_store_sslot c 0 _ _) $$ Hst0; iintro Hst0; go'
  iapply (wp_out_start c 0 (src c 1) _ (oBlk_from c 1) 17 rfl _ _) $$ Hst0 Ho1 Hs17; iintro Hfo0; go

  iapply (wp_out_wait c 1 (src c 0) _ (oBlk_from c 0) 18 rfl _ _ _ hOR0 _) $$ Hfo1 HO Hlev; iintro ⟨Hst1, Ho0, Hs18, HO⟩; go
  ihave Hpay := (Entails.of_eq (pay_recv_all m c 2)) $$ HaR2_pay1
  unfold recvPay; icases Hpay with ⟨%gr2, Hr2, %hgr2⟩
  iapply (wp_load_rslot c 2 _) $$ Hr2; iintro Hr2; go
  iapply (wp_load_sslot c 1 _) $$ Hst1; iintro Hst1
  iapply (wp_store_sslot c 1 _ _) $$ Hst1; iintro Hst1; go'
  iapply (wp_out_start c 1 (src c 2) _ (oBlk_from c 2) 18 rfl _ _) $$ Hst1 Ho2 Hs18; iintro Hfo1; go

  iapply (wp_out_wait c 0 (src c 1) _ (oBlk_from c 1) 17 rfl _ _ _ hOR0 _) $$ Hfo0 HO Hlev; iintro ⟨Hst0, Ho1, Hs17, HO⟩; go
  ihave Hpay := (Entails.of_eq (pay_recv_all m c 3)) $$ HaR3_pay1
  unfold recvPay; icases Hpay with ⟨%gr3, Hr3, %hgr3⟩
  iapply (wp_load_rslot c 3 _) $$ Hr3; iintro Hr3; go
  iapply (wp_load_sslot c 0 _) $$ Hst0; iintro Hst0
  iapply (wp_store_sslot c 0 _ _) $$ Hst0; iintro Hst0; go'
  iapply (wp_out_start c 0 (src c 3) _ (oBlk_from c 3) 17 rfl _ _) $$ Hst0 Ho3 Hs17; iintro Hfo0; go

  iapply (wp_out_wait c 1 (src c 2) _ (oBlk_from c 2) 18 rfl _ _ _ hOR0 _) $$ Hfo1 HO Hlev; iintro ⟨Hst1, Ho2, Hs18, HO⟩; go
  ihave Hpay := (Entails.of_eq (pay_recv_all m c 4)) $$ HaR4_pay1
  unfold recvPay; icases Hpay with ⟨%gr4, Hr4, %hgr4⟩
  iapply (wp_load_rslot c 4 _) $$ Hr4; iintro Hr4; go
  iapply (wp_load_sslot c 1 _) $$ Hst1; iintro Hst1
  iapply (wp_store_sslot c 1 _ _) $$ Hst1; iintro Hst1; go'
  iapply (wp_out_start c 1 (src c 4) _ (oBlk_from c 4) 18 rfl _ _) $$ Hst1 Ho4 Hs18; iintro Hfo1; go

  iapply (wp_out_wait c 0 (src c 3) _ (oBlk_from c 3) 17 rfl _ _ _ hOR0 _) $$ Hfo0 HO Hlev; iintro ⟨Hst0, Ho3, Hs17, HO⟩; go
  ihave Hpay := (Entails.of_eq (pay_recv_all m c 5)) $$ HaR5_pay1
  unfold recvPay; icases Hpay with ⟨%gr5, Hr5, %hgr5⟩
  iapply (wp_load_rslot c 5 _) $$ Hr5; iintro Hr5; go
  iapply (wp_load_sslot c 0 _) $$ Hst0; iintro Hst0
  iapply (wp_store_sslot c 0 _ _) $$ Hst0; iintro Hst0; go'
  iapply (wp_out_start c 0 (src c 5) _ (oBlk_from c 5) 17 rfl _ _) $$ Hst0 Ho5 Hs17; iintro Hfo0; go

  iapply (wp_out_wait c 1 (src c 4) _ (oBlk_from c 4) 18 rfl _ _ _ hOR0 _) $$ Hfo1 HO Hlev; iintro ⟨Hst1, Ho4, Hs18, HO⟩; go
  ihave Hpay := (Entails.of_eq (pay_recv_all m c 6)) $$ HaR6_pay1
  unfold recvPay; icases Hpay with ⟨%gr6, Hr6, %hgr6⟩
  iapply (wp_load_rslot c 6 _) $$ Hr6; iintro Hr6; go
  iapply (wp_load_sslot c 1 _) $$ Hst1; iintro Hst1
  iapply (wp_store_sslot c 1 _ _) $$ Hst1; iintro Hst1; go'
  iapply (wp_out_start c 1 (src c 6) _ (oBlk_from c 6) 18 rfl _ _) $$ Hst1 Ho6 Hs18; iintro Hfo1; go

  iapply (wp_out_wait c 0 (src c 5) _ (oBlk_from c 5) 17 rfl _ _ _ hOR0 _) $$ Hfo0 HO Hlev; iintro ⟨Hst0, Ho5, Hs17, HO⟩; go
  iapply (wp_out_wait c 1 (src c 6) _ (oBlk_from c 6) 18 rfl _ _ _ hOR0 _) $$ Hfo1 HO Hlev; iintro ⟨Hst1, Ho6, Hs18, HO⟩; go

  ihave Hpay := (Entails.of_eq (pay_send_all m c 0)) $$ HaS0_pay1
  unfold sendPay; icases Hpay with ⟨%fy0, Hy0, %hfy0⟩
  ihave Hpay := (Entails.of_eq (pay_send_all m c 1)) $$ HaS1_pay1
  unfold sendPay; icases Hpay with ⟨%fy1, Hy1, %hfy1⟩
  ihave Hpay := (Entails.of_eq (pay_send_all m c 2)) $$ HaS2_pay1
  unfold sendPay; icases Hpay with ⟨%fy2, Hy2, %hfy2⟩
  ihave Hpay := (Entails.of_eq (pay_send_all m c 3)) $$ HaS3_pay1
  unfold sendPay; icases Hpay with ⟨%fy3, Hy3, %hfy3⟩
  ihave Hpay := (Entails.of_eq (pay_send_all m c 4)) $$ HaS4_pay1
  unfold sendPay; icases Hpay with ⟨%fy4, Hy4, %hfy4⟩
  ihave Hpay := (Entails.of_eq (pay_send_all m c 5)) $$ HaS5_pay1
  unfold sendPay; icases Hpay with ⟨%fy5, Hy5, %hfy5⟩
  ihave Hpay := (Entails.of_eq (pay_send_all m c 6)) $$ HaS6_pay1
  unfold sendPay; icases Hpay with ⟨%fy6, Hy6, %hfy6⟩

  imod (body_finish m K c _ _ _ _ _ _ _ _ _ _ _ _ _ _ _ _ _ _ _ _ _ _ _ _ _ _ _ ?_ ?_ ?_ ?_ ?_ ?_ ?_ ?_) $$ HIs0 HIs1 HIs2 HIs3 HIs4 HIs5 HIs6 HIr0 HIr1 HIr2 HIr3 HIr4 HIr5 HIr6 HaS0 HaS1 HaS2 HaS3 HaS4 HaS5 HaS6 HaR0 HaR1 HaR2 HaR3 HaR4 HaR5 HaR6 Hs1 Hs2 Hs17 Hs18 HaF HaT Hwv0 Hwv1 Hb1 Hy0 Hy1 Hy2 Hy3 Hy4 Hy5 Hy6 Hr0 Hr1 Hr2 Hr3 Hr4 Hr5 Hr6 Hst0 Hst1 Hoc Ho0 Ho1 Ho2 Ho3 Ho4 Ho5 Ho6 with HΦ
  ·
    refine (read_landed c 0 c _ _).trans ((read_stored' c 0 _ _).trans ?_)
    open_vals
    exact (acc_value m c 0 (BitVec.ofNat 32 0) rfl c (self_as_mod c) g0 (g0_eq m c g0 d0 hg0) _ _ _ _ _ _ _ _).trans (own_value m c)
  · refine (read_landed c 1 (src c 0) _ _).trans ((read_stored' c 1 _ _).trans ?_)
    sl_unfold_run_names
    rw [loaded_rslot, hgr0]
  · refine (read_landed c 0 (src c 1) _ _).trans ((read_stored' c 0 _ _).trans ?_)
    sl_unfold_run_names
    rw [loaded_rslot, hgr1]
  · refine (read_landed c 1 (src c 2) _ _).trans ((read_stored' c 1 _ _).trans ?_)
    sl_unfold_run_names
    rw [loaded_rslot, hgr2]
  · refine (read_landed c 0 (src c 3) _ _).trans ((read_stored' c 0 _ _).trans ?_)
    sl_unfold_run_names
    rw [loaded_rslot, hgr3]
  · refine (read_landed c 1 (src c 4) _ _).trans ((read_stored' c 1 _ _).trans ?_)
    sl_unfold_run_names
    rw [loaded_rslot, hgr4]
  · refine (read_landed c 0 (src c 5) _ _).trans ((read_stored' c 0 _ _).trans ?_)
    sl_unfold_run_names
    rw [loaded_rslot, hgr5]
  · refine (read_landed c 1 (src c 6) _ _).trans ((read_stored' c 1 _ _).trans ?_)
    sl_unfold_run_names
    rw [loaded_rslot, hgr6]

  rw [wp_ret]
  imodintro
  rw [show (dats m 0 c).owed t0_0.succ = 0 from rfl]
  isplitl [HΦ]; · iexact HΦ
  isplitl [HO]
  · iexists _
    isplitr
    swap
    · iexact HO
    · ipureintro; exact fun _ _ => Or.inl trivial
  iexists g0
  isplitr; · ipureintro; rw [View.read_whole]; exact g0_eq m c g0 d0 hg0
  iexact Hx

end Cert.Kernel.A2A

end
-- ==== Proof.lean ====
/-
  On eight devices, device `c` ends with column block `c` of `relu (X · W)`: row block `s` of its result is device `s`'s
  product of its rows of `X` with columns `c` of `W`, a sum of 8192 terms taken as four sums of 2048, which over the
  extended reals is the same sum; narrowing to bf16 and widening again change no value there.
-/
import proofs.«900798_g7700000000000799_dist_gemm_a2a_m8192_k8192_n4096_f32_relu_v7x_i8_1_alg».proof.Defs
import proofs.«900798_g7700000000000799_dist_gemm_a2a_m8192_k8192_n4096_f32_relu_v7x_i8_1_alg».proof.Proof.Gen.Kernel
import proofs.«900798_g7700000000000799_dist_gemm_a2a_m8192_k8192_n4096_f32_relu_v7x_i8_1_alg».proof.Proof.Gen.KernelIdeal
import proofs.«900798_g7700000000000799_dist_gemm_a2a_m8192_k8192_n4096_f32_relu_v7x_i8_1_alg».proof.Proof.Gen.ReferenceIdeal
import proofs.«900798_g7700000000000799_dist_gemm_a2a_m8192_k8192_n4096_f32_relu_v7x_i8_1_alg».proof.Proof.Gen.Pre_finite_inputs_Kernel
import proofs.«900798_g7700000000000799_dist_gemm_a2a_m8192_k8192_n4096_f32_relu_v7x_i8_1_alg».proof.Proof.Gen.Pre_finite_inputs_ReferenceIdeal
import proofs.«900798_g7700000000000799_dist_gemm_a2a_m8192_k8192_n4096_f32_relu_v7x_i8_1_alg».proof.Proof.RefRun
import proofs.«900798_g7700000000000799_dist_gemm_a2a_m8192_k8192_n4096_f32_relu_v7x_i8_1_alg».proof.Proof.Final
import proofs.«900798_g7700000000000799_dist_gemm_a2a_m8192_k8192_n4096_f32_relu_v7x_i8_1_alg».proof.Proof.Launch
import proofs.«900798_g7700000000000799_dist_gemm_a2a_m8192_k8192_n4096_f32_relu_v7x_i8_1_alg».proof.Proof.Body
import proofs.«900798_g7700000000000799_dist_gemm_a2a_m8192_k8192_n4096_f32_relu_v7x_i8_1_alg».proof.Proof.Bits.Launch
import proofs.«900798_g7700000000000799_dist_gemm_a2a_m8192_k8192_n4096_f32_relu_v7x_i8_1_alg».proof.Proof.Bits.Body

noncomputable section

namespace Cert.Proof

open Idealize.ShloMosaic Idealize.SL.Sem

-- Each kernel frame is the kernel's run with the result's clause dropped.
theorem frame_k : Cert.frame_Kernel := fun m ρ _ =>
  (θ_run _ _ _).mono (fun _ h c => (h c).2) (Cert.Kernel.A2A.run_main m ρ (Cert.Kernel.A2A.body_obligation m))

theorem frame_ki : Cert.frame_KernelIdeal := fun m ρ _ =>
  (θ_run _ _ _).mono (fun _ h c => (h c).2) (Cert.KernelIdeal.A2A.run_main m ρ (Cert.KernelIdeal.A2A.body_obligation m))

theorem algebraic : Cert.algebraic_KernelIdeal_ReferenceIdeal :=
  Cert.Proof.IdealClaims.algebraic_of_run (fun m ρ => Cert.KernelIdeal.A2A.run_main m ρ (Cert.KernelIdeal.A2A.body_obligation m))

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.Proof.RefSide.frame_ri, trivial, algebraic⟩

end Cert.Proof

end
